-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S640000 : S_.BroadcastsInDim S640000 (![] : Fin 0 → Fin S640000.rank)
  reducesTo_S640000_S_d0 : S640000.ReducesTo [0] S_

variable [Facts]

def fn_part3 {F : FTy → Type} [FloatOps F] (main_arg2 : IVec S640000 32) (main_v47 : IVec S_ 1) (main_v49 : IVec S640000 1) (main_c_19 : IVec S_ 1) : IVec S_ 1 :=
  let main_v50 : IVec S_ 1 := (fun x v => Host.reduce IntOp.andi x v reducesTo_S640000_S_d0 h_S_) main_v49 main_c_19
  let main_v51 : IVec S_ 1 := andi main_v47 main_v50
  let main_c_20 : IVec S_ 32 := constantI S_ 32 0#32
  let main_v52 : IVec S640000 32 := broadcastInDim S640000 ![] bcast_S_S640000 main_c_20
  let main_v53 : IVec S640000 1 := cmpi .sge main_arg2 main_v52
  let main_c_21 : IVec S_ 1 := constantI S_ 1 1#1
  let main_v54 : IVec S_ 1 := (fun x v => Host.reduce IntOp.andi x v reducesTo_S640000_S_d0 h_S_) main_v53 main_c_21
  let main_v55 : IVec S_ 1 := andi main_v51 main_v54
  let main_c_22 : IVec S_ 32 := constantI S_ 32 10000#32
  let main_v56 : IVec S640000 32 := broadcastInDim S640000 ![] bcast_S_S640000 main_c_22
  let main_v57 : IVec S640000 1 := cmpi .slt main_arg2 main_v56
  let main_c_23 : IVec S_ 1 := constantI S_ 1 1#1
  let main_v58 : IVec S_ 1 := (fun x v => Host.reduce IntOp.andi x v reducesTo_S640000_S_d0 h_S_) main_v57 main_c_23
  let main_v59 : IVec S_ 1 := andi main_v55 main_v58
  main_v59

def fn_part2 {F : FTy → Type} [FloatOps F] (main_arg1 : IVec S640000 32) (main_arg2 : IVec S640000 32) (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S640000 32 := broadcastInDim S640000 ![] bcast_S_S640000 main_c_16
  let main_v45 : IVec S640000 1 := cmpi .sge main_arg1 main_v44
  let main_c_17 : IVec S_ 1 := constantI S_ 1 1#1
  let main_v46 : IVec S_ 1 := (fun x v => Host.reduce IntOp.andi x v reducesTo_S640000_S_d0 h_S_) main_v45 main_c_17
  let main_v47 : IVec S_ 1 := andi main_v43 main_v46
  let main_c_18 : IVec S_ 32 := constantI S_ 32 10000#32
  let main_v48 : IVec S640000 32 := broadcastInDim S640000 ![] bcast_S_S640000 main_c_18
  let main_v49 : IVec S640000 1 := cmpi .slt main_arg1 main_v48
  let main_c_19 : IVec S_ 1 := constantI S_ 1 1#1
  fn_part3 (F := F) main_arg2 main_v47 main_v49 main_c_19

def fn_part1 {F : FTy → Type} [FloatOps F] (main_arg1 : IVec S640000 32) (main_arg2 : IVec S640000 32) (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg9 main_arg10 main_v33

def fn {F : FTy → Type} [FloatOps F] (main_arg0 : FVec F S10000x128 .f32) (main_arg1 : IVec S640000 32) (main_arg2 : IVec S640000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_arg9 main_arg10 main_v13 main_v16
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S10240x10240 : Shape := ⟨2, ![10240, 10240]⟩
abbrev S640000x1 : Shape := ⟨2, ![640000, 1]⟩
abbrev S640000x2 : Shape := ⟨2, ![640000, 2]⟩
abbrev S10240x128 : Shape := ⟨2, ![10240, 128]⟩
abbrev S10240 : Shape := ⟨1, ![10240]⟩
abbrev S10240x1 : Shape := ⟨2, ![10240, 1]⟩
abbrev S1x128 : Shape := ⟨2, ![1, 128]⟩
abbrev S1280x5120 : Shape := ⟨2, ![1280, 5120]⟩
abbrev S1280x128 : Shape := ⟨2, ![1280, 128]⟩
abbrev S5120x128 : Shape := ⟨2, ![5120, 128]⟩
abbrev S1 : Shape := ⟨1, ![1]⟩
abbrev S10240x64 : Shape := ⟨2, ![10240, 64]⟩
abbrev S10000x64 : Shape := ⟨2, ![10000, 64]⟩

abbrev nBuf : Space → Nat
  | .hbm => 101
  | .vmem => 40
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S10240x10240, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x1, .i32⟩
  | .hbm, ⟨29, _⟩ => ⟨S640000x2, .i32⟩
  | .hbm, ⟨30, _⟩ => ⟨S_, .i32⟩
  | .hbm, ⟨31, _⟩ => ⟨S640000, .i32⟩
  | .hbm, ⟨32, _⟩ => ⟨S10240x10240, .i32⟩
  | .hbm, ⟨33, _⟩ => ⟨S10240x10240, .bf16⟩
  | .hbm, ⟨34, _⟩ => ⟨S_, .i32⟩
  | .hbm, ⟨35, _⟩ => ⟨S_, .f32⟩
  | .hbm, ⟨36, _⟩ => ⟨S10240x128, .f32⟩
  | .hbm, ⟨37, _⟩ => ⟨S10240, .i32⟩
  | .hbm, ⟨38, _⟩ => ⟨S_, .i32⟩
  | .hbm, ⟨39, _⟩ => ⟨S10240, .i32⟩
  | .hbm, ⟨40, _⟩ => ⟨S10240, .i1⟩
  | .hbm, ⟨41, _⟩ => ⟨S10240x1, .i1⟩
  | .hbm, ⟨42, _⟩ => ⟨S_, .f32⟩
  | .hbm, ⟨43, _⟩ => ⟨S10240x128, .f32⟩
  | .hbm, ⟨44, _⟩ => ⟨S10240x128, .i1⟩
  | .hbm, ⟨45, _⟩ => ⟨S10240x128, .f32⟩
  | .hbm, ⟨46, _⟩ => ⟨S128x128, .bf16⟩
  | .hbm, ⟨47, _⟩ => ⟨S1x128, .f32⟩
  | .hbm, ⟨48, _⟩ => ⟨S10240x128, .bf16⟩
  | .hbm, ⟨49, _⟩ => ⟨S10240x128, .f32⟩
  | .hbm, ⟨50, _⟩ => ⟨S10240, .i32⟩
  | .hbm, ⟨51, _⟩ => ⟨S_, .i32⟩
  | .hbm, ⟨52, _⟩ => ⟨S10240, .i32⟩
  | .hbm, ⟨53, _⟩ => ⟨S10240, .i1⟩
  | .hbm, ⟨54, _⟩ => ⟨S10240x1, .i1⟩
  | .hbm, ⟨55, _⟩ => ⟨S_, .f32⟩
  | .hbm, ⟨56, _⟩ => ⟨S10240x128, .f32⟩
  | .hbm, ⟨57, _⟩ => ⟨S10240x128, .i1⟩
  | .hbm, ⟨58, _⟩ => ⟨S10240x128, .f32⟩
  | .hbm, ⟨59, _⟩ => ⟨S128x128, .bf16⟩
  | .hbm, ⟨60, _⟩ => ⟨S1x128, .f32⟩
  | .hbm, ⟨61, _⟩ => ⟨S10240x128, .bf16⟩
  | .hbm, ⟨62, _⟩ => ⟨S10240x128, .f32⟩
  | .hbm, ⟨63, _⟩ => ⟨S10240, .i32⟩
  | .hbm, ⟨64, _⟩ => ⟨S_, .i32⟩
  | .hbm, ⟨65, _⟩ => ⟨S10240, .i32⟩
  | .hbm, ⟨66, _⟩ => ⟨S10240, .i1⟩
  | .hbm, ⟨67, _⟩ => ⟨S10240x1, .i1⟩
  | .hbm, ⟨68, _⟩ => ⟨S_, .f32⟩
  | .hbm, ⟨69, _⟩ => ⟨S10240x128, .f32⟩
  | .hbm, ⟨70, _⟩ => ⟨S10240x128, .i1⟩
  | .hbm, ⟨71, _⟩ => ⟨S10240x128, .f32⟩
  | .hbm, ⟨72, _⟩ => ⟨S128x128, .bf16⟩
  | .hbm, ⟨73, _⟩ => ⟨S1x128, .f32⟩
  | .hbm, ⟨74, _⟩ => ⟨S10240x128, .bf16⟩
  | .hbm, ⟨75, _⟩ => ⟨S10240x128, .f32⟩
  | .hbm, ⟨76, _⟩ => ⟨S10240, .i32⟩
  | .hbm, ⟨77, _⟩ => ⟨S_, .i32⟩
  | .hbm, ⟨78, _⟩ => ⟨S10240, .i32⟩
  | .hbm, ⟨79, _⟩ => ⟨S10240, .i1⟩
  | .hbm, ⟨80, _⟩ => ⟨S10240x1, .i1⟩
  | .hbm, ⟨81, _⟩ => ⟨S_, .f32⟩
  | .hbm, ⟨82, _⟩ => ⟨S10240x128, .f32⟩
  | .hbm, ⟨83, _⟩ => ⟨S10240x128, .i1⟩
  | .hbm, ⟨84, _⟩ => ⟨S10240x128, .f32⟩
  | .hbm, ⟨85, _⟩ => ⟨S_, .f32⟩
  | .hbm, ⟨86, _⟩ => ⟨S128x128, .f32⟩
  | .hbm, ⟨87, _⟩ => ⟨S_, .i32⟩
  | .hbm, ⟨88, _⟩ => ⟨S1, .i32⟩
  | .hbm, ⟨89, _⟩ => ⟨S128x128, .f32⟩
  | .hbm, ⟨90, _⟩ => ⟨S_, .f32⟩
  | .hbm, ⟨91, _⟩ => ⟨S128, .f32⟩
  | .hbm, ⟨92, _⟩ => ⟨S_, .i32⟩
  | .hbm, ⟨93, _⟩ => ⟨S1, .i32⟩
  | .hbm, ⟨94, _⟩ => ⟨S128, .f32⟩
  | .hbm, ⟨95, _⟩ => ⟨S128x128, .bf16⟩
  | .hbm, ⟨96, _⟩ => ⟨S1x128, .f32⟩
  | .hbm, ⟨97, _⟩ => ⟨S10240x128, .bf16⟩
  | .hbm, ⟨98, _⟩ => ⟨S10240x128, .f32⟩
  | .hbm, ⟨99, _⟩ => ⟨S10240x64, .f32⟩
  | .hbm, ⟨100, _⟩ => ⟨S10000x64, .f32⟩
  | .local _ .vmem, ⟨0, _⟩ => ⟨S1280x5120, .bf16⟩
  | .local _ .vmem, ⟨1, _⟩ => ⟨S1280x5120, .bf16⟩
  | .local _ .vmem, ⟨2, _⟩ => ⟨S10240x128, .bf16⟩
  | .local _ .vmem, ⟨3, _⟩ => ⟨S1280x128, .f32⟩
  | .local _ .vmem, ⟨4, _⟩ => ⟨S1280x128, .f32⟩
  | .local _ .vmem, ⟨5, _⟩ => ⟨S128x128, .bf16⟩
  | .local _ .vmem, ⟨6, _⟩ => ⟨S1x128, .f32⟩
  | .local _ .vmem, ⟨7, _⟩ => ⟨S1280x128, .f32⟩
  | .local _ .vmem, ⟨8, _⟩ => ⟨S1280x128, .f32⟩
  | .local _ .vmem, ⟨9, _⟩ => ⟨S1280x128, .f32⟩
  | .local _ .vmem, ⟨10, _⟩ => ⟨S1280x5120, .bf16⟩
  | .local _ .vmem, ⟨11, _⟩ => ⟨S1280x5120, .bf16⟩
  | .local _ .vmem, ⟨12, _⟩ => ⟨S10240x128, .bf16⟩
  | .local _ .vmem, ⟨13, _⟩ => ⟨S1280x128, .f32⟩
  | .local _ .vmem, ⟨14, _⟩ => ⟨S1280x128, .f32⟩
  | .local _ .vmem, ⟨15, _⟩ => ⟨S128x128, .bf16⟩
  | .local _ .vmem, ⟨16, _⟩ => ⟨S1x128, .f32⟩
  | .local _ .vmem, ⟨17, _⟩ => ⟨S1280x128, .f32⟩
  | .local _ .vmem, ⟨18, _⟩ => ⟨S1280x128, .f32⟩
  | .local _ .vmem, ⟨19, _⟩ => ⟨S1280x128, .f32⟩
  | .local _ .vmem, ⟨20, _⟩ => ⟨S1280x5120, .bf16⟩
  | .local _ .vmem, ⟨21, _⟩ => ⟨S1280x5120, .bf16⟩
  | .local _ .vmem, ⟨22, _⟩ => ⟨S10240x128, .bf16⟩
  | .local _ .vmem, ⟨23, _⟩ => ⟨S1280x128, .f32⟩
  | .local _ .vmem, ⟨24, _⟩ => ⟨S1280x128, .f32⟩
  | .local _ .vmem, ⟨25, _⟩ => ⟨S128x128, .bf16⟩
  | .local _ .vmem, ⟨26, _⟩ => ⟨S1x128, .f32⟩
  | .local _ .vmem, ⟨27, _⟩ => ⟨S1280x128, .f32⟩
  | .local _ .vmem, ⟨28, _⟩ => ⟨S1280x128, .f32⟩
  | .local _ .vmem, ⟨29, _⟩ => ⟨S1280x128, .f32⟩
  | .local _ .vmem, ⟨30, _⟩ => ⟨S1280x5120, .bf16⟩
  | .local _ .vmem, ⟨31, _⟩ => ⟨S1280x5120, .bf16⟩
  | .local _ .vmem, ⟨32, _⟩ => ⟨S10240x128, .bf16⟩
  | .local _ .vmem, ⟨33, _⟩ => ⟨S1280x128, .f32⟩
  | .local _ .vmem, ⟨34, _⟩ => ⟨S1280x128, .f32⟩
  | .local _ .vmem, ⟨35, _⟩ => ⟨S128x128, .bf16⟩
  | .local _ .vmem, ⟨36, _⟩ => ⟨S1x128, .f32⟩
  | .local _ .vmem, ⟨37, _⟩ => ⟨S1280x128, .f32⟩
  | .local _ .vmem, ⟨38, _⟩ => ⟨S1280x128, .f32⟩
  | .local _ .vmem, ⟨39, _⟩ => ⟨S1280x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_c_0 : Ref sig .tc := ⟨.hbm, 13, rfl⟩
abbrev main_v1 : Ref sig .tc := ⟨.hbm, 14, rfl⟩
abbrev main_v2 : Ref sig .tc := ⟨.hbm, 15, rfl⟩
abbrev main_c_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_call0_v0 : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_call1_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_call3_v0 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_12 : Ref sig .tc := ⟨.hbm, 81, rfl⟩
abbrev main_v52 : Ref sig .tc := ⟨.hbm, 82, rfl⟩
abbrev main_call4_v0 : Ref sig .tc := ⟨.hbm, 83, rfl⟩
abbrev main_v53 : Ref sig .tc := ⟨.hbm, 84, rfl⟩
abbrev main_cst_13 : Ref sig .tc := ⟨.hbm, 85, rfl⟩
abbrev main_v54 : Ref sig .tc := ⟨.hbm, 86, rfl⟩
abbrev main_c_14 : Ref sig .tc := ⟨.hbm, 87, rfl⟩
abbrev main_v55 : Ref sig .tc := ⟨.hbm, 88, rfl⟩
abbrev main_v56 : Ref sig .tc := ⟨.hbm, 89, rfl⟩
abbrev main_cst_15 : Ref sig .tc := ⟨.hbm, 90, rfl⟩
abbrev main_v57 : Ref sig .tc := ⟨.hbm, 91, rfl⟩
abbrev main_c_16 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_scratch0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc3_scratch0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c5120_i32 : BitVec 32 := 5120#32
  let v3 : BitVec 32 := Scalar.muli arg1 c5120_i32
  v3
def k0_off1 (i : grid0.Coords) : Fin 2 → Nat :=
  let arg1 : BitVec 32 := BitVec.ofNat 32 (i 1).val
  let c5120_i32 : BitVec 32 := 5120#32
  let v3 : BitVec 32 := Scalar.muli arg1 c5120_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10240x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1280x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 2], ![false, false]⟩

def k1_mult1 (i : grid1.Coords) : BitVec 32 :=
  let arg1 : BitVec 32 := BitVec.ofNat 32 (i 1).val
  let c5120_i32 : BitVec 32 := 5120#32
  let v3 : BitVec 32 := Scalar.muli arg1 c5120_i32
  v3
def k1_off1 (i : grid1.Coords) : Fin 2 → Nat :=
  let arg1 : BitVec 32 := BitVec.ofNat 32 (i 1).val
  let c5120_i32 : BitVec 32 := 5120#32
  let v3 : BitVec 32 := Scalar.muli arg1 c5120_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x5120 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1280x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1280x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 2], ![false, false]⟩

def k2_mult1 (i : grid2.Coords) : BitVec 32 :=
  let arg1 : BitVec 32 := BitVec.ofNat 32 (i 1).val
  let c5120_i32 : BitVec 32 := 5120#32
  let v3 : BitVec 32 := Scalar.muli arg1 c5120_i32
  v3
def k2_off1 (i : grid2.Coords) : Fin 2 → Nat :=
  let arg1 : BitVec 32 := BitVec.ofNat 32 (i 1).val
  let c5120_i32 : BitVec 32 := 5120#32
  let v3 : BitVec 32 := Scalar.muli arg1 c5120_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1280x5120 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S10240x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1280x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1280x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![8, 2], ![false, false]⟩

def k3_mult1 (i : grid3.Coords) : BitVec 32 :=
  let arg1 : BitVec 32 := BitVec.ofNat 32 (i 1).val
  let c5120_i32 : BitVec 32 := 5120#32
  let v3 : BitVec 32 := Scalar.muli arg1 c5120_i32
  v3
def k3_off1 (i : grid3.Coords) : Fin 2 → Nat :=
  let arg1 : BitVec 32 := BitVec.ofNat 32 (i 1).val
  let c5120_i32 : BitVec 32 := 5120#32
  let v3 : BitVec 32 := Scalar.muli arg1 c5120_i32
  let v4 : BitVec 32 := v3
  let v5 : Index := Scalar.indexCast v4
  let c0 : Index := 0#32
  ![v5.toNat, 0]
def k3_cond2 (i : grid3.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1280x5120 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S10240x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1280x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1280x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  bcast_S_S10240x10240 : S_.BroadcastsInDim S10240x10240 (![] : Fin 0 → Fin S10240x10240.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x1_S640000x1_S640000x2_d1 : Shape.Concatenates [S640000x1, S640000x1] S640000x2 1
  pads_S10000x128_S10240x128_02400_000 : S10000x128.Pads (![0, 0] : Fin 2 → Nat) ![240, 0] ![0, 0] S10240x128
  h_S_ : 0 < S_.numel
  bcast_S_S10240 : S_.BroadcastsInDim S10240 (![] : Fin 0 → Fin S10240.rank)
  bcast_S10240_S10240x1_0 : S10240.BroadcastsInDim S10240x1 (![0] : Fin 1 → Fin S10240x1.rank)
  bcast_S_S10240x128 : S_.BroadcastsInDim S10240x128 (![] : Fin 0 → Fin S10240x128.rank)
  bcast_S10240x1_S10240x128_0_1 : S10240x1.BroadcastsInDim S10240x128 (![0, 1] : Fin 2 → Fin S10240x128.rank)
  bitsLt_bf16_f32 : FTy.bits .bf16 < FTy.bits .f32
  shapeCasts_S128_S1x128 : S128.ShapeCasts S1x128
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  h_S5120x128 : 0 < S5120x128.numel
  shapeCasts_S5120x128_S5120x128 : S5120x128.ShapeCasts S5120x128
  inb_S1280x5120_S1280x5120_0_0 : ∀ a, (![0, 0] : Fin 2 → Nat) a + S1280x5120.size a ≤ S1280x5120.size a
  h_S1280x5120 : 0 < S1280x5120.numel
  shapeCasts_S1280x5120_S1280x5120 : S1280x5120.ShapeCasts S1280x5120
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  slices_S10240x128_S10240x64_0_0 : S10240x128.Slices ![0, 0] S10240x64
  slices_S10240x64_S10000x64_0_0 : S10240x64.Slices ![0, 0] S10000x64
  scatter_S10240x10240_S640000x2_S640000_n_01_01_1_wf : ScatterDims.WF S10240x10240 S640000x2 S640000 [] [0, 1] [0, 1] 1
  dot_S1280x5120_S5120x128_S1280x128_1_0_0_1_n_n_wf : DotDims.WF S1280x5120 S5120x128 S1280x128 [1] [0] [0] [1] [] []
  dot_S1280x128_S128x128_S1280x128_1_0_0_1_n_n_wf : DotDims.WF S1280x128 S128x128 S1280x128 [1] [0] [0] [1] [] []
  scatter_S128x128_S1_S128x64_01_n_1_0_wf : ScatterDims.WF S128x128 S1 S128x64 [0, 1] [] [1] 0
  scatter_S128_S1_S64_0_n_0_0_wf : ScatterDims.WF S128 S1 S64 [0] [] [0] 0
  hrank0 : 0 < grid0.rank
  k0_mult1_dvd : ∀ i : grid0.Coords, 128 ∣ (k0_mult1 i).toNat
  k0_off1_inb : ∀ i : grid0.Coords, ∀ a, (k0_off1 i) a + S5120x128.size a ≤ S10240x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x5120.size a ≤ S10240x10240.size a
  hwx0_0 : ∀ i : grid0.Coords, EltTy.bits .bf16 = 32 ∨ (Rect.block (s := S10240x10240) S1280x5120.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .bf16 = 32 ∨ (Rect.block (s := S10240x128) S10240x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x128.size a ≤ S10240x128.size a
  hwx0_2 : ∀ i : grid0.Coords, EltTy.bits .f32 = 32 ∨ (Rect.block (s := S10240x128) S1280x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1280x128.size a ≤ S10240x128.size a
  hwx0_5 : ∀ i : grid0.Coords, EltTy.bits .f32 = 32 ∨ (Rect.block (s := S10240x128) S1280x128.size (cc0_transform_5 i) (hinb0_5 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S5120x128.size a ≤ S10240x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x5120.size a ≤ S10240x10240.size a
  hwx1_0 : ∀ i : grid1.Coords, EltTy.bits .bf16 = 32 ∨ (Rect.block (s := S10240x10240) S1280x5120.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x128.size a ≤ S10240x128.size a
  hwx1_1 : ∀ i : grid1.Coords, EltTy.bits .bf16 = 32 ∨ (Rect.block (s := S10240x128) S10240x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x128.size a ≤ S10240x128.size a
  hwx1_2 : ∀ i : grid1.Coords, EltTy.bits .f32 = 32 ∨ (Rect.block (s := S10240x128) S1280x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1280x128.size a ≤ S10240x128.size a
  hwx1_5 : ∀ i : grid1.Coords, EltTy.bits .f32 = 32 ∨ (Rect.block (s := S10240x128) S1280x128.size (cc1_transform_5 i) (hinb1_5 i)).WholeWords (EltTy.packing .f32)
  hrank2 : 0 < grid2.rank
  k2_mult1_dvd : ∀ i : grid2.Coords, 128 ∣ (k2_mult1 i).toNat
  k2_off1_inb : ∀ i : grid2.Coords, ∀ a, (k2_off1 i) a + S5120x128.size a ≤ S10240x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x5120.size a ≤ S10240x10240.size a
  hwx2_0 : ∀ i : grid2.Coords, EltTy.bits .bf16 = 32 ∨ (Rect.block (s := S10240x10240) S1280x5120.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x128.size a ≤ S10240x128.size a
  hwx2_1 : ∀ i : grid2.Coords, EltTy.bits .bf16 = 32 ∨ (Rect.block (s := S10240x128) S10240x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1280x128.size a ≤ S10240x128.size a
  hwx2_2 : ∀ i : grid2.Coords, EltTy.bits .f32 = 32 ∨ (Rect.block (s := S10240x128) S1280x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1280x128.size a ≤ S10240x128.size a
  hwx2_5 : ∀ i : grid2.Coords, EltTy.bits .f32 = 32 ∨ (Rect.block (s := S10240x128) S1280x128.size (cc2_transform_5 i) (hinb2_5 i)).WholeWords (EltTy.packing .f32)
  hrank3 : 0 < grid3.rank
  k3_mult1_dvd : ∀ i : grid3.Coords, 128 ∣ (k3_mult1 i).toNat
  k3_off1_inb : ∀ i : grid3.Coords, ∀ a, (k3_off1 i) a + S5120x128.size a ≤ S10240x128.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1280x5120.size a ≤ S10240x10240.size a
  hwx3_0 : ∀ i : grid3.Coords, EltTy.bits .bf16 = 32 ∨ (Rect.block (s := S10240x10240) S1280x5120.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10240x128.size a ≤ S10240x128.size a
  hwx3_1 : ∀ i : grid3.Coords, EltTy.bits .bf16 = 32 ∨ (Rect.block (s := S10240x128) S10240x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1280x128.size a ≤ S10240x128.size a
  hwx3_2 : ∀ i : grid3.Coords, EltTy.bits .f32 = 32 ∨ (Rect.block (s := S10240x128) S1280x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1280x128.size a ≤ S10240x128.size a
  hwx3_5 : ∀ i : grid3.Coords, EltTy.bits .f32 = 32 ∨ (Rect.block (s := S10240x128) S1280x128.size (cc3_transform_5 i) (hinb3_5 i)).WholeWords (EltTy.packing .f32)

variable [Facts₀]

def scatter_S10240x10240_S640000x2_S640000_n_01_01_1 : ScatterDims S10240x10240 S640000x2 S640000 where
  updateWindowDims := []
  insertedWindowDims := [0, 1]
  scatterDimsToOperandDims := [0, 1]
  indexVectorDim := 1
  wf := scatter_S10240x10240_S640000x2_S640000_n_01_01_1_wf
def dot_S1280x5120_S5120x128_S1280x128_1_0_0_1_n_n : DotDims S1280x5120 S5120x128 S1280x128 where
  lhsContracting := [1]
  rhsContracting := [0]
  lhsNonContracting := [0]
  rhsNonContracting := [1]
  lhsBatch := []
  rhsBatch := []
  wf := dot_S1280x5120_S5120x128_S1280x128_1_0_0_1_n_n_wf
def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf
def scatter_S128x128_S1_S128x64_01_n_1_0 : ScatterDims S128x128 S1 S128x64 where
  updateWindowDims := [0, 1]
  insertedWindowDims := []
  scatterDimsToOperandDims := [1]
  indexVectorDim := 0
  wf := scatter_S128x128_S1_S128x64_01_n_1_0_wf
def scatter_S128_S1_S64_0_n_0_0 : ScatterDims S128 S1 S64 where
  updateWindowDims := [0]
  insertedWindowDims := []
  scatterDimsToOperandDims := [0]
  indexVectorDim := 0
  wf := scatter_S128_S1_S64_0_n_0_0_wf

abbrev win0_0 : Pipeline.Window sig grid0 :=
  Pipeline.Window.ofSpec (Memref.whole main_v16) S1280x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1280x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1280x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v16) S1280x5120.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S10240x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1280x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1280x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v16) S1280x5120.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S10240x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1280x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1280x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v16) S1280x5120.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S10240x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1280x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S1280x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S10000x64 : Shape := ⟨2, ![10000, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .f32⟩
  | .hbm, ⟨21, _⟩ => ⟨S10000x128, .f32⟩
  | .hbm, ⟨22, _⟩ => ⟨S640000x1, .i32⟩
  | .hbm, ⟨23, _⟩ => ⟨S10000x128, .f32⟩
  | .hbm, ⟨24, _⟩ => ⟨S_, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S1x128, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S10000x128, .f32⟩
  | .hbm, ⟨34, _⟩ => ⟨S10000x128, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x128, .f32⟩
  | .hbm, ⟨44, _⟩ => ⟨S_, .f32⟩
  | .hbm, ⟨45, _⟩ => ⟨S10000x128, .f32⟩
  | .hbm, ⟨46, _⟩ => ⟨S640000x1, .i32⟩
  | .hbm, ⟨47, _⟩ => ⟨S10000x128, .f32⟩
  | .hbm, ⟨48, _⟩ => ⟨S_, .f32⟩
  | .hbm, ⟨49, _⟩ => ⟨S10000x128, .f32⟩
  | .hbm, ⟨50, _⟩ => ⟨S10000x128, .f32⟩
  | .hbm, ⟨51, _⟩ => ⟨S10000x128, .f32⟩
  | .hbm, ⟨52, _⟩ => ⟨S10000x128, .f32⟩
  | .hbm, ⟨53, _⟩ => ⟨S1x128, .f32⟩
  | .hbm, ⟨54, _⟩ => ⟨S10000x128, .f32⟩
  | .hbm, ⟨55, _⟩ => ⟨S10000x128, .f32⟩
  | .hbm, ⟨56, _⟩ => ⟨S_, .f32⟩
  | .hbm, ⟨57, _⟩ => ⟨S10000x128, .f32⟩
  | .hbm, ⟨58, _⟩ => ⟨S10000x128, .f32⟩
  | .hbm, ⟨59, _⟩ => ⟨S_, .i32⟩
  | .hbm, ⟨60, _⟩ => ⟨S640000, .i32⟩
  | .hbm, ⟨61, _⟩ => ⟨S640000, .i1⟩
  | .hbm, ⟨62, _⟩ => ⟨S_, .i32⟩
  | .hbm, ⟨63, _⟩ => ⟨S640000, .i32⟩
  | .hbm, ⟨64, _⟩ => ⟨S640000, .i32⟩
  | .hbm, ⟨65, _⟩ => ⟨S640000, .i32⟩
  | .hbm, ⟨66, _⟩ => ⟨S640000x1, .i32⟩
  | .hbm, ⟨67, _⟩ => ⟨S640000x128, .f32⟩
  | .hbm, ⟨68, _⟩ => ⟨S_, .f32⟩
  | .hbm, ⟨69, _⟩ => ⟨S10000x128, .f32⟩
  | .hbm, ⟨70, _⟩ => ⟨S640000x1, .i32⟩
  | .hbm, ⟨71, _⟩ => ⟨S10000x128, .f32⟩
  | .hbm, ⟨72, _⟩ => ⟨S_, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S10000x128, .f32⟩
  | .hbm, ⟨77, _⟩ => ⟨S1x128, .f32⟩
  | .hbm, ⟨78, _⟩ => ⟨S10000x128, .f32⟩
  | .hbm, ⟨79, _⟩ => ⟨S10000x128, .f32⟩
  | .hbm, ⟨80, _⟩ => ⟨S_, .f32⟩
  | .hbm, ⟨81, _⟩ => ⟨S10000x128, .f32⟩
  | .hbm, ⟨82, _⟩ => ⟨S10000x128, .f32⟩
  | .hbm, ⟨83, _⟩ => ⟨S_, .i32⟩
  | .hbm, ⟨84, _⟩ => ⟨S640000, .i32⟩
  | .hbm, ⟨85, _⟩ => ⟨S640000, .i1⟩
  | .hbm, ⟨86, _⟩ => ⟨S_, .i32⟩
  | .hbm, ⟨87, _⟩ => ⟨S640000, .i32⟩
  | .hbm, ⟨88, _⟩ => ⟨S640000, .i32⟩
  | .hbm, ⟨89, _⟩ => ⟨S640000, .i32⟩
  | .hbm, ⟨90, _⟩ => ⟨S640000x1, .i32⟩
  | .hbm, ⟨91, _⟩ => ⟨S640000x128, .f32⟩
  | .hbm, ⟨92, _⟩ => ⟨S_, .f32⟩
  | .hbm, ⟨93, _⟩ => ⟨S10000x128, .f32⟩
  | .hbm, ⟨94, _⟩ => ⟨S640000x1, .i32⟩
  | .hbm, ⟨95, _⟩ => ⟨S10000x128, .f32⟩
  | .hbm, ⟨96, _⟩ => ⟨S_, .f32⟩
  | .hbm, ⟨97, _⟩ => ⟨S10000x128, .f32⟩
  | .hbm, ⟨98, _⟩ => ⟨S10000x128, .f32⟩
  | .hbm, ⟨99, _⟩ => ⟨S10000x128, .f32⟩
  | .hbm, ⟨100, _⟩ => ⟨S10000x64, .f32⟩
  | .hbm, ⟨101, _⟩ => ⟨S1x64, .f32⟩
  | .hbm, ⟨102, _⟩ => ⟨S10000x64, .f32⟩
  | .hbm, ⟨103, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call1_cst : Ref sig .tc := ⟨.hbm, 56, rfl⟩
abbrev main_call1_v0 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call2_cst : Ref sig .tc := ⟨.hbm, 80, rfl⟩
abbrev main_call2_v0 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.K.Runs0.lean ====
/- A layer's grid has 16 points, t = 2 i + k for row tile i and reduction half k: the blocks met at a point, and which parity zeroes the accumulator or yields a tile. -/
import proofs.«414469_j73718818669208_3_alg».proof.Proof.Gen.Kernel.Launch
import proofs.«414469_j73718818669208_3_alg».proof.Proof.Gen.Kernel.Skeleton
import proofs.«414469_j73718818669208_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t` of the array `V` gives it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 5120 feature rows the body reads at point `t`. -/
abbrev hrect0 (t : Fin cfg0.N) : Rect S10240x128 := Rect.unit (s := S10240x128) (k0_off1 (grid0.coords t)) S5120x128.size (k0_off1_inb (grid0.coords t))

abbrev ablk0 (c : Dev nD) (t : Fin cfg0.N) : Vec F S1280x5120 .bf16 := iblk0 V c 0 t
abbrev hblk0 (c : Dev nD) (t : Fin cfg0.N) : Vec F S10240x128 .bf16 := iblk0 V c 1 t
abbrev xblk0 (c : Dev nD) (t : Fin cfg0.N) : Vec F S1280x128 .f32 := iblk0 V c 2 t
abbrev wblk0 (c : Dev nD) (t : Fin cfg0.N) : Vec F S128x128 .bf16 := iblk0 V c 3 t
abbrev bblk0 (c : Dev nD) (t : Fin cfg0.N) : Vec F S1x128 .f32 := iblk0 V c 4 t

/-- At every point the body meets each operand's block. -/
theorem before0_of {c : Dev nD} (dat : Dat τ (Elt F) Unit ℕ (UR sig nD τ) ℕ cfg0 c) (hA : ∀ w, dat.A w = V c (Pipeline.arrRef spec0 w)) :
    (∀ (_ : ∀ t, dat.after 0 t = iblk0 V c 0 t) t d, dat.before 0 t d = iblk0 V c 0 t)
    ∧ (∀ (_ : ∀ t, dat.after 1 t = iblk0 V c 1 t) t d, dat.before 1 t d = iblk0 V c 1 t)
    ∧ (∀ (_ : ∀ t, dat.after 2 t = iblk0 V c 2 t) t d, dat.before 2 t d = iblk0 V c 2 t)
    ∧ (∀ (_ : ∀ t, dat.after 3 t = iblk0 V c 3 t) t d, dat.before 3 t d = iblk0 V c 3 t)
    ∧ (∀ (_ : ∀ t, dat.after 4 t = iblk0 V c 4 t) t d, dat.before 4 t d = iblk0 V c 4 t) := by
  refine ⟨?_, ?_, ?_, ?_, ?_⟩ <;> exact fun hafter t d =>
    (dat.before_in_eq_fetched _ rfl (fun _ => rfl) (fun _ _ _ => rfl) (fun t => by rw [hafter]; unfold Dat.blockOf iblk0; rw [hA]; try rfl) t d).trans
      (by unfold Dat.fetched Dat.blockOf iblk0; rw [hA]; try rfl)

end Region

abbrev condInit0 (i : grid0.Coords) : Prop := (Scalar.cmpi .ne (Scalar.extui (Scalar.cmpi .eq (BitVec.ofNat 32 (i 1).val) 0#32)) 0#32) = 1#1
/-- The accumulator is zeroed exactly at the even points (reduction half 0), -/
theorem hcondInit0 : ∀ t : Fin cfg0.N, condInit0 (grid0.coords t) ↔ t.val % 2 = 0 :=
  (by decide +kernel : ∀ t : Fin grid0.N, condInit0 (grid0.coords t) ↔ t.val % 2 = 0)

abbrev condFin0 (i : grid0.Coords) : Prop := k0_cond2 i = 1#1
/-- and the output tile is computed exactly at the odd points (reduction half 1). -/
theorem hcondFin0 : ∀ t : Fin cfg0.N, condFin0 (grid0.coords t) ↔ t.val % 2 = 1 :=
  (by decide +kernel : ∀ t : Fin grid0.N, condFin0 (grid0.coords t) ↔ t.val % 2 = 1)

/-- Only odd points produce an output tile. -/
theorem liveAt0 : ∀ (w : Fin cfg0.W) (t : Fin cfg0.N), w ≠ 5 → cfg0.idle w (grid0.coords t) = false := by decide +kernel
theorem idleAtA0 : ∀ t : Fin cfg0.N, t.val % 2 = 0 → cfg0.idle 5 (grid0.coords t) = true ∧ (cfg0.win 5).flush t = false := by decide +kernel
theorem liveAtB0 : ∀ t : Fin cfg0.N, t.val % 2 = 1 → cfg0.idle 5 (grid0.coords t) = false := by decide +kernel

abbrev VO0 : View sig .tc .vmem S1280x128 .f32 := (Memref.whole cc0_stg5_0 : Memref sig .tc .vmem S1280x128 .f32).view
abbrev msa0 (t : Fin cfg0.N) : Memref sig .tc .vmem S1280x5120 .bf16 := win0_0.stage (cfg0.slots t 0)
abbrev hsa0 (t : Fin cfg0.N) : (msa0 t).IsWhole := hstage0_0 ((cfg0.slots t 0).cast nbuf0_0)
abbrev msb0 (t : Fin cfg0.N) : Memref sig .tc .vmem S10240x128 .bf16 := win0_1.stage (cfg0.slots t 1)
abbrev hsb0 (t : Fin cfg0.N) : (msb0 t).IsWhole := hstage0_1 ((cfg0.slots t 1).cast nbuf0_1)
abbrev msc0 (t : Fin cfg0.N) : Memref sig .tc .vmem S1280x128 .f32 := win0_2.stage (cfg0.slots t 2)
abbrev hsc0 (t : Fin cfg0.N) : (msc0 t).IsWhole := hstage0_2 ((cfg0.slots t 2).cast nbuf0_2)
abbrev msd0 (t : Fin cfg0.N) : Memref sig .tc .vmem S128x128 .bf16 := win0_3.stage (cfg0.slots t 3)
abbrev hsd0 (t : Fin cfg0.N) : (msd0 t).IsWhole := hstage0_3 ((cfg0.slots t 3).cast nbuf0_3)
abbrev mse0 (t : Fin cfg0.N) : Memref sig .tc .vmem S1x128 .f32 := win0_4.stage (cfg0.slots t 4)
abbrev hse0 (t : Fin cfg0.N) : (mse0 t).IsWhole := hstage0_4 ((cfg0.slots t 4).cast nbuf0_4)
abbrev msf0 (t : Fin cfg0.N) : Memref sig .tc .vmem S1280x128 .f32 := win0_5.stage (cfg0.slots t 5)
abbrev hsf0 (t : Fin cfg0.N) : (msf0 t).IsWhole := hstage0_5 ((cfg0.slots t 5).cast nbuf0_5)
abbrev scM0 : Memref sig .tc .vmem S1280x128 .f32 := Memref.whole cc0_scratch0
abbrev VS0 : View sig .tc .vmem S1280x128 .f32 := scM0.view

theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.Kernel.Hand

end
-- ==== Proof.K.RunA0.lean ====
/- The body at a point of reduction half 0: the accumulator is reset to zero and the first half-product added. -/
import proofs.«414469_j73718818669208_3_alg».proof.Proof.K.Runs0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunA0 (c : Dev nD) (i : grid0.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : condInit0 i) (hcF : ¬condFin0 i)
    (xa : Vec F S1280x5120 .bf16) (xb : Vec F S10240x128 .bf16) (xc : Vec F S1280x128 .f32) (xd : Vec F S128x128 .bf16) (xe : Vec F S1x128 .f32) :
    Σ' (Lf : List (View.Piece (Elt F) S1280x128 .f32)), { LS : List (View.Piece (Elt F) S1280x128 .f32) //
      ∀ (xif : Vec F S1280x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ f, arg8.view.loc (c : Thread nD τ) ↦[arg8.view.set]{fullShare} arg8.view.writes (Elt F) f LS)) -∗ K ⟨⟩))
          ⊢ wp frame (wpE (defs₀ (F := F)) Variants.none c none) E (cc0__gin_layer_kernel i arg2 harg2 arg3 harg3 arg4 harg4 arg5 harg5 arg6 harg6 arg7 harg7 arg8 harg8) K } := by
  refine ⟨[], ?_, fun xif E K => ?run⟩
  case run =>
    simp only [cc0__gin_layer_kernel_eq_skeleton]; unfold cc0__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dsc, %fsc, -, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hff
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]
    · iexists _; isplitr; · ipureintro; exact harg7.read_unread _
      iexact Hf
    iexists _; iexact HSc

end Cert.Kernel.Hand

end
-- ==== Proof.K.RunB0.lean ====
/- The body at a point of reduction half 1: the second half-product is added and the output tile computed from the sum. -/
import proofs.«414469_j73718818669208_3_alg».proof.Proof.K.RunA0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunB0 (c : Dev nD) (i : grid0.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : ¬condInit0 i) (hcF : condFin0 i)
    (xa : Vec F S1280x5120 .bf16) (xb : Vec F S10240x128 .bf16) (xc : Vec F S1280x128 .f32) (xd : Vec F S128x128 .bf16) (xe : Vec F S1x128 .f32) (xs : Vec F S1280x128 .f32) :
    Σ' (Lf : List (View.Piece (Elt F) S1280x128 .f32)), { LS : List (View.Piece (Elt F) S1280x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f Lf) ∗ (∃ f, arg8.view.loc (c : Thread nD τ) ↦[arg8.view.set]{fullShare} arg8.view.writes (Elt F) f LS)) -∗ K ⟨⟩))
          ⊢ wp frame (wpE (defs₀ (F := F)) Variants.none c none) E (cc0__gin_layer_kernel i arg2 harg2 arg3 harg3 arg4 harg4 arg5 harg5 arg6 harg6 arg7 harg7 arg8 harg8) K } := by
  refine ⟨?_, ?_, fun E K => ?run⟩
  case run =>
    simp only [cc0__gin_layer_kernel_eq_skeleton]; unfold cc0__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fsc, %hfsc, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfsc
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]; · iexists _; iexact Hf
    iexists _; iexact HSc

end Cert.Kernel.Hand

end
-- ==== Proof.K.Reg0.lean ====
/- Point by point through a layer: what a point leaves in the accumulator and the tile, the invariant carried from one point to the next, and the body's obligation. -/
import proofs.«414469_j73718818669208_3_alg».proof.Proof.K.RunB0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b)) (c : Dev nD)

/-- The body's run at an even point, -/
abbrev runA0 (t : Fin cfg0.N) (hev : t.val % 2 = 0) :=
  kernelRunA0 c (grid0.coords t) (msa0 t) (hsa0 t) (msb0 t) (hsb0 t) (msc0 t) (hsc0 t) (msd0 t) (hsd0 t) (mse0 t) (hse0 t) (msf0 t) (hsf0 t) scM0 (Memref.isWhole_whole _)
    ((hcondInit0 t).mpr hev) (fun h => absurd ((hcondFin0 t).mp h) (by omega)) (ablk0 V c t) (hblk0 V c t) (xblk0 V c t) (wblk0 V c t) (bblk0 V c t)
/-- and at an odd point, over the accumulator's contents `xs`. -/
abbrev runB0 (t : Fin cfg0.N) (hod : t.val % 2 = 1) (xs : Vec F S1280x128 .f32) :=
  kernelRunB0 c (grid0.coords t) (msa0 t) (hsa0 t) (msb0 t) (hsb0 t) (msc0 t) (hsc0 t) (msd0 t) (hsd0 t) (mse0 t) (hse0 t) (msf0 t) (hsf0 t) scM0 (Memref.isWhole_whole _)
    (fun h => absurd ((hcondInit0 t).mp h) (by omega)) ((hcondFin0 t).mpr hod) (ablk0 V c t) (hblk0 V c t) (xblk0 V c t) (wblk0 V c t) (bblk0 V c t) xs

theorem scoverA0 (t : Fin cfg0.N) (hev : t.val % 2 = 0) (y : S1280x128.Idx) : ∃ pc ∈ (runA0 V c t hev).2.1, y ∈ pc.1.set :=
  View.cover_of_tiledL _ S1280x128.size (by sl_kernel_rfl) y
theorem coverB0 (t : Fin cfg0.N) (hod : t.val % 2 = 1) (xs : Vec F S1280x128 .f32) (y : S1280x128.Idx) : ∃ pc ∈ (runB0 V c t hod xs).1, y ∈ pc.1.set :=
  View.cover_of_tiledL _ S1280x128.size (by sl_kernel_rfl) y
theorem scoverB0 (t : Fin cfg0.N) (hod : t.val % 2 = 1) (xs : Vec F S1280x128 .f32) (y : S1280x128.Idx) : ∃ pc ∈ (runB0 V c t hod xs).2.1, y ∈ pc.1.set :=
  View.cover_of_tiledL _ S1280x128.size (by sl_kernel_rfl) y

/-- The output tile (.1) and the accumulator (.2) after a run. -/
def outA0 (t : Fin cfg0.N) (hev : t.val % 2 = 0) : Vec F S1280x128 .f32 × Vec F S1280x128 .f32 :=
  (VO0.read (Elt F) (VO0.writes (Elt F) VO0.junk (runA0 V c t hev).1), VS0.read (Elt F) (VS0.writes (Elt F) VS0.junk (runA0 V c t hev).2.1))
def outB0 (t : Fin cfg0.N) (hod : t.val % 2 = 1) (xs : Vec F S1280x128 .f32) : Vec F S1280x128 .f32 × Vec F S1280x128 .f32 :=
  (VO0.read (Elt F) (VO0.writes (Elt F) VO0.junk (runB0 V c t hod xs).1), VS0.read (Elt F) (VS0.writes (Elt F) VS0.junk (runB0 V c t hod xs).2.1))

/-- The same after point `n`, by recursion: an odd point accumulates onto what the even point before it left. -/
def outsAt0 : (n : ℕ) → n < cfg0.N → Vec F S1280x128 .f32 × Vec F S1280x128 .f32
  | 0, hn => outA0 V c ⟨0, hn⟩ (Nat.zero_mod _)
  | n + 1, hn =>
    if hev : (n + 1) % 2 = 0 then outA0 V c ⟨n + 1, hn⟩ hev
    else outB0 V c ⟨n + 1, hn⟩ (Nat.mod_two_ne_zero.mp hev) (outsAt0 n (Nat.lt_of_succ_lt hn)).2

theorem outsAt0_even (t : Fin cfg0.N) (hev : t.val % 2 = 0) : outsAt0 V c t.val t.isLt = outA0 V c t hev := by
  obtain ⟨n, hn⟩ := t
  cases n with
  | zero => rfl
  | succ n => exact dif_pos hev

theorem outsAt0_odd (t : Fin cfg0.N) (hod : t.val % 2 = 1) :
    outsAt0 V c t.val t.isLt = outB0 V c t hod (outsAt0 V c (t.val - 1) (Nat.lt_of_le_of_lt (Nat.sub_le _ _) t.isLt)).2 := by
  obtain ⟨n, hn⟩ := t
  cases n with
  | zero => exact absurd hod (by simp)
  | succ n => exact dif_neg (Nat.mod_two_ne_zero.mpr hod)

/-- The invariant before point `n`: the accumulator holds what point `n - 1` left. -/
def PhiS0 : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_succ (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- Forgetting the accumulator's contents, the invariant at any point is the one the layer starts from. -/
theorem Phi_weak0 (n : ℕ) (h : n ≤ cfg0.N) : PhiS0 V c n h ⊢ Pipeline.ΦA spec0 c := by
  cases n with
  | zero => exact .rfl
  | succ n =>
    rw [PhiS0_succ, PhiA0_eq]
    iintro ⟨⟨HSc, Hr⟩, Hg⟩
    isplitl [HSc Hr]
    · isplitl [HSc]
      · iexists _; iexact HSc
      iexact Hr
    iexact Hg

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (w : Fin cfg0.W) : (dat0 V c).A w = V c (Pipeline.arrRef spec0 w) := rfl

theorem after0_a (t : Fin cfg0.N) : (dat0 V c).after 0 t = iblk0 V c 0 t := by dsimp only [dat0]
theorem after0_b (t : Fin cfg0.N) : (dat0 V c).after 1 t = iblk0 V c 1 t := by dsimp only [dat0]
theorem after0_c (t : Fin cfg0.N) : (dat0 V c).after 2 t = iblk0 V c 2 t := by dsimp only [dat0]
theorem after0_d (t : Fin cfg0.N) : (dat0 V c).after 3 t = iblk0 V c 3 t := by dsimp only [dat0]
theorem after0_e (t : Fin cfg0.N) : (dat0 V c).after 4 t = iblk0 V c 4 t := by dsimp only [dat0]

theorem before0_a (t : Fin cfg0.N) (d) : (dat0 V c).before 0 t d = iblk0 V c 0 t :=
  (before0_of V (dat0 V c) (A_eq0 V c)).1 (after0_a V c) t d
theorem before0_b (t : Fin cfg0.N) (d) : (dat0 V c).before 1 t d = iblk0 V c 1 t :=
  (before0_of V (dat0 V c) (A_eq0 V c)).2.1 (after0_b V c) t d
theorem before0_c (t : Fin cfg0.N) (d) : (dat0 V c).before 2 t d = iblk0 V c 2 t :=
  (before0_of V (dat0 V c) (A_eq0 V c)).2.2.1 (after0_c V c) t d
theorem before0_d (t : Fin cfg0.N) (d) : (dat0 V c).before 3 t d = iblk0 V c 3 t :=
  (before0_of V (dat0 V c) (A_eq0 V c)).2.2.2.1 (after0_d V c) t d
theorem before0_e (t : Fin cfg0.N) (d) : (dat0 V c).before 4 t d = iblk0 V c 4 t :=
  (before0_of V (dat0 V c) (A_eq0 V c)).2.2.2.2 (after0_e V c) t d

theorem leaves0 (w : Fin cfg0.W) (t : Fin cfg0.N) (hl : cfg0.idle w (grid0.coords t) = false) :
    (dat0 V c).leavesExact w t = owns (c : Thread nD τ) ((cfg0.win w).stage (cfg0.slots t w)) fullShare ((dat0 V c).after w t) := by
  unfold Dat.leavesExact; rw [hl]

def bodyPre0 (t : Fin cfg0.N) : sProp 𝕄 :=
  iprop((dat0 V c).Φ t.castSucc ∗ (dat0 V c).owesAt () t.castSucc
    ∗ (∃ d, owns (c : Thread nD τ) (msa0 t) fullShare ((dat0 V c).before 0 t d))
    ∗ (∃ d, owns (c : Thread nD τ) (msb0 t) fullShare ((dat0 V c).before 1 t d))
    ∗ (∃ d, owns (c : Thread nD τ) (msc0 t) fullShare ((dat0 V c).before 2 t d))
    ∗ (∃ d, owns (c : Thread nD τ) (msd0 t) fullShare ((dat0 V c).before 3 t d))
    ∗ (∃ d, owns (c : Thread nD τ) (mse0 t) fullShare ((dat0 V c).before 4 t d))
    ∗ (∃ d, owns (c : Thread nD τ) (msf0 t) fullShare ((dat0 V c).before 5 t d)))

def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point meets its obligation: the parity of the point selects the run. -/
theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_a, before0_b, before0_c, before0_d, before0_e]
  rw [show (dat0 V c).owesAt () t.succ = (dat0 V c).owesAt () t.castSucc from rfl]
  rw [show (dat0 V c).Φ t.succ = PhiS0 V c (t.val + 1) t.isLt from rfl, PhiS0_succ]
  rw [show (dat0 V c).Φ t.castSucc = PhiS0 V c t.val (Nat.le_of_lt t.isLt) from rfl]
  rw [leaves0 V c 0 t (liveAt0 0 t (by decide)), leaves0 V c 1 t (liveAt0 1 t (by decide)), leaves0 V c 2 t (liveAt0 2 t (by decide)),
    leaves0 V c 3 t (liveAt0 3 t (by decide)), leaves0 V c 4 t (liveAt0 4 t (by decide)),
    after0_a, after0_b, after0_c, after0_d, after0_e]
  by_cases hev : t.val % 2 = 0
  · rw [Dat.leavesExact_idle (dat0 V c) 5 t (idleAtA0 t hev).1 (idleAtA0 t hev).2, outsAt0_even V c t hev]
    unfold outA0; dsimp only
    have hw := Phi_weak0 V c t.val (Nat.le_of_lt t.isLt)
    rw [PhiA0_eq] at hw
    iintro ⟨HP, Ho, ⟨%da, Ha⟩, ⟨%db, Hb⟩, ⟨%dc, Hc⟩, ⟨%dd, Hd⟩, ⟨%de, He⟩, ⟨%df, Hf⟩⟩
    ihave HP2 := hw $$ HP
    icases HP2 with ⟨⟨HSc, Hr⟩, Hg⟩
    iapply ((runA0 V c t hev).2.2 _ Set.univ _)
    iframe Ha Hb Hc Hd He Hf HSc
    iintro ⟨Ha, Hb, Hc, Hd, He, Hf, ⟨%esc, HSc⟩⟩
    iframe Hr Hg Ho Ha Hb Hc Hd He
    isplitl [HSc]
    · unfold owns; iexists _; isplitr
      swap; · iexact HSc
      ipureintro; exact View.read_writes_of_cover _ _ _ _ _ (scoverA0 V c t hev)
    iexists _; iexact Hf
  · have hod : t.val % 2 = 1 := Nat.mod_two_ne_zero.mp hev
    rw [leaves0 V c 5 t (liveAtB0 t hod), show (dat0 V c).after 5 t = (outsAt0 V c t.val t.isLt).1 from rfl, outsAt0_odd V c t hod, PhiS0_pos V c _ _ (by omega)]
    unfold outB0; dsimp only
    iintro ⟨⟨⟨HSc, Hr⟩, Hg⟩, Ho, ⟨%da, Ha⟩, ⟨%db, Hb⟩, ⟨%dc, Hc⟩, ⟨%dd, Hd⟩, ⟨%de, He⟩, ⟨%df, Hf⟩⟩
    iapply ((runB0 V c t hod _).2.2 Set.univ _)
    iframe Ha Hb Hc Hd He HSc
    isplitl [Hf]; · iexists _; iexact Hf
    iintro ⟨Ha, Hb, Hc, Hd, He, ⟨%ef, Hf⟩, ⟨%esc, HSc⟩⟩
    iframe Hr Hg Ho Ha Hb Hc Hd He
    isplitl [HSc]
    · unfold owns; iexists _; isplitr
      swap; · iexact HSc
      ipureintro; exact View.read_writes_of_cover _ _ _ _ _ (scoverB0 V c t hod _)
    unfold owns; iexists _; isplitr
    swap; · iexact Hf
    ipureintro; exact View.read_writes_of_cover _ _ _ _ _ (coverB0 V c t hod _)

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

theorem hout0 : (dat0 V c).Φ (Fin.last cfg0.N) ⊢ Pipeline.ΦA spec0 c :=
  Phi_weak0 V c (Fin.last cfg0.N).val (Nat.le_of_lt_succ (Fin.last cfg0.N).isLt)

end Region

end Cert.Kernel.Hand

end
-- ==== Proof.K.Runs1.lean ====
/- A layer's grid has 16 points, t = 2 i + k for row tile i and reduction half k: the blocks met at a point, and which parity zeroes the accumulator or yields a tile. -/
import proofs.«414469_j73718818669208_3_alg».proof.Proof.Gen.Kernel.Launch
import proofs.«414469_j73718818669208_3_alg».proof.Proof.Gen.Kernel.Skeleton
import proofs.«414469_j73718818669208_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t` of the array `V` gives it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 5120 feature rows the body reads at point `t`. -/
abbrev hrect1 (t : Fin cfg1.N) : Rect S10240x128 := Rect.unit (s := S10240x128) (k1_off1 (grid1.coords t)) S5120x128.size (k1_off1_inb (grid1.coords t))

abbrev ablk1 (c : Dev nD) (t : Fin cfg1.N) : Vec F S1280x5120 .bf16 := iblk1 V c 0 t
abbrev hblk1 (c : Dev nD) (t : Fin cfg1.N) : Vec F S10240x128 .bf16 := iblk1 V c 1 t
abbrev xblk1 (c : Dev nD) (t : Fin cfg1.N) : Vec F S1280x128 .f32 := iblk1 V c 2 t
abbrev wblk1 (c : Dev nD) (t : Fin cfg1.N) : Vec F S128x128 .bf16 := iblk1 V c 3 t
abbrev bblk1 (c : Dev nD) (t : Fin cfg1.N) : Vec F S1x128 .f32 := iblk1 V c 4 t

/-- At every point the body meets each operand's block. -/
theorem before1_of {c : Dev nD} (dat : Dat τ (Elt F) Unit ℕ (UR sig nD τ) ℕ cfg1 c) (hA : ∀ w, dat.A w = V c (Pipeline.arrRef spec1 w)) :
    (∀ (_ : ∀ t, dat.after 0 t = iblk1 V c 0 t) t d, dat.before 0 t d = iblk1 V c 0 t)
    ∧ (∀ (_ : ∀ t, dat.after 1 t = iblk1 V c 1 t) t d, dat.before 1 t d = iblk1 V c 1 t)
    ∧ (∀ (_ : ∀ t, dat.after 2 t = iblk1 V c 2 t) t d, dat.before 2 t d = iblk1 V c 2 t)
    ∧ (∀ (_ : ∀ t, dat.after 3 t = iblk1 V c 3 t) t d, dat.before 3 t d = iblk1 V c 3 t)
    ∧ (∀ (_ : ∀ t, dat.after 4 t = iblk1 V c 4 t) t d, dat.before 4 t d = iblk1 V c 4 t) := by
  refine ⟨?_, ?_, ?_, ?_, ?_⟩ <;> exact fun hafter t d =>
    (dat.before_in_eq_fetched _ rfl (fun _ => rfl) (fun _ _ _ => rfl) (fun t => by rw [hafter]; unfold Dat.blockOf iblk1; rw [hA]; try rfl) t d).trans
      (by unfold Dat.fetched Dat.blockOf iblk1; rw [hA]; try rfl)

end Region

abbrev condInit1 (i : grid1.Coords) : Prop := (Scalar.cmpi .ne (Scalar.extui (Scalar.cmpi .eq (BitVec.ofNat 32 (i 1).val) 0#32)) 0#32) = 1#1
/-- The accumulator is zeroed exactly at the even points (reduction half 0), -/
theorem hcondInit1 : ∀ t : Fin cfg1.N, condInit1 (grid1.coords t) ↔ t.val % 2 = 0 :=
  (by decide +kernel : ∀ t : Fin grid1.N, condInit1 (grid1.coords t) ↔ t.val % 2 = 0)

abbrev condFin1 (i : grid1.Coords) : Prop := k1_cond2 i = 1#1
/-- and the output tile is computed exactly at the odd points (reduction half 1). -/
theorem hcondFin1 : ∀ t : Fin cfg1.N, condFin1 (grid1.coords t) ↔ t.val % 2 = 1 :=
  (by decide +kernel : ∀ t : Fin grid1.N, condFin1 (grid1.coords t) ↔ t.val % 2 = 1)

/-- Only odd points produce an output tile. -/
theorem liveAt1 : ∀ (w : Fin cfg1.W) (t : Fin cfg1.N), w ≠ 5 → cfg1.idle w (grid1.coords t) = false := by decide +kernel
theorem idleAtA1 : ∀ t : Fin cfg1.N, t.val % 2 = 0 → cfg1.idle 5 (grid1.coords t) = true ∧ (cfg1.win 5).flush t = false := by decide +kernel
theorem liveAtB1 : ∀ t : Fin cfg1.N, t.val % 2 = 1 → cfg1.idle 5 (grid1.coords t) = false := by decide +kernel

abbrev VO1 : View sig .tc .vmem S1280x128 .f32 := (Memref.whole cc1_stg5_0 : Memref sig .tc .vmem S1280x128 .f32).view
abbrev msa1 (t : Fin cfg1.N) : Memref sig .tc .vmem S1280x5120 .bf16 := win1_0.stage (cfg1.slots t 0)
abbrev hsa1 (t : Fin cfg1.N) : (msa1 t).IsWhole := hstage1_0 ((cfg1.slots t 0).cast nbuf1_0)
abbrev msb1 (t : Fin cfg1.N) : Memref sig .tc .vmem S10240x128 .bf16 := win1_1.stage (cfg1.slots t 1)
abbrev hsb1 (t : Fin cfg1.N) : (msb1 t).IsWhole := hstage1_1 ((cfg1.slots t 1).cast nbuf1_1)
abbrev msc1 (t : Fin cfg1.N) : Memref sig .tc .vmem S1280x128 .f32 := win1_2.stage (cfg1.slots t 2)
abbrev hsc1 (t : Fin cfg1.N) : (msc1 t).IsWhole := hstage1_2 ((cfg1.slots t 2).cast nbuf1_2)
abbrev msd1 (t : Fin cfg1.N) : Memref sig .tc .vmem S128x128 .bf16 := win1_3.stage (cfg1.slots t 3)
abbrev hsd1 (t : Fin cfg1.N) : (msd1 t).IsWhole := hstage1_3 ((cfg1.slots t 3).cast nbuf1_3)
abbrev mse1 (t : Fin cfg1.N) : Memref sig .tc .vmem S1x128 .f32 := win1_4.stage (cfg1.slots t 4)
abbrev hse1 (t : Fin cfg1.N) : (mse1 t).IsWhole := hstage1_4 ((cfg1.slots t 4).cast nbuf1_4)
abbrev msf1 (t : Fin cfg1.N) : Memref sig .tc .vmem S1280x128 .f32 := win1_5.stage (cfg1.slots t 5)
abbrev hsf1 (t : Fin cfg1.N) : (msf1 t).IsWhole := hstage1_5 ((cfg1.slots t 5).cast nbuf1_5)
abbrev scM1 : Memref sig .tc .vmem S1280x128 .f32 := Memref.whole cc1_scratch0
abbrev VS1 : View sig .tc .vmem S1280x128 .f32 := scM1.view

theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.Kernel.Hand

end
-- ==== Proof.K.RunA1.lean ====
/- The body at a point of reduction half 0: the accumulator is reset to zero and the first half-product added. -/
import proofs.«414469_j73718818669208_3_alg».proof.Proof.K.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunA1 (c : Dev nD) (i : grid1.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : condInit1 i) (hcF : ¬condFin1 i)
    (xa : Vec F S1280x5120 .bf16) (xb : Vec F S10240x128 .bf16) (xc : Vec F S1280x128 .f32) (xd : Vec F S128x128 .bf16) (xe : Vec F S1x128 .f32) :
    Σ' (Lf : List (View.Piece (Elt F) S1280x128 .f32)), { LS : List (View.Piece (Elt F) S1280x128 .f32) //
      ∀ (xif : Vec F S1280x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ f, arg8.view.loc (c : Thread nD τ) ↦[arg8.view.set]{fullShare} arg8.view.writes (Elt F) f LS)) -∗ K ⟨⟩))
          ⊢ wp frame (wpE (defs₀ (F := F)) Variants.none c none) E (cc1__gin_layer_kernel i arg2 harg2 arg3 harg3 arg4 harg4 arg5 harg5 arg6 harg6 arg7 harg7 arg8 harg8) K } := by
  refine ⟨[], ?_, fun xif E K => ?run⟩
  case run =>
    simp only [cc1__gin_layer_kernel_eq_skeleton]; unfold cc1__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dsc, %fsc, -, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hff
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]
    · iexists _; isplitr; · ipureintro; exact harg7.read_unread _
      iexact Hf
    iexists _; iexact HSc

end Cert.Kernel.Hand

end
-- ==== Proof.K.RunB1.lean ====
/- The body at a point of reduction half 1: the second half-product is added and the output tile computed from the sum. -/
import proofs.«414469_j73718818669208_3_alg».proof.Proof.K.RunA1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunB1 (c : Dev nD) (i : grid1.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : ¬condInit1 i) (hcF : condFin1 i)
    (xa : Vec F S1280x5120 .bf16) (xb : Vec F S10240x128 .bf16) (xc : Vec F S1280x128 .f32) (xd : Vec F S128x128 .bf16) (xe : Vec F S1x128 .f32) (xs : Vec F S1280x128 .f32) :
    Σ' (Lf : List (View.Piece (Elt F) S1280x128 .f32)), { LS : List (View.Piece (Elt F) S1280x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f Lf) ∗ (∃ f, arg8.view.loc (c : Thread nD τ) ↦[arg8.view.set]{fullShare} arg8.view.writes (Elt F) f LS)) -∗ K ⟨⟩))
          ⊢ wp frame (wpE (defs₀ (F := F)) Variants.none c none) E (cc1__gin_layer_kernel i arg2 harg2 arg3 harg3 arg4 harg4 arg5 harg5 arg6 harg6 arg7 harg7 arg8 harg8) K } := by
  refine ⟨?_, ?_, fun E K => ?run⟩
  case run =>
    simp only [cc1__gin_layer_kernel_eq_skeleton]; unfold cc1__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fsc, %hfsc, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfsc
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]; · iexists _; iexact Hf
    iexists _; iexact HSc

end Cert.Kernel.Hand

end
-- ==== Proof.K.Reg1.lean ====
/- Point by point through a layer: what a point leaves in the accumulator and the tile, the invariant carried from one point to the next, and the body's obligation. -/
import proofs.«414469_j73718818669208_3_alg».proof.Proof.K.RunB1
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b)) (c : Dev nD)

/-- The body's run at an even point, -/
abbrev runA1 (t : Fin cfg1.N) (hev : t.val % 2 = 0) :=
  kernelRunA1 c (grid1.coords t) (msa1 t) (hsa1 t) (msb1 t) (hsb1 t) (msc1 t) (hsc1 t) (msd1 t) (hsd1 t) (mse1 t) (hse1 t) (msf1 t) (hsf1 t) scM1 (Memref.isWhole_whole _)
    ((hcondInit1 t).mpr hev) (fun h => absurd ((hcondFin1 t).mp h) (by omega)) (ablk1 V c t) (hblk1 V c t) (xblk1 V c t) (wblk1 V c t) (bblk1 V c t)
/-- and at an odd point, over the accumulator's contents `xs`. -/
abbrev runB1 (t : Fin cfg1.N) (hod : t.val % 2 = 1) (xs : Vec F S1280x128 .f32) :=
  kernelRunB1 c (grid1.coords t) (msa1 t) (hsa1 t) (msb1 t) (hsb1 t) (msc1 t) (hsc1 t) (msd1 t) (hsd1 t) (mse1 t) (hse1 t) (msf1 t) (hsf1 t) scM1 (Memref.isWhole_whole _)
    (fun h => absurd ((hcondInit1 t).mp h) (by omega)) ((hcondFin1 t).mpr hod) (ablk1 V c t) (hblk1 V c t) (xblk1 V c t) (wblk1 V c t) (bblk1 V c t) xs

theorem scoverA1 (t : Fin cfg1.N) (hev : t.val % 2 = 0) (y : S1280x128.Idx) : ∃ pc ∈ (runA1 V c t hev).2.1, y ∈ pc.1.set :=
  View.cover_of_tiledL _ S1280x128.size (by sl_kernel_rfl) y
theorem coverB1 (t : Fin cfg1.N) (hod : t.val % 2 = 1) (xs : Vec F S1280x128 .f32) (y : S1280x128.Idx) : ∃ pc ∈ (runB1 V c t hod xs).1, y ∈ pc.1.set :=
  View.cover_of_tiledL _ S1280x128.size (by sl_kernel_rfl) y
theorem scoverB1 (t : Fin cfg1.N) (hod : t.val % 2 = 1) (xs : Vec F S1280x128 .f32) (y : S1280x128.Idx) : ∃ pc ∈ (runB1 V c t hod xs).2.1, y ∈ pc.1.set :=
  View.cover_of_tiledL _ S1280x128.size (by sl_kernel_rfl) y

/-- The output tile (.1) and the accumulator (.2) after a run. -/
def outA1 (t : Fin cfg1.N) (hev : t.val % 2 = 0) : Vec F S1280x128 .f32 × Vec F S1280x128 .f32 :=
  (VO1.read (Elt F) (VO1.writes (Elt F) VO1.junk (runA1 V c t hev).1), VS1.read (Elt F) (VS1.writes (Elt F) VS1.junk (runA1 V c t hev).2.1))
def outB1 (t : Fin cfg1.N) (hod : t.val % 2 = 1) (xs : Vec F S1280x128 .f32) : Vec F S1280x128 .f32 × Vec F S1280x128 .f32 :=
  (VO1.read (Elt F) (VO1.writes (Elt F) VO1.junk (runB1 V c t hod xs).1), VS1.read (Elt F) (VS1.writes (Elt F) VS1.junk (runB1 V c t hod xs).2.1))

/-- The same after point `n`, by recursion: an odd point accumulates onto what the even point before it left. -/
def outsAt1 : (n : ℕ) → n < cfg1.N → Vec F S1280x128 .f32 × Vec F S1280x128 .f32
  | 0, hn => outA1 V c ⟨0, hn⟩ (Nat.zero_mod _)
  | n + 1, hn =>
    if hev : (n + 1) % 2 = 0 then outA1 V c ⟨n + 1, hn⟩ hev
    else outB1 V c ⟨n + 1, hn⟩ (Nat.mod_two_ne_zero.mp hev) (outsAt1 n (Nat.lt_of_succ_lt hn)).2

theorem outsAt1_even (t : Fin cfg1.N) (hev : t.val % 2 = 0) : outsAt1 V c t.val t.isLt = outA1 V c t hev := by
  obtain ⟨n, hn⟩ := t
  cases n with
  | zero => rfl
  | succ n => exact dif_pos hev

theorem outsAt1_odd (t : Fin cfg1.N) (hod : t.val % 2 = 1) :
    outsAt1 V c t.val t.isLt = outB1 V c t hod (outsAt1 V c (t.val - 1) (Nat.lt_of_le_of_lt (Nat.sub_le _ _) t.isLt)).2 := by
  obtain ⟨n, hn⟩ := t
  cases n with
  | zero => exact absurd hod (by simp)
  | succ n => exact dif_neg (Nat.mod_two_ne_zero.mpr hod)

/-- The invariant before point `n`: the accumulator holds what point `n - 1` left. -/
def PhiS1 : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_succ (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- Forgetting the accumulator's contents, the invariant at any point is the one the layer starts from. -/
theorem Phi_weak1 (n : ℕ) (h : n ≤ cfg1.N) : PhiS1 V c n h ⊢ Pipeline.ΦA spec1 c := by
  cases n with
  | zero => exact .rfl
  | succ n =>
    rw [PhiS1_succ, PhiA1_eq]
    iintro ⟨⟨HSc, Hr⟩, Hg⟩
    isplitl [HSc Hr]
    · isplitl [HSc]
      · iexists _; iexact HSc
      iexact Hr
    iexact Hg

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (w : Fin cfg1.W) : (dat1 V c).A w = V c (Pipeline.arrRef spec1 w) := rfl

theorem after1_a (t : Fin cfg1.N) : (dat1 V c).after 0 t = iblk1 V c 0 t := by dsimp only [dat1]
theorem after1_b (t : Fin cfg1.N) : (dat1 V c).after 1 t = iblk1 V c 1 t := by dsimp only [dat1]
theorem after1_c (t : Fin cfg1.N) : (dat1 V c).after 2 t = iblk1 V c 2 t := by dsimp only [dat1]
theorem after1_d (t : Fin cfg1.N) : (dat1 V c).after 3 t = iblk1 V c 3 t := by dsimp only [dat1]
theorem after1_e (t : Fin cfg1.N) : (dat1 V c).after 4 t = iblk1 V c 4 t := by dsimp only [dat1]

theorem before1_a (t : Fin cfg1.N) (d) : (dat1 V c).before 0 t d = iblk1 V c 0 t :=
  (before1_of V (dat1 V c) (A_eq1 V c)).1 (after1_a V c) t d
theorem before1_b (t : Fin cfg1.N) (d) : (dat1 V c).before 1 t d = iblk1 V c 1 t :=
  (before1_of V (dat1 V c) (A_eq1 V c)).2.1 (after1_b V c) t d
theorem before1_c (t : Fin cfg1.N) (d) : (dat1 V c).before 2 t d = iblk1 V c 2 t :=
  (before1_of V (dat1 V c) (A_eq1 V c)).2.2.1 (after1_c V c) t d
theorem before1_d (t : Fin cfg1.N) (d) : (dat1 V c).before 3 t d = iblk1 V c 3 t :=
  (before1_of V (dat1 V c) (A_eq1 V c)).2.2.2.1 (after1_d V c) t d
theorem before1_e (t : Fin cfg1.N) (d) : (dat1 V c).before 4 t d = iblk1 V c 4 t :=
  (before1_of V (dat1 V c) (A_eq1 V c)).2.2.2.2 (after1_e V c) t d

theorem leaves1 (w : Fin cfg1.W) (t : Fin cfg1.N) (hl : cfg1.idle w (grid1.coords t) = false) :
    (dat1 V c).leavesExact w t = owns (c : Thread nD τ) ((cfg1.win w).stage (cfg1.slots t w)) fullShare ((dat1 V c).after w t) := by
  unfold Dat.leavesExact; rw [hl]

def bodyPre1 (t : Fin cfg1.N) : sProp 𝕄 :=
  iprop((dat1 V c).Φ t.castSucc ∗ (dat1 V c).owesAt () t.castSucc
    ∗ (∃ d, owns (c : Thread nD τ) (msa1 t) fullShare ((dat1 V c).before 0 t d))
    ∗ (∃ d, owns (c : Thread nD τ) (msb1 t) fullShare ((dat1 V c).before 1 t d))
    ∗ (∃ d, owns (c : Thread nD τ) (msc1 t) fullShare ((dat1 V c).before 2 t d))
    ∗ (∃ d, owns (c : Thread nD τ) (msd1 t) fullShare ((dat1 V c).before 3 t d))
    ∗ (∃ d, owns (c : Thread nD τ) (mse1 t) fullShare ((dat1 V c).before 4 t d))
    ∗ (∃ d, owns (c : Thread nD τ) (msf1 t) fullShare ((dat1 V c).before 5 t d)))

def bodyPost1 (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point meets its obligation: the parity of the point selects the run. -/
theorem sound_body1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_a, before1_b, before1_c, before1_d, before1_e]
  rw [show (dat1 V c).owesAt () t.succ = (dat1 V c).owesAt () t.castSucc from rfl]
  rw [show (dat1 V c).Φ t.succ = PhiS1 V c (t.val + 1) t.isLt from rfl, PhiS1_succ]
  rw [show (dat1 V c).Φ t.castSucc = PhiS1 V c t.val (Nat.le_of_lt t.isLt) from rfl]
  rw [leaves1 V c 0 t (liveAt1 0 t (by decide)), leaves1 V c 1 t (liveAt1 1 t (by decide)), leaves1 V c 2 t (liveAt1 2 t (by decide)),
    leaves1 V c 3 t (liveAt1 3 t (by decide)), leaves1 V c 4 t (liveAt1 4 t (by decide)),
    after1_a, after1_b, after1_c, after1_d, after1_e]
  by_cases hev : t.val % 2 = 0
  · rw [Dat.leavesExact_idle (dat1 V c) 5 t (idleAtA1 t hev).1 (idleAtA1 t hev).2, outsAt1_even V c t hev]
    unfold outA1; dsimp only
    have hw := Phi_weak1 V c t.val (Nat.le_of_lt t.isLt)
    rw [PhiA1_eq] at hw
    iintro ⟨HP, Ho, ⟨%da, Ha⟩, ⟨%db, Hb⟩, ⟨%dc, Hc⟩, ⟨%dd, Hd⟩, ⟨%de, He⟩, ⟨%df, Hf⟩⟩
    ihave HP2 := hw $$ HP
    icases HP2 with ⟨⟨HSc, Hr⟩, Hg⟩
    iapply ((runA1 V c t hev).2.2 _ Set.univ _)
    iframe Ha Hb Hc Hd He Hf HSc
    iintro ⟨Ha, Hb, Hc, Hd, He, Hf, ⟨%esc, HSc⟩⟩
    iframe Hr Hg Ho Ha Hb Hc Hd He
    isplitl [HSc]
    · unfold owns; iexists _; isplitr
      swap; · iexact HSc
      ipureintro; exact View.read_writes_of_cover _ _ _ _ _ (scoverA1 V c t hev)
    iexists _; iexact Hf
  · have hod : t.val % 2 = 1 := Nat.mod_two_ne_zero.mp hev
    rw [leaves1 V c 5 t (liveAtB1 t hod), show (dat1 V c).after 5 t = (outsAt1 V c t.val t.isLt).1 from rfl, outsAt1_odd V c t hod, PhiS1_pos V c _ _ (by omega)]
    unfold outB1; dsimp only
    iintro ⟨⟨⟨HSc, Hr⟩, Hg⟩, Ho, ⟨%da, Ha⟩, ⟨%db, Hb⟩, ⟨%dc, Hc⟩, ⟨%dd, Hd⟩, ⟨%de, He⟩, ⟨%df, Hf⟩⟩
    iapply ((runB1 V c t hod _).2.2 Set.univ _)
    iframe Ha Hb Hc Hd He HSc
    isplitl [Hf]; · iexists _; iexact Hf
    iintro ⟨Ha, Hb, Hc, Hd, He, ⟨%ef, Hf⟩, ⟨%esc, HSc⟩⟩
    iframe Hr Hg Ho Ha Hb Hc Hd He
    isplitl [HSc]
    · unfold owns; iexists _; isplitr
      swap; · iexact HSc
      ipureintro; exact View.read_writes_of_cover _ _ _ _ _ (scoverB1 V c t hod _)
    unfold owns; iexists _; isplitr
    swap; · iexact Hf
    ipureintro; exact View.read_writes_of_cover _ _ _ _ _ (coverB1 V c t hod _)

theorem body_obligation1 : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := .rfl

theorem hout1 : (dat1 V c).Φ (Fin.last cfg1.N) ⊢ Pipeline.ΦA spec1 c :=
  Phi_weak1 V c (Fin.last cfg1.N).val (Nat.le_of_lt_succ (Fin.last cfg1.N).isLt)

end Region

end Cert.Kernel.Hand

end
-- ==== Proof.K.Runs2.lean ====
/- A layer's grid has 16 points, t = 2 i + k for row tile i and reduction half k: the blocks met at a point, and which parity zeroes the accumulator or yields a tile. -/
import proofs.«414469_j73718818669208_3_alg».proof.Proof.Gen.Kernel.Launch
import proofs.«414469_j73718818669208_3_alg».proof.Proof.Gen.Kernel.Skeleton
import proofs.«414469_j73718818669208_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t` of the array `V` gives it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The 5120 feature rows the body reads at point `t`. -/
abbrev hrect2 (t : Fin cfg2.N) : Rect S10240x128 := Rect.unit (s := S10240x128) (k2_off1 (grid2.coords t)) S5120x128.size (k2_off1_inb (grid2.coords t))

abbrev ablk2 (c : Dev nD) (t : Fin cfg2.N) : Vec F S1280x5120 .bf16 := iblk2 V c 0 t
abbrev hblk2 (c : Dev nD) (t : Fin cfg2.N) : Vec F S10240x128 .bf16 := iblk2 V c 1 t
abbrev xblk2 (c : Dev nD) (t : Fin cfg2.N) : Vec F S1280x128 .f32 := iblk2 V c 2 t
abbrev wblk2 (c : Dev nD) (t : Fin cfg2.N) : Vec F S128x128 .bf16 := iblk2 V c 3 t
abbrev bblk2 (c : Dev nD) (t : Fin cfg2.N) : Vec F S1x128 .f32 := iblk2 V c 4 t

/-- At every point the body meets each operand's block. -/
theorem before2_of {c : Dev nD} (dat : Dat τ (Elt F) Unit ℕ (UR sig nD τ) ℕ cfg2 c) (hA : ∀ w, dat.A w = V c (Pipeline.arrRef spec2 w)) :
    (∀ (_ : ∀ t, dat.after 0 t = iblk2 V c 0 t) t d, dat.before 0 t d = iblk2 V c 0 t)
    ∧ (∀ (_ : ∀ t, dat.after 1 t = iblk2 V c 1 t) t d, dat.before 1 t d = iblk2 V c 1 t)
    ∧ (∀ (_ : ∀ t, dat.after 2 t = iblk2 V c 2 t) t d, dat.before 2 t d = iblk2 V c 2 t)
    ∧ (∀ (_ : ∀ t, dat.after 3 t = iblk2 V c 3 t) t d, dat.before 3 t d = iblk2 V c 3 t)
    ∧ (∀ (_ : ∀ t, dat.after 4 t = iblk2 V c 4 t) t d, dat.before 4 t d = iblk2 V c 4 t) := by
  refine ⟨?_, ?_, ?_, ?_, ?_⟩ <;> exact fun hafter t d =>
    (dat.before_in_eq_fetched _ rfl (fun _ => rfl) (fun _ _ _ => rfl) (fun t => by rw [hafter]; unfold Dat.blockOf iblk2; rw [hA]; try rfl) t d).trans
      (by unfold Dat.fetched Dat.blockOf iblk2; rw [hA]; try rfl)

end Region

abbrev condInit2 (i : grid2.Coords) : Prop := (Scalar.cmpi .ne (Scalar.extui (Scalar.cmpi .eq (BitVec.ofNat 32 (i 1).val) 0#32)) 0#32) = 1#1
/-- The accumulator is zeroed exactly at the even points (reduction half 0), -/
theorem hcondInit2 : ∀ t : Fin cfg2.N, condInit2 (grid2.coords t) ↔ t.val % 2 = 0 :=
  (by decide +kernel : ∀ t : Fin grid2.N, condInit2 (grid2.coords t) ↔ t.val % 2 = 0)

abbrev condFin2 (i : grid2.Coords) : Prop := k2_cond2 i = 1#1
/-- and the output tile is computed exactly at the odd points (reduction half 1). -/
theorem hcondFin2 : ∀ t : Fin cfg2.N, condFin2 (grid2.coords t) ↔ t.val % 2 = 1 :=
  (by decide +kernel : ∀ t : Fin grid2.N, condFin2 (grid2.coords t) ↔ t.val % 2 = 1)

/-- Only odd points produce an output tile. -/
theorem liveAt2 : ∀ (w : Fin cfg2.W) (t : Fin cfg2.N), w ≠ 5 → cfg2.idle w (grid2.coords t) = false := by decide +kernel
theorem idleAtA2 : ∀ t : Fin cfg2.N, t.val % 2 = 0 → cfg2.idle 5 (grid2.coords t) = true ∧ (cfg2.win 5).flush t = false := by decide +kernel
theorem liveAtB2 : ∀ t : Fin cfg2.N, t.val % 2 = 1 → cfg2.idle 5 (grid2.coords t) = false := by decide +kernel

abbrev VO2 : View sig .tc .vmem S1280x128 .f32 := (Memref.whole cc2_stg5_0 : Memref sig .tc .vmem S1280x128 .f32).view
abbrev msa2 (t : Fin cfg2.N) : Memref sig .tc .vmem S1280x5120 .bf16 := win2_0.stage (cfg2.slots t 0)
abbrev hsa2 (t : Fin cfg2.N) : (msa2 t).IsWhole := hstage2_0 ((cfg2.slots t 0).cast nbuf2_0)
abbrev msb2 (t : Fin cfg2.N) : Memref sig .tc .vmem S10240x128 .bf16 := win2_1.stage (cfg2.slots t 1)
abbrev hsb2 (t : Fin cfg2.N) : (msb2 t).IsWhole := hstage2_1 ((cfg2.slots t 1).cast nbuf2_1)
abbrev msc2 (t : Fin cfg2.N) : Memref sig .tc .vmem S1280x128 .f32 := win2_2.stage (cfg2.slots t 2)
abbrev hsc2 (t : Fin cfg2.N) : (msc2 t).IsWhole := hstage2_2 ((cfg2.slots t 2).cast nbuf2_2)
abbrev msd2 (t : Fin cfg2.N) : Memref sig .tc .vmem S128x128 .bf16 := win2_3.stage (cfg2.slots t 3)
abbrev hsd2 (t : Fin cfg2.N) : (msd2 t).IsWhole := hstage2_3 ((cfg2.slots t 3).cast nbuf2_3)
abbrev mse2 (t : Fin cfg2.N) : Memref sig .tc .vmem S1x128 .f32 := win2_4.stage (cfg2.slots t 4)
abbrev hse2 (t : Fin cfg2.N) : (mse2 t).IsWhole := hstage2_4 ((cfg2.slots t 4).cast nbuf2_4)
abbrev msf2 (t : Fin cfg2.N) : Memref sig .tc .vmem S1280x128 .f32 := win2_5.stage (cfg2.slots t 5)
abbrev hsf2 (t : Fin cfg2.N) : (msf2 t).IsWhole := hstage2_5 ((cfg2.slots t 5).cast nbuf2_5)
abbrev scM2 : Memref sig .tc .vmem S1280x128 .f32 := Memref.whole cc2_scratch0
abbrev VS2 : View sig .tc .vmem S1280x128 .f32 := scM2.view

theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.Kernel.Hand

end
-- ==== Proof.K.RunA2.lean ====
/- The body at a point of reduction half 0: the accumulator is reset to zero and the first half-product added. -/
import proofs.«414469_j73718818669208_3_alg».proof.Proof.K.Runs2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunA2 (c : Dev nD) (i : grid2.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : condInit2 i) (hcF : ¬condFin2 i)
    (xa : Vec F S1280x5120 .bf16) (xb : Vec F S10240x128 .bf16) (xc : Vec F S1280x128 .f32) (xd : Vec F S128x128 .bf16) (xe : Vec F S1x128 .f32) :
    Σ' (Lf : List (View.Piece (Elt F) S1280x128 .f32)), { LS : List (View.Piece (Elt F) S1280x128 .f32) //
      ∀ (xif : Vec F S1280x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ f, arg8.view.loc (c : Thread nD τ) ↦[arg8.view.set]{fullShare} arg8.view.writes (Elt F) f LS)) -∗ K ⟨⟩))
          ⊢ wp frame (wpE (defs₀ (F := F)) Variants.none c none) E (cc2__gin_layer_kernel i arg2 harg2 arg3 harg3 arg4 harg4 arg5 harg5 arg6 harg6 arg7 harg7 arg8 harg8) K } := by
  refine ⟨[], ?_, fun xif E K => ?run⟩
  case run =>
    simp only [cc2__gin_layer_kernel_eq_skeleton]; unfold cc2__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dsc, %fsc, -, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hff
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]
    · iexists _; isplitr; · ipureintro; exact harg7.read_unread _
      iexact Hf
    iexists _; iexact HSc

end Cert.Kernel.Hand

end
-- ==== Proof.K.RunB2.lean ====
/- The body at a point of reduction half 1: the second half-product is added and the output tile computed from the sum. -/
import proofs.«414469_j73718818669208_3_alg».proof.Proof.K.RunA2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunB2 (c : Dev nD) (i : grid2.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : ¬condInit2 i) (hcF : condFin2 i)
    (xa : Vec F S1280x5120 .bf16) (xb : Vec F S10240x128 .bf16) (xc : Vec F S1280x128 .f32) (xd : Vec F S128x128 .bf16) (xe : Vec F S1x128 .f32) (xs : Vec F S1280x128 .f32) :
    Σ' (Lf : List (View.Piece (Elt F) S1280x128 .f32)), { LS : List (View.Piece (Elt F) S1280x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f Lf) ∗ (∃ f, arg8.view.loc (c : Thread nD τ) ↦[arg8.view.set]{fullShare} arg8.view.writes (Elt F) f LS)) -∗ K ⟨⟩))
          ⊢ wp frame (wpE (defs₀ (F := F)) Variants.none c none) E (cc2__gin_layer_kernel i arg2 harg2 arg3 harg3 arg4 harg4 arg5 harg5 arg6 harg6 arg7 harg7 arg8 harg8) K } := by
  refine ⟨?_, ?_, fun E K => ?run⟩
  case run =>
    simp only [cc2__gin_layer_kernel_eq_skeleton]; unfold cc2__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fsc, %hfsc, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfsc
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]; · iexists _; iexact Hf
    iexists _; iexact HSc

end Cert.Kernel.Hand

end
-- ==== Proof.K.Reg2.lean ====
/- Point by point through a layer: what a point leaves in the accumulator and the tile, the invariant carried from one point to the next, and the body's obligation. -/
import proofs.«414469_j73718818669208_3_alg».proof.Proof.K.RunB2
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b)) (c : Dev nD)

/-- The body's run at an even point, -/
abbrev runA2 (t : Fin cfg2.N) (hev : t.val % 2 = 0) :=
  kernelRunA2 c (grid2.coords t) (msa2 t) (hsa2 t) (msb2 t) (hsb2 t) (msc2 t) (hsc2 t) (msd2 t) (hsd2 t) (mse2 t) (hse2 t) (msf2 t) (hsf2 t) scM2 (Memref.isWhole_whole _)
    ((hcondInit2 t).mpr hev) (fun h => absurd ((hcondFin2 t).mp h) (by omega)) (ablk2 V c t) (hblk2 V c t) (xblk2 V c t) (wblk2 V c t) (bblk2 V c t)
/-- and at an odd point, over the accumulator's contents `xs`. -/
abbrev runB2 (t : Fin cfg2.N) (hod : t.val % 2 = 1) (xs : Vec F S1280x128 .f32) :=
  kernelRunB2 c (grid2.coords t) (msa2 t) (hsa2 t) (msb2 t) (hsb2 t) (msc2 t) (hsc2 t) (msd2 t) (hsd2 t) (mse2 t) (hse2 t) (msf2 t) (hsf2 t) scM2 (Memref.isWhole_whole _)
    (fun h => absurd ((hcondInit2 t).mp h) (by omega)) ((hcondFin2 t).mpr hod) (ablk2 V c t) (hblk2 V c t) (xblk2 V c t) (wblk2 V c t) (bblk2 V c t) xs

theorem scoverA2 (t : Fin cfg2.N) (hev : t.val % 2 = 0) (y : S1280x128.Idx) : ∃ pc ∈ (runA2 V c t hev).2.1, y ∈ pc.1.set :=
  View.cover_of_tiledL _ S1280x128.size (by sl_kernel_rfl) y
theorem coverB2 (t : Fin cfg2.N) (hod : t.val % 2 = 1) (xs : Vec F S1280x128 .f32) (y : S1280x128.Idx) : ∃ pc ∈ (runB2 V c t hod xs).1, y ∈ pc.1.set :=
  View.cover_of_tiledL _ S1280x128.size (by sl_kernel_rfl) y
theorem scoverB2 (t : Fin cfg2.N) (hod : t.val % 2 = 1) (xs : Vec F S1280x128 .f32) (y : S1280x128.Idx) : ∃ pc ∈ (runB2 V c t hod xs).2.1, y ∈ pc.1.set :=
  View.cover_of_tiledL _ S1280x128.size (by sl_kernel_rfl) y

/-- The output tile (.1) and the accumulator (.2) after a run. -/
def outA2 (t : Fin cfg2.N) (hev : t.val % 2 = 0) : Vec F S1280x128 .f32 × Vec F S1280x128 .f32 :=
  (VO2.read (Elt F) (VO2.writes (Elt F) VO2.junk (runA2 V c t hev).1), VS2.read (Elt F) (VS2.writes (Elt F) VS2.junk (runA2 V c t hev).2.1))
def outB2 (t : Fin cfg2.N) (hod : t.val % 2 = 1) (xs : Vec F S1280x128 .f32) : Vec F S1280x128 .f32 × Vec F S1280x128 .f32 :=
  (VO2.read (Elt F) (VO2.writes (Elt F) VO2.junk (runB2 V c t hod xs).1), VS2.read (Elt F) (VS2.writes (Elt F) VS2.junk (runB2 V c t hod xs).2.1))

/-- The same after point `n`, by recursion: an odd point accumulates onto what the even point before it left. -/
def outsAt2 : (n : ℕ) → n < cfg2.N → Vec F S1280x128 .f32 × Vec F S1280x128 .f32
  | 0, hn => outA2 V c ⟨0, hn⟩ (Nat.zero_mod _)
  | n + 1, hn =>
    if hev : (n + 1) % 2 = 0 then outA2 V c ⟨n + 1, hn⟩ hev
    else outB2 V c ⟨n + 1, hn⟩ (Nat.mod_two_ne_zero.mp hev) (outsAt2 n (Nat.lt_of_succ_lt hn)).2

theorem outsAt2_even (t : Fin cfg2.N) (hev : t.val % 2 = 0) : outsAt2 V c t.val t.isLt = outA2 V c t hev := by
  obtain ⟨n, hn⟩ := t
  cases n with
  | zero => rfl
  | succ n => exact dif_pos hev

theorem outsAt2_odd (t : Fin cfg2.N) (hod : t.val % 2 = 1) :
    outsAt2 V c t.val t.isLt = outB2 V c t hod (outsAt2 V c (t.val - 1) (Nat.lt_of_le_of_lt (Nat.sub_le _ _) t.isLt)).2 := by
  obtain ⟨n, hn⟩ := t
  cases n with
  | zero => exact absurd hod (by simp)
  | succ n => exact dif_neg (Nat.mod_two_ne_zero.mpr hod)

/-- The invariant before point `n`: the accumulator holds what point `n - 1` left. -/
def PhiS2 : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_succ (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- Forgetting the accumulator's contents, the invariant at any point is the one the layer starts from. -/
theorem Phi_weak2 (n : ℕ) (h : n ≤ cfg2.N) : PhiS2 V c n h ⊢ Pipeline.ΦA spec2 c := by
  cases n with
  | zero => exact .rfl
  | succ n =>
    rw [PhiS2_succ, PhiA2_eq]
    iintro ⟨⟨HSc, Hr⟩, Hg⟩
    isplitl [HSc Hr]
    · isplitl [HSc]
      · iexists _; iexact HSc
      iexact Hr
    iexact Hg

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (w : Fin cfg2.W) : (dat2 V c).A w = V c (Pipeline.arrRef spec2 w) := rfl

theorem after2_a (t : Fin cfg2.N) : (dat2 V c).after 0 t = iblk2 V c 0 t := by dsimp only [dat2]
theorem after2_b (t : Fin cfg2.N) : (dat2 V c).after 1 t = iblk2 V c 1 t := by dsimp only [dat2]
theorem after2_c (t : Fin cfg2.N) : (dat2 V c).after 2 t = iblk2 V c 2 t := by dsimp only [dat2]
theorem after2_d (t : Fin cfg2.N) : (dat2 V c).after 3 t = iblk2 V c 3 t := by dsimp only [dat2]
theorem after2_e (t : Fin cfg2.N) : (dat2 V c).after 4 t = iblk2 V c 4 t := by dsimp only [dat2]

theorem before2_a (t : Fin cfg2.N) (d) : (dat2 V c).before 0 t d = iblk2 V c 0 t :=
  (before2_of V (dat2 V c) (A_eq2 V c)).1 (after2_a V c) t d
theorem before2_b (t : Fin cfg2.N) (d) : (dat2 V c).before 1 t d = iblk2 V c 1 t :=
  (before2_of V (dat2 V c) (A_eq2 V c)).2.1 (after2_b V c) t d
theorem before2_c (t : Fin cfg2.N) (d) : (dat2 V c).before 2 t d = iblk2 V c 2 t :=
  (before2_of V (dat2 V c) (A_eq2 V c)).2.2.1 (after2_c V c) t d
theorem before2_d (t : Fin cfg2.N) (d) : (dat2 V c).before 3 t d = iblk2 V c 3 t :=
  (before2_of V (dat2 V c) (A_eq2 V c)).2.2.2.1 (after2_d V c) t d
theorem before2_e (t : Fin cfg2.N) (d) : (dat2 V c).before 4 t d = iblk2 V c 4 t :=
  (before2_of V (dat2 V c) (A_eq2 V c)).2.2.2.2 (after2_e V c) t d

theorem leaves2 (w : Fin cfg2.W) (t : Fin cfg2.N) (hl : cfg2.idle w (grid2.coords t) = false) :
    (dat2 V c).leavesExact w t = owns (c : Thread nD τ) ((cfg2.win w).stage (cfg2.slots t w)) fullShare ((dat2 V c).after w t) := by
  unfold Dat.leavesExact; rw [hl]

def bodyPre2 (t : Fin cfg2.N) : sProp 𝕄 :=
  iprop((dat2 V c).Φ t.castSucc ∗ (dat2 V c).owesAt () t.castSucc
    ∗ (∃ d, owns (c : Thread nD τ) (msa2 t) fullShare ((dat2 V c).before 0 t d))
    ∗ (∃ d, owns (c : Thread nD τ) (msb2 t) fullShare ((dat2 V c).before 1 t d))
    ∗ (∃ d, owns (c : Thread nD τ) (msc2 t) fullShare ((dat2 V c).before 2 t d))
    ∗ (∃ d, owns (c : Thread nD τ) (msd2 t) fullShare ((dat2 V c).before 3 t d))
    ∗ (∃ d, owns (c : Thread nD τ) (mse2 t) fullShare ((dat2 V c).before 4 t d))
    ∗ (∃ d, owns (c : Thread nD τ) (msf2 t) fullShare ((dat2 V c).before 5 t d)))

def bodyPost2 (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point meets its obligation: the parity of the point selects the run. -/
theorem sound_body2 (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_a, before2_b, before2_c, before2_d, before2_e]
  rw [show (dat2 V c).owesAt () t.succ = (dat2 V c).owesAt () t.castSucc from rfl]
  rw [show (dat2 V c).Φ t.succ = PhiS2 V c (t.val + 1) t.isLt from rfl, PhiS2_succ]
  rw [show (dat2 V c).Φ t.castSucc = PhiS2 V c t.val (Nat.le_of_lt t.isLt) from rfl]
  rw [leaves2 V c 0 t (liveAt2 0 t (by decide)), leaves2 V c 1 t (liveAt2 1 t (by decide)), leaves2 V c 2 t (liveAt2 2 t (by decide)),
    leaves2 V c 3 t (liveAt2 3 t (by decide)), leaves2 V c 4 t (liveAt2 4 t (by decide)),
    after2_a, after2_b, after2_c, after2_d, after2_e]
  by_cases hev : t.val % 2 = 0
  · rw [Dat.leavesExact_idle (dat2 V c) 5 t (idleAtA2 t hev).1 (idleAtA2 t hev).2, outsAt2_even V c t hev]
    unfold outA2; dsimp only
    have hw := Phi_weak2 V c t.val (Nat.le_of_lt t.isLt)
    rw [PhiA2_eq] at hw
    iintro ⟨HP, Ho, ⟨%da, Ha⟩, ⟨%db, Hb⟩, ⟨%dc, Hc⟩, ⟨%dd, Hd⟩, ⟨%de, He⟩, ⟨%df, Hf⟩⟩
    ihave HP2 := hw $$ HP
    icases HP2 with ⟨⟨HSc, Hr⟩, Hg⟩
    iapply ((runA2 V c t hev).2.2 _ Set.univ _)
    iframe Ha Hb Hc Hd He Hf HSc
    iintro ⟨Ha, Hb, Hc, Hd, He, Hf, ⟨%esc, HSc⟩⟩
    iframe Hr Hg Ho Ha Hb Hc Hd He
    isplitl [HSc]
    · unfold owns; iexists _; isplitr
      swap; · iexact HSc
      ipureintro; exact View.read_writes_of_cover _ _ _ _ _ (scoverA2 V c t hev)
    iexists _; iexact Hf
  · have hod : t.val % 2 = 1 := Nat.mod_two_ne_zero.mp hev
    rw [leaves2 V c 5 t (liveAtB2 t hod), show (dat2 V c).after 5 t = (outsAt2 V c t.val t.isLt).1 from rfl, outsAt2_odd V c t hod, PhiS2_pos V c _ _ (by omega)]
    unfold outB2; dsimp only
    iintro ⟨⟨⟨HSc, Hr⟩, Hg⟩, Ho, ⟨%da, Ha⟩, ⟨%db, Hb⟩, ⟨%dc, Hc⟩, ⟨%dd, Hd⟩, ⟨%de, He⟩, ⟨%df, Hf⟩⟩
    iapply ((runB2 V c t hod _).2.2 Set.univ _)
    iframe Ha Hb Hc Hd He HSc
    isplitl [Hf]; · iexists _; iexact Hf
    iintro ⟨Ha, Hb, Hc, Hd, He, ⟨%ef, Hf⟩, ⟨%esc, HSc⟩⟩
    iframe Hr Hg Ho Ha Hb Hc Hd He
    isplitl [HSc]
    · unfold owns; iexists _; isplitr
      swap; · iexact HSc
      ipureintro; exact View.read_writes_of_cover _ _ _ _ _ (scoverB2 V c t hod _)
    unfold owns; iexists _; isplitr
    swap; · iexact Hf
    ipureintro; exact View.read_writes_of_cover _ _ _ _ _ (coverB2 V c t hod _)

theorem body_obligation2 : BodyObligation (dat2 (F := F) V c) (defs₀ (F := F)) Variants.none () Set.univ := fun t => by
  rw [bigSep_W2, bigSep_W2]
  exact sound_body2 V c t

theorem hin2 : Pipeline.ΦA spec2 c ⊢ (dat2 V c).Φ 0 := .rfl

theorem hout2 : (dat2 V c).Φ (Fin.last cfg2.N) ⊢ Pipeline.ΦA spec2 c :=
  Phi_weak2 V c (Fin.last cfg2.N).val (Nat.le_of_lt_succ (Fin.last cfg2.N).isLt)

end Region

end Cert.Kernel.Hand

end
-- ==== Proof.K.Runs3.lean ====
/- A layer's grid has 16 points, t = 2 i + k for row tile i and reduction half k: the blocks met at a point, and which parity zeroes the accumulator or yields a tile. -/
import proofs.«414469_j73718818669208_3_alg».proof.Proof.Gen.Kernel.Launch
import proofs.«414469_j73718818669208_3_alg».proof.Proof.Gen.Kernel.Skeleton
import proofs.«414469_j73718818669208_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t` of the array `V` gives it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The 5120 feature rows the body reads at point `t`. -/
abbrev hrect3 (t : Fin cfg3.N) : Rect S10240x128 := Rect.unit (s := S10240x128) (k3_off1 (grid3.coords t)) S5120x128.size (k3_off1_inb (grid3.coords t))

abbrev ablk3 (c : Dev nD) (t : Fin cfg3.N) : Vec F S1280x5120 .bf16 := iblk3 V c 0 t
abbrev hblk3 (c : Dev nD) (t : Fin cfg3.N) : Vec F S10240x128 .bf16 := iblk3 V c 1 t
abbrev xblk3 (c : Dev nD) (t : Fin cfg3.N) : Vec F S1280x128 .f32 := iblk3 V c 2 t
abbrev wblk3 (c : Dev nD) (t : Fin cfg3.N) : Vec F S128x128 .bf16 := iblk3 V c 3 t
abbrev bblk3 (c : Dev nD) (t : Fin cfg3.N) : Vec F S1x128 .f32 := iblk3 V c 4 t

/-- At every point the body meets each operand's block. -/
theorem before3_of {c : Dev nD} (dat : Dat τ (Elt F) Unit ℕ (UR sig nD τ) ℕ cfg3 c) (hA : ∀ w, dat.A w = V c (Pipeline.arrRef spec3 w)) :
    (∀ (_ : ∀ t, dat.after 0 t = iblk3 V c 0 t) t d, dat.before 0 t d = iblk3 V c 0 t)
    ∧ (∀ (_ : ∀ t, dat.after 1 t = iblk3 V c 1 t) t d, dat.before 1 t d = iblk3 V c 1 t)
    ∧ (∀ (_ : ∀ t, dat.after 2 t = iblk3 V c 2 t) t d, dat.before 2 t d = iblk3 V c 2 t)
    ∧ (∀ (_ : ∀ t, dat.after 3 t = iblk3 V c 3 t) t d, dat.before 3 t d = iblk3 V c 3 t)
    ∧ (∀ (_ : ∀ t, dat.after 4 t = iblk3 V c 4 t) t d, dat.before 4 t d = iblk3 V c 4 t) := by
  refine ⟨?_, ?_, ?_, ?_, ?_⟩ <;> exact fun hafter t d =>
    (dat.before_in_eq_fetched _ rfl (fun _ => rfl) (fun _ _ _ => rfl) (fun t => by rw [hafter]; unfold Dat.blockOf iblk3; rw [hA]; try rfl) t d).trans
      (by unfold Dat.fetched Dat.blockOf iblk3; rw [hA]; try rfl)

end Region

abbrev condInit3 (i : grid3.Coords) : Prop := (Scalar.cmpi .ne (Scalar.extui (Scalar.cmpi .eq (BitVec.ofNat 32 (i 1).val) 0#32)) 0#32) = 1#1
/-- The accumulator is zeroed exactly at the even points (reduction half 0), -/
theorem hcondInit3 : ∀ t : Fin cfg3.N, condInit3 (grid3.coords t) ↔ t.val % 2 = 0 :=
  (by decide +kernel : ∀ t : Fin grid3.N, condInit3 (grid3.coords t) ↔ t.val % 2 = 0)

abbrev condFin3 (i : grid3.Coords) : Prop := k3_cond2 i = 1#1
/-- and the output tile is computed exactly at the odd points (reduction half 1). -/
theorem hcondFin3 : ∀ t : Fin cfg3.N, condFin3 (grid3.coords t) ↔ t.val % 2 = 1 :=
  (by decide +kernel : ∀ t : Fin grid3.N, condFin3 (grid3.coords t) ↔ t.val % 2 = 1)

/-- Only odd points produce an output tile. -/
theorem liveAt3 : ∀ (w : Fin cfg3.W) (t : Fin cfg3.N), w ≠ 5 → cfg3.idle w (grid3.coords t) = false := by decide +kernel
theorem idleAtA3 : ∀ t : Fin cfg3.N, t.val % 2 = 0 → cfg3.idle 5 (grid3.coords t) = true ∧ (cfg3.win 5).flush t = false := by decide +kernel
theorem liveAtB3 : ∀ t : Fin cfg3.N, t.val % 2 = 1 → cfg3.idle 5 (grid3.coords t) = false := by decide +kernel

abbrev VO3 : View sig .tc .vmem S1280x128 .f32 := (Memref.whole cc3_stg5_0 : Memref sig .tc .vmem S1280x128 .f32).view
abbrev msa3 (t : Fin cfg3.N) : Memref sig .tc .vmem S1280x5120 .bf16 := win3_0.stage (cfg3.slots t 0)
abbrev hsa3 (t : Fin cfg3.N) : (msa3 t).IsWhole := hstage3_0 ((cfg3.slots t 0).cast nbuf3_0)
abbrev msb3 (t : Fin cfg3.N) : Memref sig .tc .vmem S10240x128 .bf16 := win3_1.stage (cfg3.slots t 1)
abbrev hsb3 (t : Fin cfg3.N) : (msb3 t).IsWhole := hstage3_1 ((cfg3.slots t 1).cast nbuf3_1)
abbrev msc3 (t : Fin cfg3.N) : Memref sig .tc .vmem S1280x128 .f32 := win3_2.stage (cfg3.slots t 2)
abbrev hsc3 (t : Fin cfg3.N) : (msc3 t).IsWhole := hstage3_2 ((cfg3.slots t 2).cast nbuf3_2)
abbrev msd3 (t : Fin cfg3.N) : Memref sig .tc .vmem S128x128 .bf16 := win3_3.stage (cfg3.slots t 3)
abbrev hsd3 (t : Fin cfg3.N) : (msd3 t).IsWhole := hstage3_3 ((cfg3.slots t 3).cast nbuf3_3)
abbrev mse3 (t : Fin cfg3.N) : Memref sig .tc .vmem S1x128 .f32 := win3_4.stage (cfg3.slots t 4)
abbrev hse3 (t : Fin cfg3.N) : (mse3 t).IsWhole := hstage3_4 ((cfg3.slots t 4).cast nbuf3_4)
abbrev msf3 (t : Fin cfg3.N) : Memref sig .tc .vmem S1280x128 .f32 := win3_5.stage (cfg3.slots t 5)
abbrev hsf3 (t : Fin cfg3.N) : (msf3 t).IsWhole := hstage3_5 ((cfg3.slots t 5).cast nbuf3_5)
abbrev scM3 : Memref sig .tc .vmem S1280x128 .f32 := Memref.whole cc3_scratch0
abbrev VS3 : View sig .tc .vmem S1280x128 .f32 := scM3.view

theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.Kernel.Hand

end
-- ==== Proof.K.RunA3.lean ====
/- The body at a point of reduction half 0: the accumulator is reset to zero and the first half-product added. -/
import proofs.«414469_j73718818669208_3_alg».proof.Proof.K.Runs3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunA3 (c : Dev nD) (i : grid3.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : condInit3 i) (hcF : ¬condFin3 i)
    (xa : Vec F S1280x5120 .bf16) (xb : Vec F S10240x128 .bf16) (xc : Vec F S1280x128 .f32) (xd : Vec F S128x128 .bf16) (xe : Vec F S1x128 .f32) :
    Σ' (Lf : List (View.Piece (Elt F) S1280x128 .f32)), { LS : List (View.Piece (Elt F) S1280x128 .f32) //
      ∀ (xif : Vec F S1280x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ f, arg8.view.loc (c : Thread nD τ) ↦[arg8.view.set]{fullShare} arg8.view.writes (Elt F) f LS)) -∗ K ⟨⟩))
          ⊢ wp frame (wpE (defs₀ (F := F)) Variants.none c none) E (cc3__gin_layer_kernel i arg2 harg2 arg3 harg3 arg4 harg4 arg5 harg5 arg6 harg6 arg7 harg7 arg8 harg8) K } := by
  refine ⟨[], ?_, fun xif E K => ?run⟩
  case run =>
    simp only [cc3__gin_layer_kernel_eq_skeleton]; unfold cc3__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dsc, %fsc, -, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hff
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]
    · iexists _; isplitr; · ipureintro; exact harg7.read_unread _
      iexact Hf
    iexists _; iexact HSc

end Cert.Kernel.Hand

end
-- ==== Proof.K.RunB3.lean ====
/- The body at a point of reduction half 1: the second half-product is added and the output tile computed from the sum. -/
import proofs.«414469_j73718818669208_3_alg».proof.Proof.K.RunA3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunB3 (c : Dev nD) (i : grid3.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : ¬condInit3 i) (hcF : condFin3 i)
    (xa : Vec F S1280x5120 .bf16) (xb : Vec F S10240x128 .bf16) (xc : Vec F S1280x128 .f32) (xd : Vec F S128x128 .bf16) (xe : Vec F S1x128 .f32) (xs : Vec F S1280x128 .f32) :
    Σ' (Lf : List (View.Piece (Elt F) S1280x128 .f32)), { LS : List (View.Piece (Elt F) S1280x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f Lf) ∗ (∃ f, arg8.view.loc (c : Thread nD τ) ↦[arg8.view.set]{fullShare} arg8.view.writes (Elt F) f LS)) -∗ K ⟨⟩))
          ⊢ wp frame (wpE (defs₀ (F := F)) Variants.none c none) E (cc3__gin_layer_kernel i arg2 harg2 arg3 harg3 arg4 harg4 arg5 harg5 arg6 harg6 arg7 harg7 arg8 harg8) K } := by
  refine ⟨?_, ?_, fun E K => ?run⟩
  case run =>
    simp only [cc3__gin_layer_kernel_eq_skeleton]; unfold cc3__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fsc, %hfsc, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfsc
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]; · iexists _; iexact Hf
    iexists _; iexact HSc

end Cert.Kernel.Hand

end
-- ==== Proof.K.Reg3.lean ====
/- Point by point through a layer: what a point leaves in the accumulator and the tile, the invariant carried from one point to the next, and the body's obligation. -/
import proofs.«414469_j73718818669208_3_alg».proof.Proof.K.RunB3
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b)) (c : Dev nD)

/-- The body's run at an even point, -/
abbrev runA3 (t : Fin cfg3.N) (hev : t.val % 2 = 0) :=
  kernelRunA3 c (grid3.coords t) (msa3 t) (hsa3 t) (msb3 t) (hsb3 t) (msc3 t) (hsc3 t) (msd3 t) (hsd3 t) (mse3 t) (hse3 t) (msf3 t) (hsf3 t) scM3 (Memref.isWhole_whole _)
    ((hcondInit3 t).mpr hev) (fun h => absurd ((hcondFin3 t).mp h) (by omega)) (ablk3 V c t) (hblk3 V c t) (xblk3 V c t) (wblk3 V c t) (bblk3 V c t)
/-- and at an odd point, over the accumulator's contents `xs`. -/
abbrev runB3 (t : Fin cfg3.N) (hod : t.val % 2 = 1) (xs : Vec F S1280x128 .f32) :=
  kernelRunB3 c (grid3.coords t) (msa3 t) (hsa3 t) (msb3 t) (hsb3 t) (msc3 t) (hsc3 t) (msd3 t) (hsd3 t) (mse3 t) (hse3 t) (msf3 t) (hsf3 t) scM3 (Memref.isWhole_whole _)
    (fun h => absurd ((hcondInit3 t).mp h) (by omega)) ((hcondFin3 t).mpr hod) (ablk3 V c t) (hblk3 V c t) (xblk3 V c t) (wblk3 V c t) (bblk3 V c t) xs

theorem scoverA3 (t : Fin cfg3.N) (hev : t.val % 2 = 0) (y : S1280x128.Idx) : ∃ pc ∈ (runA3 V c t hev).2.1, y ∈ pc.1.set :=
  View.cover_of_tiledL _ S1280x128.size (by sl_kernel_rfl) y
theorem coverB3 (t : Fin cfg3.N) (hod : t.val % 2 = 1) (xs : Vec F S1280x128 .f32) (y : S1280x128.Idx) : ∃ pc ∈ (runB3 V c t hod xs).1, y ∈ pc.1.set :=
  View.cover_of_tiledL _ S1280x128.size (by sl_kernel_rfl) y
theorem scoverB3 (t : Fin cfg3.N) (hod : t.val % 2 = 1) (xs : Vec F S1280x128 .f32) (y : S1280x128.Idx) : ∃ pc ∈ (runB3 V c t hod xs).2.1, y ∈ pc.1.set :=
  View.cover_of_tiledL _ S1280x128.size (by sl_kernel_rfl) y

/-- The output tile (.1) and the accumulator (.2) after a run. -/
def outA3 (t : Fin cfg3.N) (hev : t.val % 2 = 0) : Vec F S1280x128 .f32 × Vec F S1280x128 .f32 :=
  (VO3.read (Elt F) (VO3.writes (Elt F) VO3.junk (runA3 V c t hev).1), VS3.read (Elt F) (VS3.writes (Elt F) VS3.junk (runA3 V c t hev).2.1))
def outB3 (t : Fin cfg3.N) (hod : t.val % 2 = 1) (xs : Vec F S1280x128 .f32) : Vec F S1280x128 .f32 × Vec F S1280x128 .f32 :=
  (VO3.read (Elt F) (VO3.writes (Elt F) VO3.junk (runB3 V c t hod xs).1), VS3.read (Elt F) (VS3.writes (Elt F) VS3.junk (runB3 V c t hod xs).2.1))

/-- The same after point `n`, by recursion: an odd point accumulates onto what the even point before it left. -/
def outsAt3 : (n : ℕ) → n < cfg3.N → Vec F S1280x128 .f32 × Vec F S1280x128 .f32
  | 0, hn => outA3 V c ⟨0, hn⟩ (Nat.zero_mod _)
  | n + 1, hn =>
    if hev : (n + 1) % 2 = 0 then outA3 V c ⟨n + 1, hn⟩ hev
    else outB3 V c ⟨n + 1, hn⟩ (Nat.mod_two_ne_zero.mp hev) (outsAt3 n (Nat.lt_of_succ_lt hn)).2

theorem outsAt3_even (t : Fin cfg3.N) (hev : t.val % 2 = 0) : outsAt3 V c t.val t.isLt = outA3 V c t hev := by
  obtain ⟨n, hn⟩ := t
  cases n with
  | zero => rfl
  | succ n => exact dif_pos hev

theorem outsAt3_odd (t : Fin cfg3.N) (hod : t.val % 2 = 1) :
    outsAt3 V c t.val t.isLt = outB3 V c t hod (outsAt3 V c (t.val - 1) (Nat.lt_of_le_of_lt (Nat.sub_le _ _) t.isLt)).2 := by
  obtain ⟨n, hn⟩ := t
  cases n with
  | zero => exact absurd hod (by simp)
  | succ n => exact dif_neg (Nat.mod_two_ne_zero.mpr hod)

/-- The invariant before point `n`: the accumulator holds what point `n - 1` left. -/
def PhiS3 : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_succ (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- Forgetting the accumulator's contents, the invariant at any point is the one the layer starts from. -/
theorem Phi_weak3 (n : ℕ) (h : n ≤ cfg3.N) : PhiS3 V c n h ⊢ Pipeline.ΦA spec3 c := by
  cases n with
  | zero => exact .rfl
  | succ n =>
    rw [PhiS3_succ, PhiA3_eq]
    iintro ⟨⟨HSc, Hr⟩, Hg⟩
    isplitl [HSc Hr]
    · isplitl [HSc]
      · iexists _; iexact HSc
      iexact Hr
    iexact Hg

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (w : Fin cfg3.W) : (dat3 V c).A w = V c (Pipeline.arrRef spec3 w) := rfl

theorem after3_a (t : Fin cfg3.N) : (dat3 V c).after 0 t = iblk3 V c 0 t := by dsimp only [dat3]
theorem after3_b (t : Fin cfg3.N) : (dat3 V c).after 1 t = iblk3 V c 1 t := by dsimp only [dat3]
theorem after3_c (t : Fin cfg3.N) : (dat3 V c).after 2 t = iblk3 V c 2 t := by dsimp only [dat3]
theorem after3_d (t : Fin cfg3.N) : (dat3 V c).after 3 t = iblk3 V c 3 t := by dsimp only [dat3]
theorem after3_e (t : Fin cfg3.N) : (dat3 V c).after 4 t = iblk3 V c 4 t := by dsimp only [dat3]

theorem before3_a (t : Fin cfg3.N) (d) : (dat3 V c).before 0 t d = iblk3 V c 0 t :=
  (before3_of V (dat3 V c) (A_eq3 V c)).1 (after3_a V c) t d
theorem before3_b (t : Fin cfg3.N) (d) : (dat3 V c).before 1 t d = iblk3 V c 1 t :=
  (before3_of V (dat3 V c) (A_eq3 V c)).2.1 (after3_b V c) t d
theorem before3_c (t : Fin cfg3.N) (d) : (dat3 V c).before 2 t d = iblk3 V c 2 t :=
  (before3_of V (dat3 V c) (A_eq3 V c)).2.2.1 (after3_c V c) t d
theorem before3_d (t : Fin cfg3.N) (d) : (dat3 V c).before 3 t d = iblk3 V c 3 t :=
  (before3_of V (dat3 V c) (A_eq3 V c)).2.2.2.1 (after3_d V c) t d
theorem before3_e (t : Fin cfg3.N) (d) : (dat3 V c).before 4 t d = iblk3 V c 4 t :=
  (before3_of V (dat3 V c) (A_eq3 V c)).2.2.2.2 (after3_e V c) t d

theorem leaves3 (w : Fin cfg3.W) (t : Fin cfg3.N) (hl : cfg3.idle w (grid3.coords t) = false) :
    (dat3 V c).leavesExact w t = owns (c : Thread nD τ) ((cfg3.win w).stage (cfg3.slots t w)) fullShare ((dat3 V c).after w t) := by
  unfold Dat.leavesExact; rw [hl]

def bodyPre3 (t : Fin cfg3.N) : sProp 𝕄 :=
  iprop((dat3 V c).Φ t.castSucc ∗ (dat3 V c).owesAt () t.castSucc
    ∗ (∃ d, owns (c : Thread nD τ) (msa3 t) fullShare ((dat3 V c).before 0 t d))
    ∗ (∃ d, owns (c : Thread nD τ) (msb3 t) fullShare ((dat3 V c).before 1 t d))
    ∗ (∃ d, owns (c : Thread nD τ) (msc3 t) fullShare ((dat3 V c).before 2 t d))
    ∗ (∃ d, owns (c : Thread nD τ) (msd3 t) fullShare ((dat3 V c).before 3 t d))
    ∗ (∃ d, owns (c : Thread nD τ) (mse3 t) fullShare ((dat3 V c).before 4 t d))
    ∗ (∃ d, owns (c : Thread nD τ) (msf3 t) fullShare ((dat3 V c).before 5 t d)))

def bodyPost3 (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point meets its obligation: the parity of the point selects the run. -/
theorem sound_body3 (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_a, before3_b, before3_c, before3_d, before3_e]
  rw [show (dat3 V c).owesAt () t.succ = (dat3 V c).owesAt () t.castSucc from rfl]
  rw [show (dat3 V c).Φ t.succ = PhiS3 V c (t.val + 1) t.isLt from rfl, PhiS3_succ]
  rw [show (dat3 V c).Φ t.castSucc = PhiS3 V c t.val (Nat.le_of_lt t.isLt) from rfl]
  rw [leaves3 V c 0 t (liveAt3 0 t (by decide)), leaves3 V c 1 t (liveAt3 1 t (by decide)), leaves3 V c 2 t (liveAt3 2 t (by decide)),
    leaves3 V c 3 t (liveAt3 3 t (by decide)), leaves3 V c 4 t (liveAt3 4 t (by decide)),
    after3_a, after3_b, after3_c, after3_d, after3_e]
  by_cases hev : t.val % 2 = 0
  · rw [Dat.leavesExact_idle (dat3 V c) 5 t (idleAtA3 t hev).1 (idleAtA3 t hev).2, outsAt3_even V c t hev]
    unfold outA3; dsimp only
    have hw := Phi_weak3 V c t.val (Nat.le_of_lt t.isLt)
    rw [PhiA3_eq] at hw
    iintro ⟨HP, Ho, ⟨%da, Ha⟩, ⟨%db, Hb⟩, ⟨%dc, Hc⟩, ⟨%dd, Hd⟩, ⟨%de, He⟩, ⟨%df, Hf⟩⟩
    ihave HP2 := hw $$ HP
    icases HP2 with ⟨⟨HSc, Hr⟩, Hg⟩
    iapply ((runA3 V c t hev).2.2 _ Set.univ _)
    iframe Ha Hb Hc Hd He Hf HSc
    iintro ⟨Ha, Hb, Hc, Hd, He, Hf, ⟨%esc, HSc⟩⟩
    iframe Hr Hg Ho Ha Hb Hc Hd He
    isplitl [HSc]
    · unfold owns; iexists _; isplitr
      swap; · iexact HSc
      ipureintro; exact View.read_writes_of_cover _ _ _ _ _ (scoverA3 V c t hev)
    iexists _; iexact Hf
  · have hod : t.val % 2 = 1 := Nat.mod_two_ne_zero.mp hev
    rw [leaves3 V c 5 t (liveAtB3 t hod), show (dat3 V c).after 5 t = (outsAt3 V c t.val t.isLt).1 from rfl, outsAt3_odd V c t hod, PhiS3_pos V c _ _ (by omega)]
    unfold outB3; dsimp only
    iintro ⟨⟨⟨HSc, Hr⟩, Hg⟩, Ho, ⟨%da, Ha⟩, ⟨%db, Hb⟩, ⟨%dc, Hc⟩, ⟨%dd, Hd⟩, ⟨%de, He⟩, ⟨%df, Hf⟩⟩
    iapply ((runB3 V c t hod _).2.2 Set.univ _)
    iframe Ha Hb Hc Hd He HSc
    isplitl [Hf]; · iexists _; iexact Hf
    iintro ⟨Ha, Hb, Hc, Hd, He, ⟨%ef, Hf⟩, ⟨%esc, HSc⟩⟩
    iframe Hr Hg Ho Ha Hb Hc Hd He
    isplitl [HSc]
    · unfold owns; iexists _; isplitr
      swap; · iexact HSc
      ipureintro; exact View.read_writes_of_cover _ _ _ _ _ (scoverB3 V c t hod _)
    unfold owns; iexists _; isplitr
    swap; · iexact Hf
    ipureintro; exact View.read_writes_of_cover _ _ _ _ _ (coverB3 V c t hod _)

theorem body_obligation3 : BodyObligation (dat3 (F := F) V c) (defs₀ (F := F)) Variants.none () Set.univ := fun t => by
  rw [bigSep_W3, bigSep_W3]
  exact sound_body3 V c t

theorem hin3 : Pipeline.ΦA spec3 c ⊢ (dat3 V c).Φ 0 := .rfl

theorem hout3 : (dat3 V c).Φ (Fin.last cfg3.N) ⊢ Pipeline.ΦA spec3 c :=
  Phi_weak3 V c (Fin.last cfg3.N).val (Nat.le_of_lt_succ (Fin.last cfg3.N).isLt)

end Region

end Cert.Kernel.Hand

end
-- ==== Proof.K.Launch.lean ====
/- The program as nineteen items run one after another, host stretches and the four layers, and the frame: it terminates and the arguments end as launched. -/
import proofs.«414469_j73718818669208_3_alg».proof.Proof.Gen.Kernel.Launch
import proofs.«414469_j73718818669208_3_alg».proof.Proof.Gen.Kernel.Regions
import proofs.«414469_j73718818669208_3_alg».proof.Proof.K.Reg0
import proofs.«414469_j73718818669208_3_alg».proof.Proof.K.Reg1
import proofs.«414469_j73718818669208_3_alg».proof.Proof.K.Reg2
import proofs.«414469_j73718818669208_3_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents at each boundary between two of the program's 19 items, a fold from the launch memory: a host stretch writes its results, a layer changes only its output array. -/
abbrev W0 : Dev nD → Valuation τ sig (Elt F) := fun c b => (s₀ m ρ).mem ((c : Dev nD), b)

abbrev W1 : Dev nD → Valuation τ sig (Elt F) := fun c => StableHlo.after hostOps0 (W0 m ρ c)

theorem W1_keep (c : Dev nD) (r : Ref sig .tc) (h : r ∉ hostOps0_W) : W1 m ρ c r = W0 m ρ c r :=
  StableHlo.after_of_writes_sub hostOps0 _ hostOps0_writes h

abbrev W2 : Dev nD → Valuation τ sig (Elt F) := fun c => StableHlo.after hostOps0_1 (W1 m ρ c)

theorem W2_keep (c : Dev nD) (r : Ref sig .tc) (h : r ∉ hostOps0_1_W) : W2 m ρ c r = W1 m ρ c r :=
  StableHlo.after_of_writes_sub hostOps0_1 _ hostOps0_1_writes h

abbrev W3 : Dev nD → Valuation τ sig (Elt F) := fun c => StableHlo.after hostOps0_2 (W2 m ρ c)

theorem W3_keep (c : Dev nD) (r : Ref sig .tc) (h : r ∉ hostOps0_2_W) : W3 m ρ c r = W2 m ρ c r :=
  StableHlo.after_of_writes_sub hostOps0_2 _ hostOps0_2_writes h

abbrev W4 : Dev nD → Valuation τ sig (Elt F) := fun c => StableHlo.after hostOps0_3 (W3 m ρ c)

theorem W4_keep (c : Dev nD) (r : Ref sig .tc) (h : r ∉ hostOps0_3_W) : W4 m ρ c r = W3 m ρ c r :=
  StableHlo.after_of_writes_sub hostOps0_3 _ hostOps0_3_writes h

abbrev W5 : Dev nD → Valuation τ sig (Elt F) := fun c => StableHlo.after hostOps0_4 (W4 m ρ c)

theorem W5_keep (c : Dev nD) (r : Ref sig .tc) (h : r ∉ hostOps0_4_W) : W5 m ρ c r = W4 m ρ c r :=
  StableHlo.after_of_writes_sub hostOps0_4 _ hostOps0_4_writes h

abbrev V5 : (c : Dev nD) → (b : Ref sig .tc) → Buf (Elt F) ((c : Thread nD τ).loc b) := fun c b => W5 m ρ c b

def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb

abbrev E6 : (c : Dev nD) → (b : Ref sig .tc) → Buf (Elt F) ((c : Thread nD τ).loc b) := fun c b => W6 m ρ c b

theorem hF0 (c : Dev nD) (w : Fin cfg0.W) : (dat0 (V5 m ρ) c).arrAt w cfg0.N = E6 m ρ c (Pipeline.arrRef spec0 w) :=
  (W6_arr m ρ c w).symm
theorem hrest0 (c : Dev nD) : ∀ b, b ∉ Finset.univ.image (Pipeline.arrRef spec0) → E6 m ρ c b = V5 m ρ c b :=
  fun b hb => W6_of_ne m ρ c b fun w e => hb (Finset.mem_image.mpr ⟨w, Finset.mem_univ _, e⟩)

theorem W6_out (c : Dev nD) : W6 m ρ c main_v27 = (dat0 (V5 m ρ) c).arrAt 5 cfg0.N :=
  W6_arr m ρ c 5

theorem in_of_ne0 : ∀ w : Fin cfg0.W, Pipeline.arrRef spec0 w ≠ main_v27 → (cfg0.win w).isOut = false := by
  decide

theorem W6_keep (c : Dev nD) (b : Ref sig .tc) (hb : b ≠ main_v27) : W6 m ρ c b = W5 m ρ c b := by
  by_cases h : ∃ w, Pipeline.arrRef spec0 w = b
  · obtain ⟨w, rfl⟩ := h
    exact (W6_arr m ρ c w).trans (((dat0 (V5 m ρ) c).arrAt_in w (in_of_ne0 w hb) _).trans (A_eq0 (V5 m ρ) c w))
  · exact W6_of_ne m ρ c b fun w e => h ⟨w, e⟩

abbrev W7 : Dev nD → Valuation τ sig (Elt F) := fun c => StableHlo.after hostOps1 (W6 m ρ c)

theorem W7_keep (c : Dev nD) (r : Ref sig .tc) (h : r ∉ hostOps1_W) : W7 m ρ c r = W6 m ρ c r :=
  StableHlo.after_of_writes_sub hostOps1 _ hostOps1_writes h

abbrev W8 : Dev nD → Valuation τ sig (Elt F) := fun c => StableHlo.after hostOps1_1 (W7 m ρ c)

theorem W8_keep (c : Dev nD) (r : Ref sig .tc) (h : r ∉ hostOps1_1_W) : W8 m ρ c r = W7 m ρ c r :=
  StableHlo.after_of_writes_sub hostOps1_1 _ hostOps1_1_writes h

abbrev W9 : Dev nD → Valuation τ sig (Elt F) := fun c => StableHlo.after hostOps1_2 (W8 m ρ c)

theorem W9_keep (c : Dev nD) (r : Ref sig .tc) (h : r ∉ hostOps1_2_W) : W9 m ρ c r = W8 m ρ c r :=
  StableHlo.after_of_writes_sub hostOps1_2 _ hostOps1_2_writes h

abbrev V9 : (c : Dev nD) → (b : Ref sig .tc) → Buf (Elt F) ((c : Thread nD τ).loc b) := fun c b => W9 m ρ c b

def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb

abbrev E10 : (c : Dev nD) → (b : Ref sig .tc) → Buf (Elt F) ((c : Thread nD τ).loc b) := fun c b => W10 m ρ c b

theorem hF1 (c : Dev nD) (w : Fin cfg1.W) : (dat1 (V9 m ρ) c).arrAt w cfg1.N = E10 m ρ c (Pipeline.arrRef spec1 w) :=
  (W10_arr m ρ c w).symm
theorem hrest1 (c : Dev nD) : ∀ b, b ∉ Finset.univ.image (Pipeline.arrRef spec1) → E10 m ρ c b = V9 m ρ c b :=
  fun b hb => W10_of_ne m ρ c b fun w e => hb (Finset.mem_image.mpr ⟨w, Finset.mem_univ _, e⟩)

theorem W10_out (c : Dev nD) : W10 m ρ c main_v37 = (dat1 (V9 m ρ) c).arrAt 5 cfg1.N :=
  W10_arr m ρ c 5

theorem in_of_ne1 : ∀ w : Fin cfg1.W, Pipeline.arrRef spec1 w ≠ main_v37 → (cfg1.win w).isOut = false := by
  decide

theorem W10_keep (c : Dev nD) (b : Ref sig .tc) (hb : b ≠ main_v37) : W10 m ρ c b = W9 m ρ c b := by
  by_cases h : ∃ w, Pipeline.arrRef spec1 w = b
  · obtain ⟨w, rfl⟩ := h
    exact (W10_arr m ρ c w).trans (((dat1 (V9 m ρ) c).arrAt_in w (in_of_ne1 w hb) _).trans (A_eq1 (V9 m ρ) c w))
  · exact W10_of_ne m ρ c b fun w e => h ⟨w, e⟩

abbrev W11 : Dev nD → Valuation τ sig (Elt F) := fun c => StableHlo.after hostOps2 (W10 m ρ c)

theorem W11_keep (c : Dev nD) (r : Ref sig .tc) (h : r ∉ hostOps2_W) : W11 m ρ c r = W10 m ρ c r :=
  StableHlo.after_of_writes_sub hostOps2 _ hostOps2_writes h

abbrev W12 : Dev nD → Valuation τ sig (Elt F) := fun c => StableHlo.after hostOps2_1 (W11 m ρ c)

theorem W12_keep (c : Dev nD) (r : Ref sig .tc) (h : r ∉ hostOps2_1_W) : W12 m ρ c r = W11 m ρ c r :=
  StableHlo.after_of_writes_sub hostOps2_1 _ hostOps2_1_writes h

abbrev W13 : Dev nD → Valuation τ sig (Elt F) := fun c => StableHlo.after hostOps2_2 (W12 m ρ c)

theorem W13_keep (c : Dev nD) (r : Ref sig .tc) (h : r ∉ hostOps2_2_W) : W13 m ρ c r = W12 m ρ c r :=
  StableHlo.after_of_writes_sub hostOps2_2 _ hostOps2_2_writes h

abbrev V13 : (c : Dev nD) → (b : Ref sig .tc) → Buf (Elt F) ((c : Thread nD τ).loc b) := fun c b => W13 m ρ c b

def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb

abbrev E14 : (c : Dev nD) → (b : Ref sig .tc) → Buf (Elt F) ((c : Thread nD τ).loc b) := fun c b => W14 m ρ c b

theorem hF2 (c : Dev nD) (w : Fin cfg2.W) : (dat2 (V13 m ρ) c).arrAt w cfg2.N = E14 m ρ c (Pipeline.arrRef spec2 w) :=
  (W14_arr m ρ c w).symm
theorem hrest2 (c : Dev nD) : ∀ b, b ∉ Finset.univ.image (Pipeline.arrRef spec2) → E14 m ρ c b = V13 m ρ c b :=
  fun b hb => W14_of_ne m ρ c b fun w e => hb (Finset.mem_image.mpr ⟨w, Finset.mem_univ _, e⟩)

theorem W14_out (c : Dev nD) : W14 m ρ c main_v47 = (dat2 (V13 m ρ) c).arrAt 5 cfg2.N :=
  W14_arr m ρ c 5

theorem in_of_ne2 : ∀ w : Fin cfg2.W, Pipeline.arrRef spec2 w ≠ main_v47 → (cfg2.win w).isOut = false := by
  decide

theorem W14_keep (c : Dev nD) (b : Ref sig .tc) (hb : b ≠ main_v47) : W14 m ρ c b = W13 m ρ c b := by
  by_cases h : ∃ w, Pipeline.arrRef spec2 w = b
  · obtain ⟨w, rfl⟩ := h
    exact (W14_arr m ρ c w).trans (((dat2 (V13 m ρ) c).arrAt_in w (in_of_ne2 w hb) _).trans (A_eq2 (V13 m ρ) c w))
  · exact W14_of_ne m ρ c b fun w e => h ⟨w, e⟩

abbrev W15 : Dev nD → Valuation τ sig (Elt F) := fun c => StableHlo.after hostOps3 (W14 m ρ c)

theorem W15_keep (c : Dev nD) (r : Ref sig .tc) (h : r ∉ hostOps3_W) : W15 m ρ c r = W14 m ρ c r :=
  StableHlo.after_of_writes_sub hostOps3 _ hostOps3_writes h

abbrev W16 : Dev nD → Valuation τ sig (Elt F) := fun c => StableHlo.after hostOps3_1 (W15 m ρ c)

theorem W16_keep (c : Dev nD) (r : Ref sig .tc) (h : r ∉ hostOps3_1_W) : W16 m ρ c r = W15 m ρ c r :=
  StableHlo.after_of_writes_sub hostOps3_1 _ hostOps3_1_writes h

abbrev W17 : Dev nD → Valuation τ sig (Elt F) := fun c => StableHlo.after hostOps3_2 (W16 m ρ c)

theorem W17_keep (c : Dev nD) (r : Ref sig .tc) (h : r ∉ hostOps3_2_W) : W17 m ρ c r = W16 m ρ c r :=
  StableHlo.after_of_writes_sub hostOps3_2 _ hostOps3_2_writes h

abbrev V17 : (c : Dev nD) → (b : Ref sig .tc) → Buf (Elt F) ((c : Thread nD τ).loc b) := fun c b => W17 m ρ c b

def W18 (c : Dev nD) : Valuation τ sig (Elt F) :=
  Pipeline.withArrays spec3 c (W17 m ρ c) fun w => (dat3 (V17 m ρ) c).arrAt w cfg3.N
theorem W18_arr (c : Dev nD) (w : Fin cfg3.W) :
    W18 m ρ c (Proc.devRef .tc (Pipeline.arrRef spec3 w)) = (dat3 (V17 m ρ) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb

abbrev E18 : (c : Dev nD) → (b : Ref sig .tc) → Buf (Elt F) ((c : Thread nD τ).loc b) := fun c b => W18 m ρ c b

theorem hF3 (c : Dev nD) (w : Fin cfg3.W) : (dat3 (V17 m ρ) c).arrAt w cfg3.N = E18 m ρ c (Pipeline.arrRef spec3 w) :=
  (W18_arr m ρ c w).symm
theorem hrest3 (c : Dev nD) : ∀ b, b ∉ Finset.univ.image (Pipeline.arrRef spec3) → E18 m ρ c b = V17 m ρ c b :=
  fun b hb => W18_of_ne m ρ c b fun w e => hb (Finset.mem_image.mpr ⟨w, Finset.mem_univ _, e⟩)

theorem W18_out (c : Dev nD) : W18 m ρ c main_v63 = (dat3 (V17 m ρ) c).arrAt 5 cfg3.N :=
  W18_arr m ρ c 5

theorem in_of_ne3 : ∀ w : Fin cfg3.W, Pipeline.arrRef spec3 w ≠ main_v63 → (cfg3.win w).isOut = false := by
  decide

theorem W18_keep (c : Dev nD) (b : Ref sig .tc) (hb : b ≠ main_v63) : W18 m ρ c b = W17 m ρ c b := by
  by_cases h : ∃ w, Pipeline.arrRef spec3 w = b
  · obtain ⟨w, rfl⟩ := h
    exact (W18_arr m ρ c w).trans (((dat3 (V17 m ρ) c).arrAt_in w (in_of_ne3 w hb) _).trans (A_eq3 (V17 m ρ) c w))
  · exact W18_of_ne m ρ c b fun w e => h ⟨w, e⟩

abbrev W19 : Dev nD → Valuation τ sig (Elt F) := fun c => StableHlo.after hostOps4 (W18 m ρ c)

theorem W19_keep (c : Dev nD) (r : Ref sig .tc) (h : r ∉ hostOps4_W) : W19 m ρ c r = W18 m ρ c r :=
  StableHlo.after_of_writes_sub hostOps4 _ hostOps4_writes h

abbrev mainArgs : List (Ref sig .tc) :=
  [main_arg0, main_arg1, main_arg2, main_arg3, main_arg4, main_arg5, main_arg6, main_arg7, main_arg8, main_arg9, main_arg10]

/-- No host operation writes an argument and no layer's output array is one, so an argument holds at the end what it held at launch. -/
theorem W19_arg (c : Dev nD) (b : Ref sig .tc) (hb : b ∈ mainArgs) : W19 m ρ c b = m ((c : Thread nD τ).loc b) :=
  (W19_keep m ρ c b ((by decide : ∀ b ∈ mainArgs, b ∉ hostOps4_W) b hb)).trans <|
  (W18_keep m ρ c b ((by decide : ∀ b ∈ mainArgs, b ≠ main_v63) b hb)).trans <|
  (W17_keep m ρ c b ((by decide : ∀ b ∈ mainArgs, b ∉ hostOps3_2_W) b hb)).trans <|
  (W16_keep m ρ c b ((by decide : ∀ b ∈ mainArgs, b ∉ hostOps3_1_W) b hb)).trans <|
  (W15_keep m ρ c b ((by decide : ∀ b ∈ mainArgs, b ∉ hostOps3_W) b hb)).trans <|
  (W14_keep m ρ c b ((by decide : ∀ b ∈ mainArgs, b ≠ main_v47) b hb)).trans <|
  (W13_keep m ρ c b ((by decide : ∀ b ∈ mainArgs, b ∉ hostOps2_2_W) b hb)).trans <|
  (W12_keep m ρ c b ((by decide : ∀ b ∈ mainArgs, b ∉ hostOps2_1_W) b hb)).trans <|
  (W11_keep m ρ c b ((by decide : ∀ b ∈ mainArgs, b ∉ hostOps2_W) b hb)).trans <|
  (W10_keep m ρ c b ((by decide : ∀ b ∈ mainArgs, b ≠ main_v37) b hb)).trans <|
  (W9_keep m ρ c b ((by decide : ∀ b ∈ mainArgs, b ∉ hostOps1_2_W) b hb)).trans <|
  (W8_keep m ρ c b ((by decide : ∀ b ∈ mainArgs, b ∉ hostOps1_1_W) b hb)).trans <|
  (W7_keep m ρ c b ((by decide : ∀ b ∈ mainArgs, b ∉ hostOps1_W) b hb)).trans <|
  (W6_keep m ρ c b ((by decide : ∀ b ∈ mainArgs, b ≠ main_v27) b hb)).trans <|
  (W5_keep m ρ c b ((by decide : ∀ b ∈ mainArgs, b ∉ hostOps0_4_W) b hb)).trans <|
  (W4_keep m ρ c b ((by decide : ∀ b ∈ mainArgs, b ∉ hostOps0_3_W) b hb)).trans <|
  (W3_keep m ρ c b ((by decide : ∀ b ∈ mainArgs, b ∉ hostOps0_2_W) b hb)).trans <|
  (W2_keep m ρ c b ((by decide : ∀ b ∈ mainArgs, b ∉ hostOps0_1_W) b hb)).trans <|
  (W1_keep m ρ c b ((by decide : ∀ b ∈ mainArgs, b ∉ hostOps0_W) b hb)).trans rfl

def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V9 m ρ) c
  | ⟨2, _⟩ => fun c => dat2 (V13 m ρ) c
  | ⟨3, _⟩ => fun c => dat3 (V17 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W19 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V5 m ρ) c)
    unfold Pipeline.ΦA
    iintro ⟨Hp, -, Hr⟩
    isplitl [Hr]; · iexact Hr
    iexact Hp
  hout c := by
    rw [Pipeline.ownSems0_none]
    refine BIBase.Entails.trans (hout0 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (E6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V9 m ρ) c)
    unfold Pipeline.ΦA
    iintro ⟨Hp, -, Hr⟩
    isplitl [Hr]; · iexact Hr
    iexact Hp
  hout c := by
    rw [Pipeline.ownSems0_none]
    refine BIBase.Entails.trans (hout1 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (E10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V13 m ρ) c)
    unfold Pipeline.ΦA
    iintro ⟨Hp, -, Hr⟩
    isplitl [Hr]; · iexact Hr
    iexact Hp
  hout c := by
    rw [Pipeline.ownSems0_none]
    refine BIBase.Entails.trans (hout2 (V13 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (E14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V17 m ρ) c).loose
  hwaits := Pipeline.hwaits_of_owed_zero _ _ _ _ L lv 3 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec3 c (V17 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V17 m ρ) c)
    unfold Pipeline.ΦA
    iintro ⟨Hp, -, Hr⟩
    isplitl [Hr]; · iexact Hr
    iexact Hp
  hout c := by
    rw [Pipeline.ownSems0_none]
    refine BIBase.Entails.trans (hout3 (V17 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V17 m ρ c) (E18 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev mainSegs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .region (reg1 m ρ),
    .host (hseg hostOps2 hostOps2_sub hostOps2_fresh (W10 m ρ)),
    .host (hseg hostOps2_1 hostOps2_1_sub hostOps2_1_fresh (W11 m ρ)),
    .host (hseg hostOps2_2 hostOps2_2_sub hostOps2_2_fresh (W12 m ρ)),
    .region (reg2 m ρ),
    .host (hseg hostOps3 hostOps3_sub hostOps3_fresh (W14 m ρ)),
    .host (hseg hostOps3_1 hostOps3_1_sub hostOps3_1_fresh (W15 m ρ)),
    .host (hseg hostOps3_2 hostOps3_2_sub hostOps3_2_fresh (W16 m ρ)),
    .region (reg3 m ρ),
    .host (hseg hostOps4 hostOps4_sub hostOps4_fresh (W18 m ρ)) ]

theorem main_run (c : Dev nD) : main (F := F) c = Pipeline.Seg.run (mainSegs m ρ) := (main_chain c).trans (by chain_rfl)

set_option backward.isDefEq.respectTransparency.types false in

/-- Every weakly fair execution terminates without a fault, with each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W19 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W19 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- A final state with every unscoped buffer at `W19` has the arguments as launched. -/
theorem kept (c : Dev nD) (mem : (ℓ : Loc nD τ sig) → Buf (Elt F) ℓ) (h : ∀ b ∈ Pipeline.ucRefs τ sig, mem ((c : Thread nD τ).1, b) = W19 m ρ c b)
    (b : Ref sig .tc) (hb : b ∈ mainArgs) : mem ((c.tc : Thread nD τ).loc b) = m ((c.tc : Thread nD τ).loc b) :=
  (h _ (mem_uc b ((by decide : ∀ b ∈ mainArgs, ¬(Proc.devRef .tc b : DevRef τ sig).isScoped) b hb))).trans (W19_arg m ρ c b hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs (onTc (τ := τ) (main (F := F))) ⟨m, fun _ => 0, ρ⟩).mono (fun r h c =>
    have k := kept m ρ c r.2.mem (h c)
    ⟨k _ (by decide), k _ (by decide), k _ (by decide), k _ (by decide), k _ (by decide), k _ (by decide), k _ (by decide), k _ (by decide), k _ (by decide), k _ (by decide), k _ (by decide)⟩) (run_all m ρ)

end Cert.Kernel.Hand

end
-- ==== Proof.KI.Runs0.lean ====
/- A layer's grid has 16 points, t = 2 i + k for row tile i and reduction half k: the blocks met at a point, and which parity zeroes the accumulator or yields a tile. -/
import proofs.«414469_j73718818669208_3_alg».proof.Proof.Gen.KernelIdeal.Launch
import proofs.«414469_j73718818669208_3_alg».proof.Proof.Gen.KernelIdeal.Skeleton
import proofs.«414469_j73718818669208_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t` of the array `V` gives it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 5120 feature rows the body reads at point `t`. -/
abbrev hrect0 (t : Fin cfg0.N) : Rect S10240x128 := Rect.unit (s := S10240x128) (k0_off1 (grid0.coords t)) S5120x128.size (k0_off1_inb (grid0.coords t))

abbrev ablk0 (c : Dev nD) (t : Fin cfg0.N) : Vec F S1280x5120 .bf16 := iblk0 V c 0 t
abbrev hblk0 (c : Dev nD) (t : Fin cfg0.N) : Vec F S10240x128 .bf16 := iblk0 V c 1 t
abbrev xblk0 (c : Dev nD) (t : Fin cfg0.N) : Vec F S1280x128 .f32 := iblk0 V c 2 t
abbrev wblk0 (c : Dev nD) (t : Fin cfg0.N) : Vec F S128x128 .bf16 := iblk0 V c 3 t
abbrev bblk0 (c : Dev nD) (t : Fin cfg0.N) : Vec F S1x128 .f32 := iblk0 V c 4 t

/-- At every point the body meets each operand's block. -/
theorem before0_of {c : Dev nD} (dat : Dat τ (Elt F) Unit ℕ (UR sig nD τ) ℕ cfg0 c) (hA : ∀ w, dat.A w = V c (Pipeline.arrRef spec0 w)) :
    (∀ (_ : ∀ t, dat.after 0 t = iblk0 V c 0 t) t d, dat.before 0 t d = iblk0 V c 0 t)
    ∧ (∀ (_ : ∀ t, dat.after 1 t = iblk0 V c 1 t) t d, dat.before 1 t d = iblk0 V c 1 t)
    ∧ (∀ (_ : ∀ t, dat.after 2 t = iblk0 V c 2 t) t d, dat.before 2 t d = iblk0 V c 2 t)
    ∧ (∀ (_ : ∀ t, dat.after 3 t = iblk0 V c 3 t) t d, dat.before 3 t d = iblk0 V c 3 t)
    ∧ (∀ (_ : ∀ t, dat.after 4 t = iblk0 V c 4 t) t d, dat.before 4 t d = iblk0 V c 4 t) := by
  refine ⟨?_, ?_, ?_, ?_, ?_⟩ <;> exact fun hafter t d =>
    (dat.before_in_eq_fetched _ rfl (fun _ => rfl) (fun _ _ _ => rfl) (fun t => by rw [hafter]; unfold Dat.blockOf iblk0; rw [hA]; try rfl) t d).trans
      (by unfold Dat.fetched Dat.blockOf iblk0; rw [hA]; try rfl)

end Region

abbrev condInit0 (i : grid0.Coords) : Prop := (Scalar.cmpi .ne (Scalar.extui (Scalar.cmpi .eq (BitVec.ofNat 32 (i 1).val) 0#32)) 0#32) = 1#1
/-- The accumulator is zeroed exactly at the even points (reduction half 0), -/
theorem hcondInit0 : ∀ t : Fin cfg0.N, condInit0 (grid0.coords t) ↔ t.val % 2 = 0 :=
  (by decide +kernel : ∀ t : Fin grid0.N, condInit0 (grid0.coords t) ↔ t.val % 2 = 0)

abbrev condFin0 (i : grid0.Coords) : Prop := k0_cond2 i = 1#1
/-- and the output tile is computed exactly at the odd points (reduction half 1). -/
theorem hcondFin0 : ∀ t : Fin cfg0.N, condFin0 (grid0.coords t) ↔ t.val % 2 = 1 :=
  (by decide +kernel : ∀ t : Fin grid0.N, condFin0 (grid0.coords t) ↔ t.val % 2 = 1)

/-- Only odd points produce an output tile. -/
theorem liveAt0 : ∀ (w : Fin cfg0.W) (t : Fin cfg0.N), w ≠ 5 → cfg0.idle w (grid0.coords t) = false := by decide +kernel
theorem idleAtA0 : ∀ t : Fin cfg0.N, t.val % 2 = 0 → cfg0.idle 5 (grid0.coords t) = true ∧ (cfg0.win 5).flush t = false := by decide +kernel
theorem liveAtB0 : ∀ t : Fin cfg0.N, t.val % 2 = 1 → cfg0.idle 5 (grid0.coords t) = false := by decide +kernel

abbrev VO0 : View sig .tc .vmem S1280x128 .f32 := (Memref.whole cc0_stg5_0 : Memref sig .tc .vmem S1280x128 .f32).view
abbrev msa0 (t : Fin cfg0.N) : Memref sig .tc .vmem S1280x5120 .bf16 := win0_0.stage (cfg0.slots t 0)
abbrev hsa0 (t : Fin cfg0.N) : (msa0 t).IsWhole := hstage0_0 ((cfg0.slots t 0).cast nbuf0_0)
abbrev msb0 (t : Fin cfg0.N) : Memref sig .tc .vmem S10240x128 .bf16 := win0_1.stage (cfg0.slots t 1)
abbrev hsb0 (t : Fin cfg0.N) : (msb0 t).IsWhole := hstage0_1 ((cfg0.slots t 1).cast nbuf0_1)
abbrev msc0 (t : Fin cfg0.N) : Memref sig .tc .vmem S1280x128 .f32 := win0_2.stage (cfg0.slots t 2)
abbrev hsc0 (t : Fin cfg0.N) : (msc0 t).IsWhole := hstage0_2 ((cfg0.slots t 2).cast nbuf0_2)
abbrev msd0 (t : Fin cfg0.N) : Memref sig .tc .vmem S128x128 .bf16 := win0_3.stage (cfg0.slots t 3)
abbrev hsd0 (t : Fin cfg0.N) : (msd0 t).IsWhole := hstage0_3 ((cfg0.slots t 3).cast nbuf0_3)
abbrev mse0 (t : Fin cfg0.N) : Memref sig .tc .vmem S1x128 .f32 := win0_4.stage (cfg0.slots t 4)
abbrev hse0 (t : Fin cfg0.N) : (mse0 t).IsWhole := hstage0_4 ((cfg0.slots t 4).cast nbuf0_4)
abbrev msf0 (t : Fin cfg0.N) : Memref sig .tc .vmem S1280x128 .f32 := win0_5.stage (cfg0.slots t 5)
abbrev hsf0 (t : Fin cfg0.N) : (msf0 t).IsWhole := hstage0_5 ((cfg0.slots t 5).cast nbuf0_5)
abbrev scM0 : Memref sig .tc .vmem S1280x128 .f32 := Memref.whole cc0_scratch0
abbrev VS0 : View sig .tc .vmem S1280x128 .f32 := scM0.view

theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.KernelIdeal.Hand

end
-- ==== Proof.KI.RunA0.lean ====
/- The body at a point of reduction half 0: the accumulator is reset to zero and the first half-product added. -/
import proofs.«414469_j73718818669208_3_alg».proof.Proof.KI.Runs0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunA0 (c : Dev nD) (i : grid0.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : condInit0 i) (hcF : ¬condFin0 i)
    (xa : Vec F S1280x5120 .bf16) (xb : Vec F S10240x128 .bf16) (xc : Vec F S1280x128 .f32) (xd : Vec F S128x128 .bf16) (xe : Vec F S1x128 .f32) :
    Σ' (Lf : List (View.Piece (Elt F) S1280x128 .f32)), { LS : List (View.Piece (Elt F) S1280x128 .f32) //
      ∀ (xif : Vec F S1280x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ f, arg8.view.loc (c : Thread nD τ) ↦[arg8.view.set]{fullShare} arg8.view.writes (Elt F) f LS)) -∗ K ⟨⟩))
          ⊢ wp frame (wpE (defs₀ (F := F)) Variants.none c none) E (cc0__gin_layer_kernel i arg2 harg2 arg3 harg3 arg4 harg4 arg5 harg5 arg6 harg6 arg7 harg7 arg8 harg8) K } := by
  refine ⟨[], ?_, fun xif E K => ?run⟩
  case run =>
    simp only [cc0__gin_layer_kernel_eq_skeleton]; unfold cc0__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dsc, %fsc, -, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hff
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]
    · iexists _; isplitr; · ipureintro; exact harg7.read_unread _
      iexact Hf
    iexists _; iexact HSc

end Cert.KernelIdeal.Hand

end
-- ==== Proof.KI.RunB0.lean ====
/- The body at a point of reduction half 1: the second half-product is added and the output tile computed from the sum. -/
import proofs.«414469_j73718818669208_3_alg».proof.Proof.KI.RunA0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunB0 (c : Dev nD) (i : grid0.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : ¬condInit0 i) (hcF : condFin0 i)
    (xa : Vec F S1280x5120 .bf16) (xb : Vec F S10240x128 .bf16) (xc : Vec F S1280x128 .f32) (xd : Vec F S128x128 .bf16) (xe : Vec F S1x128 .f32) (xs : Vec F S1280x128 .f32) :
    Σ' (Lf : List (View.Piece (Elt F) S1280x128 .f32)), { LS : List (View.Piece (Elt F) S1280x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f Lf) ∗ (∃ f, arg8.view.loc (c : Thread nD τ) ↦[arg8.view.set]{fullShare} arg8.view.writes (Elt F) f LS)) -∗ K ⟨⟩))
          ⊢ wp frame (wpE (defs₀ (F := F)) Variants.none c none) E (cc0__gin_layer_kernel i arg2 harg2 arg3 harg3 arg4 harg4 arg5 harg5 arg6 harg6 arg7 harg7 arg8 harg8) K } := by
  refine ⟨?_, ?_, fun E K => ?run⟩
  case run =>
    simp only [cc0__gin_layer_kernel_eq_skeleton]; unfold cc0__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fsc, %hfsc, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfsc
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]; · iexists _; iexact Hf
    iexists _; iexact HSc

end Cert.KernelIdeal.Hand

end
-- ==== Proof.KI.Reg0.lean ====
/- Point by point through a layer: what a point leaves in the accumulator and the tile, the invariant carried from one point to the next, and the body's obligation. -/
import proofs.«414469_j73718818669208_3_alg».proof.Proof.KI.RunB0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b)) (c : Dev nD)

/-- The body's run at an even point, -/
abbrev runA0 (t : Fin cfg0.N) (hev : t.val % 2 = 0) :=
  kernelRunA0 c (grid0.coords t) (msa0 t) (hsa0 t) (msb0 t) (hsb0 t) (msc0 t) (hsc0 t) (msd0 t) (hsd0 t) (mse0 t) (hse0 t) (msf0 t) (hsf0 t) scM0 (Memref.isWhole_whole _)
    ((hcondInit0 t).mpr hev) (fun h => absurd ((hcondFin0 t).mp h) (by omega)) (ablk0 V c t) (hblk0 V c t) (xblk0 V c t) (wblk0 V c t) (bblk0 V c t)
/-- and at an odd point, over the accumulator's contents `xs`. -/
abbrev runB0 (t : Fin cfg0.N) (hod : t.val % 2 = 1) (xs : Vec F S1280x128 .f32) :=
  kernelRunB0 c (grid0.coords t) (msa0 t) (hsa0 t) (msb0 t) (hsb0 t) (msc0 t) (hsc0 t) (msd0 t) (hsd0 t) (mse0 t) (hse0 t) (msf0 t) (hsf0 t) scM0 (Memref.isWhole_whole _)
    (fun h => absurd ((hcondInit0 t).mp h) (by omega)) ((hcondFin0 t).mpr hod) (ablk0 V c t) (hblk0 V c t) (xblk0 V c t) (wblk0 V c t) (bblk0 V c t) xs

theorem scoverA0 (t : Fin cfg0.N) (hev : t.val % 2 = 0) (y : S1280x128.Idx) : ∃ pc ∈ (runA0 V c t hev).2.1, y ∈ pc.1.set :=
  View.cover_of_tiledL _ S1280x128.size (by sl_kernel_rfl) y
theorem coverB0 (t : Fin cfg0.N) (hod : t.val % 2 = 1) (xs : Vec F S1280x128 .f32) (y : S1280x128.Idx) : ∃ pc ∈ (runB0 V c t hod xs).1, y ∈ pc.1.set :=
  View.cover_of_tiledL _ S1280x128.size (by sl_kernel_rfl) y
theorem scoverB0 (t : Fin cfg0.N) (hod : t.val % 2 = 1) (xs : Vec F S1280x128 .f32) (y : S1280x128.Idx) : ∃ pc ∈ (runB0 V c t hod xs).2.1, y ∈ pc.1.set :=
  View.cover_of_tiledL _ S1280x128.size (by sl_kernel_rfl) y

/-- The output tile (.1) and the accumulator (.2) after a run. -/
def outA0 (t : Fin cfg0.N) (hev : t.val % 2 = 0) : Vec F S1280x128 .f32 × Vec F S1280x128 .f32 :=
  (VO0.read (Elt F) (VO0.writes (Elt F) VO0.junk (runA0 V c t hev).1), VS0.read (Elt F) (VS0.writes (Elt F) VS0.junk (runA0 V c t hev).2.1))
def outB0 (t : Fin cfg0.N) (hod : t.val % 2 = 1) (xs : Vec F S1280x128 .f32) : Vec F S1280x128 .f32 × Vec F S1280x128 .f32 :=
  (VO0.read (Elt F) (VO0.writes (Elt F) VO0.junk (runB0 V c t hod xs).1), VS0.read (Elt F) (VS0.writes (Elt F) VS0.junk (runB0 V c t hod xs).2.1))

/-- The same after point `n`, by recursion: an odd point accumulates onto what the even point before it left. -/
def outsAt0 : (n : ℕ) → n < cfg0.N → Vec F S1280x128 .f32 × Vec F S1280x128 .f32
  | 0, hn => outA0 V c ⟨0, hn⟩ (Nat.zero_mod _)
  | n + 1, hn =>
    if hev : (n + 1) % 2 = 0 then outA0 V c ⟨n + 1, hn⟩ hev
    else outB0 V c ⟨n + 1, hn⟩ (Nat.mod_two_ne_zero.mp hev) (outsAt0 n (Nat.lt_of_succ_lt hn)).2

theorem outsAt0_even (t : Fin cfg0.N) (hev : t.val % 2 = 0) : outsAt0 V c t.val t.isLt = outA0 V c t hev := by
  obtain ⟨n, hn⟩ := t
  cases n with
  | zero => rfl
  | succ n => exact dif_pos hev

theorem outsAt0_odd (t : Fin cfg0.N) (hod : t.val % 2 = 1) :
    outsAt0 V c t.val t.isLt = outB0 V c t hod (outsAt0 V c (t.val - 1) (Nat.lt_of_le_of_lt (Nat.sub_le _ _) t.isLt)).2 := by
  obtain ⟨n, hn⟩ := t
  cases n with
  | zero => exact absurd hod (by simp)
  | succ n => exact dif_neg (Nat.mod_two_ne_zero.mpr hod)

/-- The invariant before point `n`: the accumulator holds what point `n - 1` left. -/
def PhiS0 : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_succ (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- Forgetting the accumulator's contents, the invariant at any point is the one the layer starts from. -/
theorem Phi_weak0 (n : ℕ) (h : n ≤ cfg0.N) : PhiS0 V c n h ⊢ Pipeline.ΦA spec0 c := by
  cases n with
  | zero => exact .rfl
  | succ n =>
    rw [PhiS0_succ, PhiA0_eq]
    iintro ⟨⟨HSc, Hr⟩, Hg⟩
    isplitl [HSc Hr]
    · isplitl [HSc]
      · iexists _; iexact HSc
      iexact Hr
    iexact Hg

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (w : Fin cfg0.W) : (dat0 V c).A w = V c (Pipeline.arrRef spec0 w) := rfl

theorem after0_a (t : Fin cfg0.N) : (dat0 V c).after 0 t = iblk0 V c 0 t := by dsimp only [dat0]
theorem after0_b (t : Fin cfg0.N) : (dat0 V c).after 1 t = iblk0 V c 1 t := by dsimp only [dat0]
theorem after0_c (t : Fin cfg0.N) : (dat0 V c).after 2 t = iblk0 V c 2 t := by dsimp only [dat0]
theorem after0_d (t : Fin cfg0.N) : (dat0 V c).after 3 t = iblk0 V c 3 t := by dsimp only [dat0]
theorem after0_e (t : Fin cfg0.N) : (dat0 V c).after 4 t = iblk0 V c 4 t := by dsimp only [dat0]

theorem before0_a (t : Fin cfg0.N) (d) : (dat0 V c).before 0 t d = iblk0 V c 0 t :=
  (before0_of V (dat0 V c) (A_eq0 V c)).1 (after0_a V c) t d
theorem before0_b (t : Fin cfg0.N) (d) : (dat0 V c).before 1 t d = iblk0 V c 1 t :=
  (before0_of V (dat0 V c) (A_eq0 V c)).2.1 (after0_b V c) t d
theorem before0_c (t : Fin cfg0.N) (d) : (dat0 V c).before 2 t d = iblk0 V c 2 t :=
  (before0_of V (dat0 V c) (A_eq0 V c)).2.2.1 (after0_c V c) t d
theorem before0_d (t : Fin cfg0.N) (d) : (dat0 V c).before 3 t d = iblk0 V c 3 t :=
  (before0_of V (dat0 V c) (A_eq0 V c)).2.2.2.1 (after0_d V c) t d
theorem before0_e (t : Fin cfg0.N) (d) : (dat0 V c).before 4 t d = iblk0 V c 4 t :=
  (before0_of V (dat0 V c) (A_eq0 V c)).2.2.2.2 (after0_e V c) t d

theorem leaves0 (w : Fin cfg0.W) (t : Fin cfg0.N) (hl : cfg0.idle w (grid0.coords t) = false) :
    (dat0 V c).leavesExact w t = owns (c : Thread nD τ) ((cfg0.win w).stage (cfg0.slots t w)) fullShare ((dat0 V c).after w t) := by
  unfold Dat.leavesExact; rw [hl]

def bodyPre0 (t : Fin cfg0.N) : sProp 𝕄 :=
  iprop((dat0 V c).Φ t.castSucc ∗ (dat0 V c).owesAt () t.castSucc
    ∗ (∃ d, owns (c : Thread nD τ) (msa0 t) fullShare ((dat0 V c).before 0 t d))
    ∗ (∃ d, owns (c : Thread nD τ) (msb0 t) fullShare ((dat0 V c).before 1 t d))
    ∗ (∃ d, owns (c : Thread nD τ) (msc0 t) fullShare ((dat0 V c).before 2 t d))
    ∗ (∃ d, owns (c : Thread nD τ) (msd0 t) fullShare ((dat0 V c).before 3 t d))
    ∗ (∃ d, owns (c : Thread nD τ) (mse0 t) fullShare ((dat0 V c).before 4 t d))
    ∗ (∃ d, owns (c : Thread nD τ) (msf0 t) fullShare ((dat0 V c).before 5 t d)))

def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point meets its obligation: the parity of the point selects the run. -/
theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_a, before0_b, before0_c, before0_d, before0_e]
  rw [show (dat0 V c).owesAt () t.succ = (dat0 V c).owesAt () t.castSucc from rfl]
  rw [show (dat0 V c).Φ t.succ = PhiS0 V c (t.val + 1) t.isLt from rfl, PhiS0_succ]
  rw [show (dat0 V c).Φ t.castSucc = PhiS0 V c t.val (Nat.le_of_lt t.isLt) from rfl]
  rw [leaves0 V c 0 t (liveAt0 0 t (by decide)), leaves0 V c 1 t (liveAt0 1 t (by decide)), leaves0 V c 2 t (liveAt0 2 t (by decide)),
    leaves0 V c 3 t (liveAt0 3 t (by decide)), leaves0 V c 4 t (liveAt0 4 t (by decide)),
    after0_a, after0_b, after0_c, after0_d, after0_e]
  by_cases hev : t.val % 2 = 0
  · rw [Dat.leavesExact_idle (dat0 V c) 5 t (idleAtA0 t hev).1 (idleAtA0 t hev).2, outsAt0_even V c t hev]
    unfold outA0; dsimp only
    have hw := Phi_weak0 V c t.val (Nat.le_of_lt t.isLt)
    rw [PhiA0_eq] at hw
    iintro ⟨HP, Ho, ⟨%da, Ha⟩, ⟨%db, Hb⟩, ⟨%dc, Hc⟩, ⟨%dd, Hd⟩, ⟨%de, He⟩, ⟨%df, Hf⟩⟩
    ihave HP2 := hw $$ HP
    icases HP2 with ⟨⟨HSc, Hr⟩, Hg⟩
    iapply ((runA0 V c t hev).2.2 _ Set.univ _)
    iframe Ha Hb Hc Hd He Hf HSc
    iintro ⟨Ha, Hb, Hc, Hd, He, Hf, ⟨%esc, HSc⟩⟩
    iframe Hr Hg Ho Ha Hb Hc Hd He
    isplitl [HSc]
    · unfold owns; iexists _; isplitr
      swap; · iexact HSc
      ipureintro; exact View.read_writes_of_cover _ _ _ _ _ (scoverA0 V c t hev)
    iexists _; iexact Hf
  · have hod : t.val % 2 = 1 := Nat.mod_two_ne_zero.mp hev
    rw [leaves0 V c 5 t (liveAtB0 t hod), show (dat0 V c).after 5 t = (outsAt0 V c t.val t.isLt).1 from rfl, outsAt0_odd V c t hod, PhiS0_pos V c _ _ (by omega)]
    unfold outB0; dsimp only
    iintro ⟨⟨⟨HSc, Hr⟩, Hg⟩, Ho, ⟨%da, Ha⟩, ⟨%db, Hb⟩, ⟨%dc, Hc⟩, ⟨%dd, Hd⟩, ⟨%de, He⟩, ⟨%df, Hf⟩⟩
    iapply ((runB0 V c t hod _).2.2 Set.univ _)
    iframe Ha Hb Hc Hd He HSc
    isplitl [Hf]; · iexists _; iexact Hf
    iintro ⟨Ha, Hb, Hc, Hd, He, ⟨%ef, Hf⟩, ⟨%esc, HSc⟩⟩
    iframe Hr Hg Ho Ha Hb Hc Hd He
    isplitl [HSc]
    · unfold owns; iexists _; isplitr
      swap; · iexact HSc
      ipureintro; exact View.read_writes_of_cover _ _ _ _ _ (scoverB0 V c t hod _)
    unfold owns; iexists _; isplitr
    swap; · iexact Hf
    ipureintro; exact View.read_writes_of_cover _ _ _ _ _ (coverB0 V c t hod _)

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

theorem hout0 : (dat0 V c).Φ (Fin.last cfg0.N) ⊢ Pipeline.ΦA spec0 c :=
  Phi_weak0 V c (Fin.last cfg0.N).val (Nat.le_of_lt_succ (Fin.last cfg0.N).isLt)

end Region

end Cert.KernelIdeal.Hand

end
-- ==== Proof.KI.Runs1.lean ====
/- A layer's grid has 16 points, t = 2 i + k for row tile i and reduction half k: the blocks met at a point, and which parity zeroes the accumulator or yields a tile. -/
import proofs.«414469_j73718818669208_3_alg».proof.Proof.Gen.KernelIdeal.Launch
import proofs.«414469_j73718818669208_3_alg».proof.Proof.Gen.KernelIdeal.Skeleton
import proofs.«414469_j73718818669208_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t` of the array `V` gives it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 5120 feature rows the body reads at point `t`. -/
abbrev hrect1 (t : Fin cfg1.N) : Rect S10240x128 := Rect.unit (s := S10240x128) (k1_off1 (grid1.coords t)) S5120x128.size (k1_off1_inb (grid1.coords t))

abbrev ablk1 (c : Dev nD) (t : Fin cfg1.N) : Vec F S1280x5120 .bf16 := iblk1 V c 0 t
abbrev hblk1 (c : Dev nD) (t : Fin cfg1.N) : Vec F S10240x128 .bf16 := iblk1 V c 1 t
abbrev xblk1 (c : Dev nD) (t : Fin cfg1.N) : Vec F S1280x128 .f32 := iblk1 V c 2 t
abbrev wblk1 (c : Dev nD) (t : Fin cfg1.N) : Vec F S128x128 .bf16 := iblk1 V c 3 t
abbrev bblk1 (c : Dev nD) (t : Fin cfg1.N) : Vec F S1x128 .f32 := iblk1 V c 4 t

/-- At every point the body meets each operand's block. -/
theorem before1_of {c : Dev nD} (dat : Dat τ (Elt F) Unit ℕ (UR sig nD τ) ℕ cfg1 c) (hA : ∀ w, dat.A w = V c (Pipeline.arrRef spec1 w)) :
    (∀ (_ : ∀ t, dat.after 0 t = iblk1 V c 0 t) t d, dat.before 0 t d = iblk1 V c 0 t)
    ∧ (∀ (_ : ∀ t, dat.after 1 t = iblk1 V c 1 t) t d, dat.before 1 t d = iblk1 V c 1 t)
    ∧ (∀ (_ : ∀ t, dat.after 2 t = iblk1 V c 2 t) t d, dat.before 2 t d = iblk1 V c 2 t)
    ∧ (∀ (_ : ∀ t, dat.after 3 t = iblk1 V c 3 t) t d, dat.before 3 t d = iblk1 V c 3 t)
    ∧ (∀ (_ : ∀ t, dat.after 4 t = iblk1 V c 4 t) t d, dat.before 4 t d = iblk1 V c 4 t) := by
  refine ⟨?_, ?_, ?_, ?_, ?_⟩ <;> exact fun hafter t d =>
    (dat.before_in_eq_fetched _ rfl (fun _ => rfl) (fun _ _ _ => rfl) (fun t => by rw [hafter]; unfold Dat.blockOf iblk1; rw [hA]; try rfl) t d).trans
      (by unfold Dat.fetched Dat.blockOf iblk1; rw [hA]; try rfl)

end Region

abbrev condInit1 (i : grid1.Coords) : Prop := (Scalar.cmpi .ne (Scalar.extui (Scalar.cmpi .eq (BitVec.ofNat 32 (i 1).val) 0#32)) 0#32) = 1#1
/-- The accumulator is zeroed exactly at the even points (reduction half 0), -/
theorem hcondInit1 : ∀ t : Fin cfg1.N, condInit1 (grid1.coords t) ↔ t.val % 2 = 0 :=
  (by decide +kernel : ∀ t : Fin grid1.N, condInit1 (grid1.coords t) ↔ t.val % 2 = 0)

abbrev condFin1 (i : grid1.Coords) : Prop := k1_cond2 i = 1#1
/-- and the output tile is computed exactly at the odd points (reduction half 1). -/
theorem hcondFin1 : ∀ t : Fin cfg1.N, condFin1 (grid1.coords t) ↔ t.val % 2 = 1 :=
  (by decide +kernel : ∀ t : Fin grid1.N, condFin1 (grid1.coords t) ↔ t.val % 2 = 1)

/-- Only odd points produce an output tile. -/
theorem liveAt1 : ∀ (w : Fin cfg1.W) (t : Fin cfg1.N), w ≠ 5 → cfg1.idle w (grid1.coords t) = false := by decide +kernel
theorem idleAtA1 : ∀ t : Fin cfg1.N, t.val % 2 = 0 → cfg1.idle 5 (grid1.coords t) = true ∧ (cfg1.win 5).flush t = false := by decide +kernel
theorem liveAtB1 : ∀ t : Fin cfg1.N, t.val % 2 = 1 → cfg1.idle 5 (grid1.coords t) = false := by decide +kernel

abbrev VO1 : View sig .tc .vmem S1280x128 .f32 := (Memref.whole cc1_stg5_0 : Memref sig .tc .vmem S1280x128 .f32).view
abbrev msa1 (t : Fin cfg1.N) : Memref sig .tc .vmem S1280x5120 .bf16 := win1_0.stage (cfg1.slots t 0)
abbrev hsa1 (t : Fin cfg1.N) : (msa1 t).IsWhole := hstage1_0 ((cfg1.slots t 0).cast nbuf1_0)
abbrev msb1 (t : Fin cfg1.N) : Memref sig .tc .vmem S10240x128 .bf16 := win1_1.stage (cfg1.slots t 1)
abbrev hsb1 (t : Fin cfg1.N) : (msb1 t).IsWhole := hstage1_1 ((cfg1.slots t 1).cast nbuf1_1)
abbrev msc1 (t : Fin cfg1.N) : Memref sig .tc .vmem S1280x128 .f32 := win1_2.stage (cfg1.slots t 2)
abbrev hsc1 (t : Fin cfg1.N) : (msc1 t).IsWhole := hstage1_2 ((cfg1.slots t 2).cast nbuf1_2)
abbrev msd1 (t : Fin cfg1.N) : Memref sig .tc .vmem S128x128 .bf16 := win1_3.stage (cfg1.slots t 3)
abbrev hsd1 (t : Fin cfg1.N) : (msd1 t).IsWhole := hstage1_3 ((cfg1.slots t 3).cast nbuf1_3)
abbrev mse1 (t : Fin cfg1.N) : Memref sig .tc .vmem S1x128 .f32 := win1_4.stage (cfg1.slots t 4)
abbrev hse1 (t : Fin cfg1.N) : (mse1 t).IsWhole := hstage1_4 ((cfg1.slots t 4).cast nbuf1_4)
abbrev msf1 (t : Fin cfg1.N) : Memref sig .tc .vmem S1280x128 .f32 := win1_5.stage (cfg1.slots t 5)
abbrev hsf1 (t : Fin cfg1.N) : (msf1 t).IsWhole := hstage1_5 ((cfg1.slots t 5).cast nbuf1_5)
abbrev scM1 : Memref sig .tc .vmem S1280x128 .f32 := Memref.whole cc1_scratch0
abbrev VS1 : View sig .tc .vmem S1280x128 .f32 := scM1.view

theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.KernelIdeal.Hand

end
-- ==== Proof.KI.RunA1.lean ====
/- The body at a point of reduction half 0: the accumulator is reset to zero and the first half-product added. -/
import proofs.«414469_j73718818669208_3_alg».proof.Proof.KI.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunA1 (c : Dev nD) (i : grid1.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : condInit1 i) (hcF : ¬condFin1 i)
    (xa : Vec F S1280x5120 .bf16) (xb : Vec F S10240x128 .bf16) (xc : Vec F S1280x128 .f32) (xd : Vec F S128x128 .bf16) (xe : Vec F S1x128 .f32) :
    Σ' (Lf : List (View.Piece (Elt F) S1280x128 .f32)), { LS : List (View.Piece (Elt F) S1280x128 .f32) //
      ∀ (xif : Vec F S1280x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ f, arg8.view.loc (c : Thread nD τ) ↦[arg8.view.set]{fullShare} arg8.view.writes (Elt F) f LS)) -∗ K ⟨⟩))
          ⊢ wp frame (wpE (defs₀ (F := F)) Variants.none c none) E (cc1__gin_layer_kernel i arg2 harg2 arg3 harg3 arg4 harg4 arg5 harg5 arg6 harg6 arg7 harg7 arg8 harg8) K } := by
  refine ⟨[], ?_, fun xif E K => ?run⟩
  case run =>
    simp only [cc1__gin_layer_kernel_eq_skeleton]; unfold cc1__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dsc, %fsc, -, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hff
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]
    · iexists _; isplitr; · ipureintro; exact harg7.read_unread _
      iexact Hf
    iexists _; iexact HSc

end Cert.KernelIdeal.Hand

end
-- ==== Proof.KI.RunB1.lean ====
/- The body at a point of reduction half 1: the second half-product is added and the output tile computed from the sum. -/
import proofs.«414469_j73718818669208_3_alg».proof.Proof.KI.RunA1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunB1 (c : Dev nD) (i : grid1.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : ¬condInit1 i) (hcF : condFin1 i)
    (xa : Vec F S1280x5120 .bf16) (xb : Vec F S10240x128 .bf16) (xc : Vec F S1280x128 .f32) (xd : Vec F S128x128 .bf16) (xe : Vec F S1x128 .f32) (xs : Vec F S1280x128 .f32) :
    Σ' (Lf : List (View.Piece (Elt F) S1280x128 .f32)), { LS : List (View.Piece (Elt F) S1280x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f Lf) ∗ (∃ f, arg8.view.loc (c : Thread nD τ) ↦[arg8.view.set]{fullShare} arg8.view.writes (Elt F) f LS)) -∗ K ⟨⟩))
          ⊢ wp frame (wpE (defs₀ (F := F)) Variants.none c none) E (cc1__gin_layer_kernel i arg2 harg2 arg3 harg3 arg4 harg4 arg5 harg5 arg6 harg6 arg7 harg7 arg8 harg8) K } := by
  refine ⟨?_, ?_, fun E K => ?run⟩
  case run =>
    simp only [cc1__gin_layer_kernel_eq_skeleton]; unfold cc1__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fsc, %hfsc, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfsc
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]; · iexists _; iexact Hf
    iexists _; iexact HSc

end Cert.KernelIdeal.Hand

end
-- ==== Proof.KI.Reg1.lean ====
/- Point by point through a layer: what a point leaves in the accumulator and the tile, the invariant carried from one point to the next, and the body's obligation. -/
import proofs.«414469_j73718818669208_3_alg».proof.Proof.KI.RunB1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b)) (c : Dev nD)

/-- The body's run at an even point, -/
abbrev runA1 (t : Fin cfg1.N) (hev : t.val % 2 = 0) :=
  kernelRunA1 c (grid1.coords t) (msa1 t) (hsa1 t) (msb1 t) (hsb1 t) (msc1 t) (hsc1 t) (msd1 t) (hsd1 t) (mse1 t) (hse1 t) (msf1 t) (hsf1 t) scM1 (Memref.isWhole_whole _)
    ((hcondInit1 t).mpr hev) (fun h => absurd ((hcondFin1 t).mp h) (by omega)) (ablk1 V c t) (hblk1 V c t) (xblk1 V c t) (wblk1 V c t) (bblk1 V c t)
/-- and at an odd point, over the accumulator's contents `xs`. -/
abbrev runB1 (t : Fin cfg1.N) (hod : t.val % 2 = 1) (xs : Vec F S1280x128 .f32) :=
  kernelRunB1 c (grid1.coords t) (msa1 t) (hsa1 t) (msb1 t) (hsb1 t) (msc1 t) (hsc1 t) (msd1 t) (hsd1 t) (mse1 t) (hse1 t) (msf1 t) (hsf1 t) scM1 (Memref.isWhole_whole _)
    (fun h => absurd ((hcondInit1 t).mp h) (by omega)) ((hcondFin1 t).mpr hod) (ablk1 V c t) (hblk1 V c t) (xblk1 V c t) (wblk1 V c t) (bblk1 V c t) xs

theorem scoverA1 (t : Fin cfg1.N) (hev : t.val % 2 = 0) (y : S1280x128.Idx) : ∃ pc ∈ (runA1 V c t hev).2.1, y ∈ pc.1.set :=
  View.cover_of_tiledL _ S1280x128.size (by sl_kernel_rfl) y
theorem coverB1 (t : Fin cfg1.N) (hod : t.val % 2 = 1) (xs : Vec F S1280x128 .f32) (y : S1280x128.Idx) : ∃ pc ∈ (runB1 V c t hod xs).1, y ∈ pc.1.set :=
  View.cover_of_tiledL _ S1280x128.size (by sl_kernel_rfl) y
theorem scoverB1 (t : Fin cfg1.N) (hod : t.val % 2 = 1) (xs : Vec F S1280x128 .f32) (y : S1280x128.Idx) : ∃ pc ∈ (runB1 V c t hod xs).2.1, y ∈ pc.1.set :=
  View.cover_of_tiledL _ S1280x128.size (by sl_kernel_rfl) y

/-- The output tile (.1) and the accumulator (.2) after a run. -/
def outA1 (t : Fin cfg1.N) (hev : t.val % 2 = 0) : Vec F S1280x128 .f32 × Vec F S1280x128 .f32 :=
  (VO1.read (Elt F) (VO1.writes (Elt F) VO1.junk (runA1 V c t hev).1), VS1.read (Elt F) (VS1.writes (Elt F) VS1.junk (runA1 V c t hev).2.1))
def outB1 (t : Fin cfg1.N) (hod : t.val % 2 = 1) (xs : Vec F S1280x128 .f32) : Vec F S1280x128 .f32 × Vec F S1280x128 .f32 :=
  (VO1.read (Elt F) (VO1.writes (Elt F) VO1.junk (runB1 V c t hod xs).1), VS1.read (Elt F) (VS1.writes (Elt F) VS1.junk (runB1 V c t hod xs).2.1))

/-- The same after point `n`, by recursion: an odd point accumulates onto what the even point before it left. -/
def outsAt1 : (n : ℕ) → n < cfg1.N → Vec F S1280x128 .f32 × Vec F S1280x128 .f32
  | 0, hn => outA1 V c ⟨0, hn⟩ (Nat.zero_mod _)
  | n + 1, hn =>
    if hev : (n + 1) % 2 = 0 then outA1 V c ⟨n + 1, hn⟩ hev
    else outB1 V c ⟨n + 1, hn⟩ (Nat.mod_two_ne_zero.mp hev) (outsAt1 n (Nat.lt_of_succ_lt hn)).2

theorem outsAt1_even (t : Fin cfg1.N) (hev : t.val % 2 = 0) : outsAt1 V c t.val t.isLt = outA1 V c t hev := by
  obtain ⟨n, hn⟩ := t
  cases n with
  | zero => rfl
  | succ n => exact dif_pos hev

theorem outsAt1_odd (t : Fin cfg1.N) (hod : t.val % 2 = 1) :
    outsAt1 V c t.val t.isLt = outB1 V c t hod (outsAt1 V c (t.val - 1) (Nat.lt_of_le_of_lt (Nat.sub_le _ _) t.isLt)).2 := by
  obtain ⟨n, hn⟩ := t
  cases n with
  | zero => exact absurd hod (by simp)
  | succ n => exact dif_neg (Nat.mod_two_ne_zero.mpr hod)

/-- The invariant before point `n`: the accumulator holds what point `n - 1` left. -/
def PhiS1 : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_succ (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- Forgetting the accumulator's contents, the invariant at any point is the one the layer starts from. -/
theorem Phi_weak1 (n : ℕ) (h : n ≤ cfg1.N) : PhiS1 V c n h ⊢ Pipeline.ΦA spec1 c := by
  cases n with
  | zero => exact .rfl
  | succ n =>
    rw [PhiS1_succ, PhiA1_eq]
    iintro ⟨⟨HSc, Hr⟩, Hg⟩
    isplitl [HSc Hr]
    · isplitl [HSc]
      · iexists _; iexact HSc
      iexact Hr
    iexact Hg

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (w : Fin cfg1.W) : (dat1 V c).A w = V c (Pipeline.arrRef spec1 w) := rfl

theorem after1_a (t : Fin cfg1.N) : (dat1 V c).after 0 t = iblk1 V c 0 t := by dsimp only [dat1]
theorem after1_b (t : Fin cfg1.N) : (dat1 V c).after 1 t = iblk1 V c 1 t := by dsimp only [dat1]
theorem after1_c (t : Fin cfg1.N) : (dat1 V c).after 2 t = iblk1 V c 2 t := by dsimp only [dat1]
theorem after1_d (t : Fin cfg1.N) : (dat1 V c).after 3 t = iblk1 V c 3 t := by dsimp only [dat1]
theorem after1_e (t : Fin cfg1.N) : (dat1 V c).after 4 t = iblk1 V c 4 t := by dsimp only [dat1]

theorem before1_a (t : Fin cfg1.N) (d) : (dat1 V c).before 0 t d = iblk1 V c 0 t :=
  (before1_of V (dat1 V c) (A_eq1 V c)).1 (after1_a V c) t d
theorem before1_b (t : Fin cfg1.N) (d) : (dat1 V c).before 1 t d = iblk1 V c 1 t :=
  (before1_of V (dat1 V c) (A_eq1 V c)).2.1 (after1_b V c) t d
theorem before1_c (t : Fin cfg1.N) (d) : (dat1 V c).before 2 t d = iblk1 V c 2 t :=
  (before1_of V (dat1 V c) (A_eq1 V c)).2.2.1 (after1_c V c) t d
theorem before1_d (t : Fin cfg1.N) (d) : (dat1 V c).before 3 t d = iblk1 V c 3 t :=
  (before1_of V (dat1 V c) (A_eq1 V c)).2.2.2.1 (after1_d V c) t d
theorem before1_e (t : Fin cfg1.N) (d) : (dat1 V c).before 4 t d = iblk1 V c 4 t :=
  (before1_of V (dat1 V c) (A_eq1 V c)).2.2.2.2 (after1_e V c) t d

theorem leaves1 (w : Fin cfg1.W) (t : Fin cfg1.N) (hl : cfg1.idle w (grid1.coords t) = false) :
    (dat1 V c).leavesExact w t = owns (c : Thread nD τ) ((cfg1.win w).stage (cfg1.slots t w)) fullShare ((dat1 V c).after w t) := by
  unfold Dat.leavesExact; rw [hl]

def bodyPre1 (t : Fin cfg1.N) : sProp 𝕄 :=
  iprop((dat1 V c).Φ t.castSucc ∗ (dat1 V c).owesAt () t.castSucc
    ∗ (∃ d, owns (c : Thread nD τ) (msa1 t) fullShare ((dat1 V c).before 0 t d))
    ∗ (∃ d, owns (c : Thread nD τ) (msb1 t) fullShare ((dat1 V c).before 1 t d))
    ∗ (∃ d, owns (c : Thread nD τ) (msc1 t) fullShare ((dat1 V c).before 2 t d))
    ∗ (∃ d, owns (c : Thread nD τ) (msd1 t) fullShare ((dat1 V c).before 3 t d))
    ∗ (∃ d, owns (c : Thread nD τ) (mse1 t) fullShare ((dat1 V c).before 4 t d))
    ∗ (∃ d, owns (c : Thread nD τ) (msf1 t) fullShare ((dat1 V c).before 5 t d)))

def bodyPost1 (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point meets its obligation: the parity of the point selects the run. -/
theorem sound_body1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_a, before1_b, before1_c, before1_d, before1_e]
  rw [show (dat1 V c).owesAt () t.succ = (dat1 V c).owesAt () t.castSucc from rfl]
  rw [show (dat1 V c).Φ t.succ = PhiS1 V c (t.val + 1) t.isLt from rfl, PhiS1_succ]
  rw [show (dat1 V c).Φ t.castSucc = PhiS1 V c t.val (Nat.le_of_lt t.isLt) from rfl]
  rw [leaves1 V c 0 t (liveAt1 0 t (by decide)), leaves1 V c 1 t (liveAt1 1 t (by decide)), leaves1 V c 2 t (liveAt1 2 t (by decide)),
    leaves1 V c 3 t (liveAt1 3 t (by decide)), leaves1 V c 4 t (liveAt1 4 t (by decide)),
    after1_a, after1_b, after1_c, after1_d, after1_e]
  by_cases hev : t.val % 2 = 0
  · rw [Dat.leavesExact_idle (dat1 V c) 5 t (idleAtA1 t hev).1 (idleAtA1 t hev).2, outsAt1_even V c t hev]
    unfold outA1; dsimp only
    have hw := Phi_weak1 V c t.val (Nat.le_of_lt t.isLt)
    rw [PhiA1_eq] at hw
    iintro ⟨HP, Ho, ⟨%da, Ha⟩, ⟨%db, Hb⟩, ⟨%dc, Hc⟩, ⟨%dd, Hd⟩, ⟨%de, He⟩, ⟨%df, Hf⟩⟩
    ihave HP2 := hw $$ HP
    icases HP2 with ⟨⟨HSc, Hr⟩, Hg⟩
    iapply ((runA1 V c t hev).2.2 _ Set.univ _)
    iframe Ha Hb Hc Hd He Hf HSc
    iintro ⟨Ha, Hb, Hc, Hd, He, Hf, ⟨%esc, HSc⟩⟩
    iframe Hr Hg Ho Ha Hb Hc Hd He
    isplitl [HSc]
    · unfold owns; iexists _; isplitr
      swap; · iexact HSc
      ipureintro; exact View.read_writes_of_cover _ _ _ _ _ (scoverA1 V c t hev)
    iexists _; iexact Hf
  · have hod : t.val % 2 = 1 := Nat.mod_two_ne_zero.mp hev
    rw [leaves1 V c 5 t (liveAtB1 t hod), show (dat1 V c).after 5 t = (outsAt1 V c t.val t.isLt).1 from rfl, outsAt1_odd V c t hod, PhiS1_pos V c _ _ (by omega)]
    unfold outB1; dsimp only
    iintro ⟨⟨⟨HSc, Hr⟩, Hg⟩, Ho, ⟨%da, Ha⟩, ⟨%db, Hb⟩, ⟨%dc, Hc⟩, ⟨%dd, Hd⟩, ⟨%de, He⟩, ⟨%df, Hf⟩⟩
    iapply ((runB1 V c t hod _).2.2 Set.univ _)
    iframe Ha Hb Hc Hd He HSc
    isplitl [Hf]; · iexists _; iexact Hf
    iintro ⟨Ha, Hb, Hc, Hd, He, ⟨%ef, Hf⟩, ⟨%esc, HSc⟩⟩
    iframe Hr Hg Ho Ha Hb Hc Hd He
    isplitl [HSc]
    · unfold owns; iexists _; isplitr
      swap; · iexact HSc
      ipureintro; exact View.read_writes_of_cover _ _ _ _ _ (scoverB1 V c t hod _)
    unfold owns; iexists _; isplitr
    swap; · iexact Hf
    ipureintro; exact View.read_writes_of_cover _ _ _ _ _ (coverB1 V c t hod _)

theorem body_obligation1 : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := .rfl

theorem hout1 : (dat1 V c).Φ (Fin.last cfg1.N) ⊢ Pipeline.ΦA spec1 c :=
  Phi_weak1 V c (Fin.last cfg1.N).val (Nat.le_of_lt_succ (Fin.last cfg1.N).isLt)

end Region

end Cert.KernelIdeal.Hand

end
-- ==== Proof.KI.Runs2.lean ====
/- A layer's grid has 16 points, t = 2 i + k for row tile i and reduction half k: the blocks met at a point, and which parity zeroes the accumulator or yields a tile. -/
import proofs.«414469_j73718818669208_3_alg».proof.Proof.Gen.KernelIdeal.Launch
import proofs.«414469_j73718818669208_3_alg».proof.Proof.Gen.KernelIdeal.Skeleton
import proofs.«414469_j73718818669208_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t` of the array `V` gives it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The 5120 feature rows the body reads at point `t`. -/
abbrev hrect2 (t : Fin cfg2.N) : Rect S10240x128 := Rect.unit (s := S10240x128) (k2_off1 (grid2.coords t)) S5120x128.size (k2_off1_inb (grid2.coords t))

abbrev ablk2 (c : Dev nD) (t : Fin cfg2.N) : Vec F S1280x5120 .bf16 := iblk2 V c 0 t
abbrev hblk2 (c : Dev nD) (t : Fin cfg2.N) : Vec F S10240x128 .bf16 := iblk2 V c 1 t
abbrev xblk2 (c : Dev nD) (t : Fin cfg2.N) : Vec F S1280x128 .f32 := iblk2 V c 2 t
abbrev wblk2 (c : Dev nD) (t : Fin cfg2.N) : Vec F S128x128 .bf16 := iblk2 V c 3 t
abbrev bblk2 (c : Dev nD) (t : Fin cfg2.N) : Vec F S1x128 .f32 := iblk2 V c 4 t

/-- At every point the body meets each operand's block. -/
theorem before2_of {c : Dev nD} (dat : Dat τ (Elt F) Unit ℕ (UR sig nD τ) ℕ cfg2 c) (hA : ∀ w, dat.A w = V c (Pipeline.arrRef spec2 w)) :
    (∀ (_ : ∀ t, dat.after 0 t = iblk2 V c 0 t) t d, dat.before 0 t d = iblk2 V c 0 t)
    ∧ (∀ (_ : ∀ t, dat.after 1 t = iblk2 V c 1 t) t d, dat.before 1 t d = iblk2 V c 1 t)
    ∧ (∀ (_ : ∀ t, dat.after 2 t = iblk2 V c 2 t) t d, dat.before 2 t d = iblk2 V c 2 t)
    ∧ (∀ (_ : ∀ t, dat.after 3 t = iblk2 V c 3 t) t d, dat.before 3 t d = iblk2 V c 3 t)
    ∧ (∀ (_ : ∀ t, dat.after 4 t = iblk2 V c 4 t) t d, dat.before 4 t d = iblk2 V c 4 t) := by
  refine ⟨?_, ?_, ?_, ?_, ?_⟩ <;> exact fun hafter t d =>
    (dat.before_in_eq_fetched _ rfl (fun _ => rfl) (fun _ _ _ => rfl) (fun t => by rw [hafter]; unfold Dat.blockOf iblk2; rw [hA]; try rfl) t d).trans
      (by unfold Dat.fetched Dat.blockOf iblk2; rw [hA]; try rfl)

end Region

abbrev condInit2 (i : grid2.Coords) : Prop := (Scalar.cmpi .ne (Scalar.extui (Scalar.cmpi .eq (BitVec.ofNat 32 (i 1).val) 0#32)) 0#32) = 1#1
/-- The accumulator is zeroed exactly at the even points (reduction half 0), -/
theorem hcondInit2 : ∀ t : Fin cfg2.N, condInit2 (grid2.coords t) ↔ t.val % 2 = 0 :=
  (by decide +kernel : ∀ t : Fin grid2.N, condInit2 (grid2.coords t) ↔ t.val % 2 = 0)

abbrev condFin2 (i : grid2.Coords) : Prop := k2_cond2 i = 1#1
/-- and the output tile is computed exactly at the odd points (reduction half 1). -/
theorem hcondFin2 : ∀ t : Fin cfg2.N, condFin2 (grid2.coords t) ↔ t.val % 2 = 1 :=
  (by decide +kernel : ∀ t : Fin grid2.N, condFin2 (grid2.coords t) ↔ t.val % 2 = 1)

/-- Only odd points produce an output tile. -/
theorem liveAt2 : ∀ (w : Fin cfg2.W) (t : Fin cfg2.N), w ≠ 5 → cfg2.idle w (grid2.coords t) = false := by decide +kernel
theorem idleAtA2 : ∀ t : Fin cfg2.N, t.val % 2 = 0 → cfg2.idle 5 (grid2.coords t) = true ∧ (cfg2.win 5).flush t = false := by decide +kernel
theorem liveAtB2 : ∀ t : Fin cfg2.N, t.val % 2 = 1 → cfg2.idle 5 (grid2.coords t) = false := by decide +kernel

abbrev VO2 : View sig .tc .vmem S1280x128 .f32 := (Memref.whole cc2_stg5_0 : Memref sig .tc .vmem S1280x128 .f32).view
abbrev msa2 (t : Fin cfg2.N) : Memref sig .tc .vmem S1280x5120 .bf16 := win2_0.stage (cfg2.slots t 0)
abbrev hsa2 (t : Fin cfg2.N) : (msa2 t).IsWhole := hstage2_0 ((cfg2.slots t 0).cast nbuf2_0)
abbrev msb2 (t : Fin cfg2.N) : Memref sig .tc .vmem S10240x128 .bf16 := win2_1.stage (cfg2.slots t 1)
abbrev hsb2 (t : Fin cfg2.N) : (msb2 t).IsWhole := hstage2_1 ((cfg2.slots t 1).cast nbuf2_1)
abbrev msc2 (t : Fin cfg2.N) : Memref sig .tc .vmem S1280x128 .f32 := win2_2.stage (cfg2.slots t 2)
abbrev hsc2 (t : Fin cfg2.N) : (msc2 t).IsWhole := hstage2_2 ((cfg2.slots t 2).cast nbuf2_2)
abbrev msd2 (t : Fin cfg2.N) : Memref sig .tc .vmem S128x128 .bf16 := win2_3.stage (cfg2.slots t 3)
abbrev hsd2 (t : Fin cfg2.N) : (msd2 t).IsWhole := hstage2_3 ((cfg2.slots t 3).cast nbuf2_3)
abbrev mse2 (t : Fin cfg2.N) : Memref sig .tc .vmem S1x128 .f32 := win2_4.stage (cfg2.slots t 4)
abbrev hse2 (t : Fin cfg2.N) : (mse2 t).IsWhole := hstage2_4 ((cfg2.slots t 4).cast nbuf2_4)
abbrev msf2 (t : Fin cfg2.N) : Memref sig .tc .vmem S1280x128 .f32 := win2_5.stage (cfg2.slots t 5)
abbrev hsf2 (t : Fin cfg2.N) : (msf2 t).IsWhole := hstage2_5 ((cfg2.slots t 5).cast nbuf2_5)
abbrev scM2 : Memref sig .tc .vmem S1280x128 .f32 := Memref.whole cc2_scratch0
abbrev VS2 : View sig .tc .vmem S1280x128 .f32 := scM2.view

theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.KernelIdeal.Hand

end
-- ==== Proof.KI.RunA2.lean ====
/- The body at a point of reduction half 0: the accumulator is reset to zero and the first half-product added. -/
import proofs.«414469_j73718818669208_3_alg».proof.Proof.KI.Runs2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunA2 (c : Dev nD) (i : grid2.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : condInit2 i) (hcF : ¬condFin2 i)
    (xa : Vec F S1280x5120 .bf16) (xb : Vec F S10240x128 .bf16) (xc : Vec F S1280x128 .f32) (xd : Vec F S128x128 .bf16) (xe : Vec F S1x128 .f32) :
    Σ' (Lf : List (View.Piece (Elt F) S1280x128 .f32)), { LS : List (View.Piece (Elt F) S1280x128 .f32) //
      ∀ (xif : Vec F S1280x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ f, arg8.view.loc (c : Thread nD τ) ↦[arg8.view.set]{fullShare} arg8.view.writes (Elt F) f LS)) -∗ K ⟨⟩))
          ⊢ wp frame (wpE (defs₀ (F := F)) Variants.none c none) E (cc2__gin_layer_kernel i arg2 harg2 arg3 harg3 arg4 harg4 arg5 harg5 arg6 harg6 arg7 harg7 arg8 harg8) K } := by
  refine ⟨[], ?_, fun xif E K => ?run⟩
  case run =>
    simp only [cc2__gin_layer_kernel_eq_skeleton]; unfold cc2__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dsc, %fsc, -, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hff
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]
    · iexists _; isplitr; · ipureintro; exact harg7.read_unread _
      iexact Hf
    iexists _; iexact HSc

end Cert.KernelIdeal.Hand

end
-- ==== Proof.KI.RunB2.lean ====
/- The body at a point of reduction half 1: the second half-product is added and the output tile computed from the sum. -/
import proofs.«414469_j73718818669208_3_alg».proof.Proof.KI.RunA2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunB2 (c : Dev nD) (i : grid2.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : ¬condInit2 i) (hcF : condFin2 i)
    (xa : Vec F S1280x5120 .bf16) (xb : Vec F S10240x128 .bf16) (xc : Vec F S1280x128 .f32) (xd : Vec F S128x128 .bf16) (xe : Vec F S1x128 .f32) (xs : Vec F S1280x128 .f32) :
    Σ' (Lf : List (View.Piece (Elt F) S1280x128 .f32)), { LS : List (View.Piece (Elt F) S1280x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f Lf) ∗ (∃ f, arg8.view.loc (c : Thread nD τ) ↦[arg8.view.set]{fullShare} arg8.view.writes (Elt F) f LS)) -∗ K ⟨⟩))
          ⊢ wp frame (wpE (defs₀ (F := F)) Variants.none c none) E (cc2__gin_layer_kernel i arg2 harg2 arg3 harg3 arg4 harg4 arg5 harg5 arg6 harg6 arg7 harg7 arg8 harg8) K } := by
  refine ⟨?_, ?_, fun E K => ?run⟩
  case run =>
    simp only [cc2__gin_layer_kernel_eq_skeleton]; unfold cc2__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fsc, %hfsc, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfsc
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]; · iexists _; iexact Hf
    iexists _; iexact HSc

end Cert.KernelIdeal.Hand

end
-- ==== Proof.KI.Reg2.lean ====
/- Point by point through a layer: what a point leaves in the accumulator and the tile, the invariant carried from one point to the next, and the body's obligation. -/
import proofs.«414469_j73718818669208_3_alg».proof.Proof.KI.RunB2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b)) (c : Dev nD)

/-- The body's run at an even point, -/
abbrev runA2 (t : Fin cfg2.N) (hev : t.val % 2 = 0) :=
  kernelRunA2 c (grid2.coords t) (msa2 t) (hsa2 t) (msb2 t) (hsb2 t) (msc2 t) (hsc2 t) (msd2 t) (hsd2 t) (mse2 t) (hse2 t) (msf2 t) (hsf2 t) scM2 (Memref.isWhole_whole _)
    ((hcondInit2 t).mpr hev) (fun h => absurd ((hcondFin2 t).mp h) (by omega)) (ablk2 V c t) (hblk2 V c t) (xblk2 V c t) (wblk2 V c t) (bblk2 V c t)
/-- and at an odd point, over the accumulator's contents `xs`. -/
abbrev runB2 (t : Fin cfg2.N) (hod : t.val % 2 = 1) (xs : Vec F S1280x128 .f32) :=
  kernelRunB2 c (grid2.coords t) (msa2 t) (hsa2 t) (msb2 t) (hsb2 t) (msc2 t) (hsc2 t) (msd2 t) (hsd2 t) (mse2 t) (hse2 t) (msf2 t) (hsf2 t) scM2 (Memref.isWhole_whole _)
    (fun h => absurd ((hcondInit2 t).mp h) (by omega)) ((hcondFin2 t).mpr hod) (ablk2 V c t) (hblk2 V c t) (xblk2 V c t) (wblk2 V c t) (bblk2 V c t) xs

theorem scoverA2 (t : Fin cfg2.N) (hev : t.val % 2 = 0) (y : S1280x128.Idx) : ∃ pc ∈ (runA2 V c t hev).2.1, y ∈ pc.1.set :=
  View.cover_of_tiledL _ S1280x128.size (by sl_kernel_rfl) y
theorem coverB2 (t : Fin cfg2.N) (hod : t.val % 2 = 1) (xs : Vec F S1280x128 .f32) (y : S1280x128.Idx) : ∃ pc ∈ (runB2 V c t hod xs).1, y ∈ pc.1.set :=
  View.cover_of_tiledL _ S1280x128.size (by sl_kernel_rfl) y
theorem scoverB2 (t : Fin cfg2.N) (hod : t.val % 2 = 1) (xs : Vec F S1280x128 .f32) (y : S1280x128.Idx) : ∃ pc ∈ (runB2 V c t hod xs).2.1, y ∈ pc.1.set :=
  View.cover_of_tiledL _ S1280x128.size (by sl_kernel_rfl) y

/-- The output tile (.1) and the accumulator (.2) after a run. -/
def outA2 (t : Fin cfg2.N) (hev : t.val % 2 = 0) : Vec F S1280x128 .f32 × Vec F S1280x128 .f32 :=
  (VO2.read (Elt F) (VO2.writes (Elt F) VO2.junk (runA2 V c t hev).1), VS2.read (Elt F) (VS2.writes (Elt F) VS2.junk (runA2 V c t hev).2.1))
def outB2 (t : Fin cfg2.N) (hod : t.val % 2 = 1) (xs : Vec F S1280x128 .f32) : Vec F S1280x128 .f32 × Vec F S1280x128 .f32 :=
  (VO2.read (Elt F) (VO2.writes (Elt F) VO2.junk (runB2 V c t hod xs).1), VS2.read (Elt F) (VS2.writes (Elt F) VS2.junk (runB2 V c t hod xs).2.1))

/-- The same after point `n`, by recursion: an odd point accumulates onto what the even point before it left. -/
def outsAt2 : (n : ℕ) → n < cfg2.N → Vec F S1280x128 .f32 × Vec F S1280x128 .f32
  | 0, hn => outA2 V c ⟨0, hn⟩ (Nat.zero_mod _)
  | n + 1, hn =>
    if hev : (n + 1) % 2 = 0 then outA2 V c ⟨n + 1, hn⟩ hev
    else outB2 V c ⟨n + 1, hn⟩ (Nat.mod_two_ne_zero.mp hev) (outsAt2 n (Nat.lt_of_succ_lt hn)).2

theorem outsAt2_even (t : Fin cfg2.N) (hev : t.val % 2 = 0) : outsAt2 V c t.val t.isLt = outA2 V c t hev := by
  obtain ⟨n, hn⟩ := t
  cases n with
  | zero => rfl
  | succ n => exact dif_pos hev

theorem outsAt2_odd (t : Fin cfg2.N) (hod : t.val % 2 = 1) :
    outsAt2 V c t.val t.isLt = outB2 V c t hod (outsAt2 V c (t.val - 1) (Nat.lt_of_le_of_lt (Nat.sub_le _ _) t.isLt)).2 := by
  obtain ⟨n, hn⟩ := t
  cases n with
  | zero => exact absurd hod (by simp)
  | succ n => exact dif_neg (Nat.mod_two_ne_zero.mpr hod)

/-- The invariant before point `n`: the accumulator holds what point `n - 1` left. -/
def PhiS2 : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_succ (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- Forgetting the accumulator's contents, the invariant at any point is the one the layer starts from. -/
theorem Phi_weak2 (n : ℕ) (h : n ≤ cfg2.N) : PhiS2 V c n h ⊢ Pipeline.ΦA spec2 c := by
  cases n with
  | zero => exact .rfl
  | succ n =>
    rw [PhiS2_succ, PhiA2_eq]
    iintro ⟨⟨HSc, Hr⟩, Hg⟩
    isplitl [HSc Hr]
    · isplitl [HSc]
      · iexists _; iexact HSc
      iexact Hr
    iexact Hg

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (w : Fin cfg2.W) : (dat2 V c).A w = V c (Pipeline.arrRef spec2 w) := rfl

theorem after2_a (t : Fin cfg2.N) : (dat2 V c).after 0 t = iblk2 V c 0 t := by dsimp only [dat2]
theorem after2_b (t : Fin cfg2.N) : (dat2 V c).after 1 t = iblk2 V c 1 t := by dsimp only [dat2]
theorem after2_c (t : Fin cfg2.N) : (dat2 V c).after 2 t = iblk2 V c 2 t := by dsimp only [dat2]
theorem after2_d (t : Fin cfg2.N) : (dat2 V c).after 3 t = iblk2 V c 3 t := by dsimp only [dat2]
theorem after2_e (t : Fin cfg2.N) : (dat2 V c).after 4 t = iblk2 V c 4 t := by dsimp only [dat2]

theorem before2_a (t : Fin cfg2.N) (d) : (dat2 V c).before 0 t d = iblk2 V c 0 t :=
  (before2_of V (dat2 V c) (A_eq2 V c)).1 (after2_a V c) t d
theorem before2_b (t : Fin cfg2.N) (d) : (dat2 V c).before 1 t d = iblk2 V c 1 t :=
  (before2_of V (dat2 V c) (A_eq2 V c)).2.1 (after2_b V c) t d
theorem before2_c (t : Fin cfg2.N) (d) : (dat2 V c).before 2 t d = iblk2 V c 2 t :=
  (before2_of V (dat2 V c) (A_eq2 V c)).2.2.1 (after2_c V c) t d
theorem before2_d (t : Fin cfg2.N) (d) : (dat2 V c).before 3 t d = iblk2 V c 3 t :=
  (before2_of V (dat2 V c) (A_eq2 V c)).2.2.2.1 (after2_d V c) t d
theorem before2_e (t : Fin cfg2.N) (d) : (dat2 V c).before 4 t d = iblk2 V c 4 t :=
  (before2_of V (dat2 V c) (A_eq2 V c)).2.2.2.2 (after2_e V c) t d

theorem leaves2 (w : Fin cfg2.W) (t : Fin cfg2.N) (hl : cfg2.idle w (grid2.coords t) = false) :
    (dat2 V c).leavesExact w t = owns (c : Thread nD τ) ((cfg2.win w).stage (cfg2.slots t w)) fullShare ((dat2 V c).after w t) := by
  unfold Dat.leavesExact; rw [hl]

def bodyPre2 (t : Fin cfg2.N) : sProp 𝕄 :=
  iprop((dat2 V c).Φ t.castSucc ∗ (dat2 V c).owesAt () t.castSucc
    ∗ (∃ d, owns (c : Thread nD τ) (msa2 t) fullShare ((dat2 V c).before 0 t d))
    ∗ (∃ d, owns (c : Thread nD τ) (msb2 t) fullShare ((dat2 V c).before 1 t d))
    ∗ (∃ d, owns (c : Thread nD τ) (msc2 t) fullShare ((dat2 V c).before 2 t d))
    ∗ (∃ d, owns (c : Thread nD τ) (msd2 t) fullShare ((dat2 V c).before 3 t d))
    ∗ (∃ d, owns (c : Thread nD τ) (mse2 t) fullShare ((dat2 V c).before 4 t d))
    ∗ (∃ d, owns (c : Thread nD τ) (msf2 t) fullShare ((dat2 V c).before 5 t d)))

def bodyPost2 (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point meets its obligation: the parity of the point selects the run. -/
theorem sound_body2 (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_a, before2_b, before2_c, before2_d, before2_e]
  rw [show (dat2 V c).owesAt () t.succ = (dat2 V c).owesAt () t.castSucc from rfl]
  rw [show (dat2 V c).Φ t.succ = PhiS2 V c (t.val + 1) t.isLt from rfl, PhiS2_succ]
  rw [show (dat2 V c).Φ t.castSucc = PhiS2 V c t.val (Nat.le_of_lt t.isLt) from rfl]
  rw [leaves2 V c 0 t (liveAt2 0 t (by decide)), leaves2 V c 1 t (liveAt2 1 t (by decide)), leaves2 V c 2 t (liveAt2 2 t (by decide)),
    leaves2 V c 3 t (liveAt2 3 t (by decide)), leaves2 V c 4 t (liveAt2 4 t (by decide)),
    after2_a, after2_b, after2_c, after2_d, after2_e]
  by_cases hev : t.val % 2 = 0
  · rw [Dat.leavesExact_idle (dat2 V c) 5 t (idleAtA2 t hev).1 (idleAtA2 t hev).2, outsAt2_even V c t hev]
    unfold outA2; dsimp only
    have hw := Phi_weak2 V c t.val (Nat.le_of_lt t.isLt)
    rw [PhiA2_eq] at hw
    iintro ⟨HP, Ho, ⟨%da, Ha⟩, ⟨%db, Hb⟩, ⟨%dc, Hc⟩, ⟨%dd, Hd⟩, ⟨%de, He⟩, ⟨%df, Hf⟩⟩
    ihave HP2 := hw $$ HP
    icases HP2 with ⟨⟨HSc, Hr⟩, Hg⟩
    iapply ((runA2 V c t hev).2.2 _ Set.univ _)
    iframe Ha Hb Hc Hd He Hf HSc
    iintro ⟨Ha, Hb, Hc, Hd, He, Hf, ⟨%esc, HSc⟩⟩
    iframe Hr Hg Ho Ha Hb Hc Hd He
    isplitl [HSc]
    · unfold owns; iexists _; isplitr
      swap; · iexact HSc
      ipureintro; exact View.read_writes_of_cover _ _ _ _ _ (scoverA2 V c t hev)
    iexists _; iexact Hf
  · have hod : t.val % 2 = 1 := Nat.mod_two_ne_zero.mp hev
    rw [leaves2 V c 5 t (liveAtB2 t hod), show (dat2 V c).after 5 t = (outsAt2 V c t.val t.isLt).1 from rfl, outsAt2_odd V c t hod, PhiS2_pos V c _ _ (by omega)]
    unfold outB2; dsimp only
    iintro ⟨⟨⟨HSc, Hr⟩, Hg⟩, Ho, ⟨%da, Ha⟩, ⟨%db, Hb⟩, ⟨%dc, Hc⟩, ⟨%dd, Hd⟩, ⟨%de, He⟩, ⟨%df, Hf⟩⟩
    iapply ((runB2 V c t hod _).2.2 Set.univ _)
    iframe Ha Hb Hc Hd He HSc
    isplitl [Hf]; · iexists _; iexact Hf
    iintro ⟨Ha, Hb, Hc, Hd, He, ⟨%ef, Hf⟩, ⟨%esc, HSc⟩⟩
    iframe Hr Hg Ho Ha Hb Hc Hd He
    isplitl [HSc]
    · unfold owns; iexists _; isplitr
      swap; · iexact HSc
      ipureintro; exact View.read_writes_of_cover _ _ _ _ _ (scoverB2 V c t hod _)
    unfold owns; iexists _; isplitr
    swap; · iexact Hf
    ipureintro; exact View.read_writes_of_cover _ _ _ _ _ (coverB2 V c t hod _)

theorem body_obligation2 : BodyObligation (dat2 (F := F) V c) (defs₀ (F := F)) Variants.none () Set.univ := fun t => by
  rw [bigSep_W2, bigSep_W2]
  exact sound_body2 V c t

theorem hin2 : Pipeline.ΦA spec2 c ⊢ (dat2 V c).Φ 0 := .rfl

theorem hout2 : (dat2 V c).Φ (Fin.last cfg2.N) ⊢ Pipeline.ΦA spec2 c :=
  Phi_weak2 V c (Fin.last cfg2.N).val (Nat.le_of_lt_succ (Fin.last cfg2.N).isLt)

end Region

end Cert.KernelIdeal.Hand

end
-- ==== Proof.KI.Runs3.lean ====
/- A layer's grid has 16 points, t = 2 i + k for row tile i and reduction half k: the blocks met at a point, and which parity zeroes the accumulator or yields a tile. -/
import proofs.«414469_j73718818669208_3_alg».proof.Proof.Gen.KernelIdeal.Launch
import proofs.«414469_j73718818669208_3_alg».proof.Proof.Gen.KernelIdeal.Skeleton
import proofs.«414469_j73718818669208_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t` of the array `V` gives it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The 5120 feature rows the body reads at point `t`. -/
abbrev hrect3 (t : Fin cfg3.N) : Rect S10240x128 := Rect.unit (s := S10240x128) (k3_off1 (grid3.coords t)) S5120x128.size (k3_off1_inb (grid3.coords t))

abbrev ablk3 (c : Dev nD) (t : Fin cfg3.N) : Vec F S1280x5120 .bf16 := iblk3 V c 0 t
abbrev hblk3 (c : Dev nD) (t : Fin cfg3.N) : Vec F S10240x128 .bf16 := iblk3 V c 1 t
abbrev xblk3 (c : Dev nD) (t : Fin cfg3.N) : Vec F S1280x128 .f32 := iblk3 V c 2 t
abbrev wblk3 (c : Dev nD) (t : Fin cfg3.N) : Vec F S128x128 .bf16 := iblk3 V c 3 t
abbrev bblk3 (c : Dev nD) (t : Fin cfg3.N) : Vec F S1x128 .f32 := iblk3 V c 4 t

/-- At every point the body meets each operand's block. -/
theorem before3_of {c : Dev nD} (dat : Dat τ (Elt F) Unit ℕ (UR sig nD τ) ℕ cfg3 c) (hA : ∀ w, dat.A w = V c (Pipeline.arrRef spec3 w)) :
    (∀ (_ : ∀ t, dat.after 0 t = iblk3 V c 0 t) t d, dat.before 0 t d = iblk3 V c 0 t)
    ∧ (∀ (_ : ∀ t, dat.after 1 t = iblk3 V c 1 t) t d, dat.before 1 t d = iblk3 V c 1 t)
    ∧ (∀ (_ : ∀ t, dat.after 2 t = iblk3 V c 2 t) t d, dat.before 2 t d = iblk3 V c 2 t)
    ∧ (∀ (_ : ∀ t, dat.after 3 t = iblk3 V c 3 t) t d, dat.before 3 t d = iblk3 V c 3 t)
    ∧ (∀ (_ : ∀ t, dat.after 4 t = iblk3 V c 4 t) t d, dat.before 4 t d = iblk3 V c 4 t) := by
  refine ⟨?_, ?_, ?_, ?_, ?_⟩ <;> exact fun hafter t d =>
    (dat.before_in_eq_fetched _ rfl (fun _ => rfl) (fun _ _ _ => rfl) (fun t => by rw [hafter]; unfold Dat.blockOf iblk3; rw [hA]; try rfl) t d).trans
      (by unfold Dat.fetched Dat.blockOf iblk3; rw [hA]; try rfl)

end Region

abbrev condInit3 (i : grid3.Coords) : Prop := (Scalar.cmpi .ne (Scalar.extui (Scalar.cmpi .eq (BitVec.ofNat 32 (i 1).val) 0#32)) 0#32) = 1#1
/-- The accumulator is zeroed exactly at the even points (reduction half 0), -/
theorem hcondInit3 : ∀ t : Fin cfg3.N, condInit3 (grid3.coords t) ↔ t.val % 2 = 0 :=
  (by decide +kernel : ∀ t : Fin grid3.N, condInit3 (grid3.coords t) ↔ t.val % 2 = 0)

abbrev condFin3 (i : grid3.Coords) : Prop := k3_cond2 i = 1#1
/-- and the output tile is computed exactly at the odd points (reduction half 1). -/
theorem hcondFin3 : ∀ t : Fin cfg3.N, condFin3 (grid3.coords t) ↔ t.val % 2 = 1 :=
  (by decide +kernel : ∀ t : Fin grid3.N, condFin3 (grid3.coords t) ↔ t.val % 2 = 1)

/-- Only odd points produce an output tile. -/
theorem liveAt3 : ∀ (w : Fin cfg3.W) (t : Fin cfg3.N), w ≠ 5 → cfg3.idle w (grid3.coords t) = false := by decide +kernel
theorem idleAtA3 : ∀ t : Fin cfg3.N, t.val % 2 = 0 → cfg3.idle 5 (grid3.coords t) = true ∧ (cfg3.win 5).flush t = false := by decide +kernel
theorem liveAtB3 : ∀ t : Fin cfg3.N, t.val % 2 = 1 → cfg3.idle 5 (grid3.coords t) = false := by decide +kernel

abbrev VO3 : View sig .tc .vmem S1280x128 .f32 := (Memref.whole cc3_stg5_0 : Memref sig .tc .vmem S1280x128 .f32).view
abbrev msa3 (t : Fin cfg3.N) : Memref sig .tc .vmem S1280x5120 .bf16 := win3_0.stage (cfg3.slots t 0)
abbrev hsa3 (t : Fin cfg3.N) : (msa3 t).IsWhole := hstage3_0 ((cfg3.slots t 0).cast nbuf3_0)
abbrev msb3 (t : Fin cfg3.N) : Memref sig .tc .vmem S10240x128 .bf16 := win3_1.stage (cfg3.slots t 1)
abbrev hsb3 (t : Fin cfg3.N) : (msb3 t).IsWhole := hstage3_1 ((cfg3.slots t 1).cast nbuf3_1)
abbrev msc3 (t : Fin cfg3.N) : Memref sig .tc .vmem S1280x128 .f32 := win3_2.stage (cfg3.slots t 2)
abbrev hsc3 (t : Fin cfg3.N) : (msc3 t).IsWhole := hstage3_2 ((cfg3.slots t 2).cast nbuf3_2)
abbrev msd3 (t : Fin cfg3.N) : Memref sig .tc .vmem S128x128 .bf16 := win3_3.stage (cfg3.slots t 3)
abbrev hsd3 (t : Fin cfg3.N) : (msd3 t).IsWhole := hstage3_3 ((cfg3.slots t 3).cast nbuf3_3)
abbrev mse3 (t : Fin cfg3.N) : Memref sig .tc .vmem S1x128 .f32 := win3_4.stage (cfg3.slots t 4)
abbrev hse3 (t : Fin cfg3.N) : (mse3 t).IsWhole := hstage3_4 ((cfg3.slots t 4).cast nbuf3_4)
abbrev msf3 (t : Fin cfg3.N) : Memref sig .tc .vmem S1280x128 .f32 := win3_5.stage (cfg3.slots t 5)
abbrev hsf3 (t : Fin cfg3.N) : (msf3 t).IsWhole := hstage3_5 ((cfg3.slots t 5).cast nbuf3_5)
abbrev scM3 : Memref sig .tc .vmem S1280x128 .f32 := Memref.whole cc3_scratch0
abbrev VS3 : View sig .tc .vmem S1280x128 .f32 := scM3.view

theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.KernelIdeal.Hand

end
-- ==== Proof.KI.RunA3.lean ====
/- The body at a point of reduction half 0: the accumulator is reset to zero and the first half-product added. -/
import proofs.«414469_j73718818669208_3_alg».proof.Proof.KI.Runs3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunA3 (c : Dev nD) (i : grid3.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : condInit3 i) (hcF : ¬condFin3 i)
    (xa : Vec F S1280x5120 .bf16) (xb : Vec F S10240x128 .bf16) (xc : Vec F S1280x128 .f32) (xd : Vec F S128x128 .bf16) (xe : Vec F S1x128 .f32) :
    Σ' (Lf : List (View.Piece (Elt F) S1280x128 .f32)), { LS : List (View.Piece (Elt F) S1280x128 .f32) //
      ∀ (xif : Vec F S1280x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xif ∗ (∃ f, arg8.view.loc (c : Thread nD τ) ↦[arg8.view.set]{fullShare} arg8.view.writes (Elt F) f LS)) -∗ K ⟨⟩))
          ⊢ wp frame (wpE (defs₀ (F := F)) Variants.none c none) E (cc3__gin_layer_kernel i arg2 harg2 arg3 harg3 arg4 harg4 arg5 harg5 arg6 harg6 arg7 harg7 arg8 harg8) K } := by
  refine ⟨[], ?_, fun xif E K => ?run⟩
  case run =>
    simp only [cc3__gin_layer_kernel_eq_skeleton]; unfold cc3__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dsc, %fsc, -, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hff
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]
    · iexists _; isplitr; · ipureintro; exact harg7.read_unread _
      iexact Hf
    iexists _; iexact HSc

end Cert.KernelIdeal.Hand

end
-- ==== Proof.KI.RunB3.lean ====
/- The body at a point of reduction half 1: the second half-product is added and the output tile computed from the sum. -/
import proofs.«414469_j73718818669208_3_alg».proof.Proof.KI.RunA3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRunB3 (c : Dev nD) (i : grid3.Coords) (arg2 : Memref sig .tc .vmem S1280x5120 .bf16) (harg2 : arg2.IsWhole) (arg3 : Memref sig .tc .vmem S10240x128 .bf16) (harg3 : arg3.IsWhole) (arg4 : Memref sig .tc .vmem S1280x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1280x128 .f32) (harg7 : arg7.IsWhole) (arg8 : Memref sig .tc .vmem S1280x128 .f32) (harg8 : arg8.IsWhole) (hcI : ¬condInit3 i) (hcF : condFin3 i)
    (xa : Vec F S1280x5120 .bf16) (xb : Vec F S10240x128 .bf16) (xc : Vec F S1280x128 .f32) (xd : Vec F S128x128 .bf16) (xe : Vec F S1x128 .f32) (xs : Vec F S1280x128 .f32) :
    Σ' (Lf : List (View.Piece (Elt F) S1280x128 .f32)), { LS : List (View.Piece (Elt F) S1280x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f Lf) ∗ (∃ f, arg8.view.loc (c : Thread nD τ) ↦[arg8.view.set]{fullShare} arg8.view.writes (Elt F) f LS)) -∗ K ⟨⟩))
          ⊢ wp frame (wpE (defs₀ (F := F)) Variants.none c none) E (cc3__gin_layer_kernel i arg2 harg2 arg3 harg3 arg4 harg4 arg5 harg5 arg6 harg6 arg7 harg7 arg8 harg8) K } := by
  refine ⟨?_, ?_, fun E K => ?run⟩
  case run =>
    simp only [cc3__gin_layer_kernel_eq_skeleton]; unfold cc3__gin_layer_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fsc, %hfsc, HSc⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfsc
    sl_exec (disch := first | exact hcI | exact hcF)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Hf]; · iexists _; iexact Hf
    iexists _; iexact HSc

end Cert.KernelIdeal.Hand

end
-- ==== Proof.KI.Reg3.lean ====
/- Point by point through a layer: what a point leaves in the accumulator and the tile, the invariant carried from one point to the next, and the body's obligation. -/
import proofs.«414469_j73718818669208_3_alg».proof.Proof.KI.RunB3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b)) (c : Dev nD)

/-- The body's run at an even point, -/
abbrev runA3 (t : Fin cfg3.N) (hev : t.val % 2 = 0) :=
  kernelRunA3 c (grid3.coords t) (msa3 t) (hsa3 t) (msb3 t) (hsb3 t) (msc3 t) (hsc3 t) (msd3 t) (hsd3 t) (mse3 t) (hse3 t) (msf3 t) (hsf3 t) scM3 (Memref.isWhole_whole _)
    ((hcondInit3 t).mpr hev) (fun h => absurd ((hcondFin3 t).mp h) (by omega)) (ablk3 V c t) (hblk3 V c t) (xblk3 V c t) (wblk3 V c t) (bblk3 V c t)
/-- and at an odd point, over the accumulator's contents `xs`. -/
abbrev runB3 (t : Fin cfg3.N) (hod : t.val % 2 = 1) (xs : Vec F S1280x128 .f32) :=
  kernelRunB3 c (grid3.coords t) (msa3 t) (hsa3 t) (msb3 t) (hsb3 t) (msc3 t) (hsc3 t) (msd3 t) (hsd3 t) (mse3 t) (hse3 t) (msf3 t) (hsf3 t) scM3 (Memref.isWhole_whole _)
    (fun h => absurd ((hcondInit3 t).mp h) (by omega)) ((hcondFin3 t).mpr hod) (ablk3 V c t) (hblk3 V c t) (xblk3 V c t) (wblk3 V c t) (bblk3 V c t) xs

theorem scoverA3 (t : Fin cfg3.N) (hev : t.val % 2 = 0) (y : S1280x128.Idx) : ∃ pc ∈ (runA3 V c t hev).2.1, y ∈ pc.1.set :=
  View.cover_of_tiledL _ S1280x128.size (by sl_kernel_rfl) y
theorem coverB3 (t : Fin cfg3.N) (hod : t.val % 2 = 1) (xs : Vec F S1280x128 .f32) (y : S1280x128.Idx) : ∃ pc ∈ (runB3 V c t hod xs).1, y ∈ pc.1.set :=
  View.cover_of_tiledL _ S1280x128.size (by sl_kernel_rfl) y
theorem scoverB3 (t : Fin cfg3.N) (hod : t.val % 2 = 1) (xs : Vec F S1280x128 .f32) (y : S1280x128.Idx) : ∃ pc ∈ (runB3 V c t hod xs).2.1, y ∈ pc.1.set :=
  View.cover_of_tiledL _ S1280x128.size (by sl_kernel_rfl) y

/-- The output tile (.1) and the accumulator (.2) after a run. -/
def outA3 (t : Fin cfg3.N) (hev : t.val % 2 = 0) : Vec F S1280x128 .f32 × Vec F S1280x128 .f32 :=
  (VO3.read (Elt F) (VO3.writes (Elt F) VO3.junk (runA3 V c t hev).1), VS3.read (Elt F) (VS3.writes (Elt F) VS3.junk (runA3 V c t hev).2.1))
def outB3 (t : Fin cfg3.N) (hod : t.val % 2 = 1) (xs : Vec F S1280x128 .f32) : Vec F S1280x128 .f32 × Vec F S1280x128 .f32 :=
  (VO3.read (Elt F) (VO3.writes (Elt F) VO3.junk (runB3 V c t hod xs).1), VS3.read (Elt F) (VS3.writes (Elt F) VS3.junk (runB3 V c t hod xs).2.1))

/-- The same after point `n`, by recursion: an odd point accumulates onto what the even point before it left. -/
def outsAt3 : (n : ℕ) → n < cfg3.N → Vec F S1280x128 .f32 × Vec F S1280x128 .f32
  | 0, hn => outA3 V c ⟨0, hn⟩ (Nat.zero_mod _)
  | n + 1, hn =>
    if hev : (n + 1) % 2 = 0 then outA3 V c ⟨n + 1, hn⟩ hev
    else outB3 V c ⟨n + 1, hn⟩ (Nat.mod_two_ne_zero.mp hev) (outsAt3 n (Nat.lt_of_succ_lt hn)).2

theorem outsAt3_even (t : Fin cfg3.N) (hev : t.val % 2 = 0) : outsAt3 V c t.val t.isLt = outA3 V c t hev := by
  obtain ⟨n, hn⟩ := t
  cases n with
  | zero => rfl
  | succ n => exact dif_pos hev

theorem outsAt3_odd (t : Fin cfg3.N) (hod : t.val % 2 = 1) :
    outsAt3 V c t.val t.isLt = outB3 V c t hod (outsAt3 V c (t.val - 1) (Nat.lt_of_le_of_lt (Nat.sub_le _ _) t.isLt)).2 := by
  obtain ⟨n, hn⟩ := t
  cases n with
  | zero => exact absurd hod (by simp)
  | succ n => exact dif_neg (Nat.mod_two_ne_zero.mpr hod)

/-- The invariant before point `n`: the accumulator holds what point `n - 1` left. -/
def PhiS3 : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_succ (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- Forgetting the accumulator's contents, the invariant at any point is the one the layer starts from. -/
theorem Phi_weak3 (n : ℕ) (h : n ≤ cfg3.N) : PhiS3 V c n h ⊢ Pipeline.ΦA spec3 c := by
  cases n with
  | zero => exact .rfl
  | succ n =>
    rw [PhiS3_succ, PhiA3_eq]
    iintro ⟨⟨HSc, Hr⟩, Hg⟩
    isplitl [HSc Hr]
    · isplitl [HSc]
      · iexists _; iexact HSc
      iexact Hr
    iexact Hg

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (w : Fin cfg3.W) : (dat3 V c).A w = V c (Pipeline.arrRef spec3 w) := rfl

theorem after3_a (t : Fin cfg3.N) : (dat3 V c).after 0 t = iblk3 V c 0 t := by dsimp only [dat3]
theorem after3_b (t : Fin cfg3.N) : (dat3 V c).after 1 t = iblk3 V c 1 t := by dsimp only [dat3]
theorem after3_c (t : Fin cfg3.N) : (dat3 V c).after 2 t = iblk3 V c 2 t := by dsimp only [dat3]
theorem after3_d (t : Fin cfg3.N) : (dat3 V c).after 3 t = iblk3 V c 3 t := by dsimp only [dat3]
theorem after3_e (t : Fin cfg3.N) : (dat3 V c).after 4 t = iblk3 V c 4 t := by dsimp only [dat3]

theorem before3_a (t : Fin cfg3.N) (d) : (dat3 V c).before 0 t d = iblk3 V c 0 t :=
  (before3_of V (dat3 V c) (A_eq3 V c)).1 (after3_a V c) t d
theorem before3_b (t : Fin cfg3.N) (d) : (dat3 V c).before 1 t d = iblk3 V c 1 t :=
  (before3_of V (dat3 V c) (A_eq3 V c)).2.1 (after3_b V c) t d
theorem before3_c (t : Fin cfg3.N) (d) : (dat3 V c).before 2 t d = iblk3 V c 2 t :=
  (before3_of V (dat3 V c) (A_eq3 V c)).2.2.1 (after3_c V c) t d
theorem before3_d (t : Fin cfg3.N) (d) : (dat3 V c).before 3 t d = iblk3 V c 3 t :=
  (before3_of V (dat3 V c) (A_eq3 V c)).2.2.2.1 (after3_d V c) t d
theorem before3_e (t : Fin cfg3.N) (d) : (dat3 V c).before 4 t d = iblk3 V c 4 t :=
  (before3_of V (dat3 V c) (A_eq3 V c)).2.2.2.2 (after3_e V c) t d

theorem leaves3 (w : Fin cfg3.W) (t : Fin cfg3.N) (hl : cfg3.idle w (grid3.coords t) = false) :
    (dat3 V c).leavesExact w t = owns (c : Thread nD τ) ((cfg3.win w).stage (cfg3.slots t w)) fullShare ((dat3 V c).after w t) := by
  unfold Dat.leavesExact; rw [hl]

def bodyPre3 (t : Fin cfg3.N) : sProp 𝕄 :=
  iprop((dat3 V c).Φ t.castSucc ∗ (dat3 V c).owesAt () t.castSucc
    ∗ (∃ d, owns (c : Thread nD τ) (msa3 t) fullShare ((dat3 V c).before 0 t d))
    ∗ (∃ d, owns (c : Thread nD τ) (msb3 t) fullShare ((dat3 V c).before 1 t d))
    ∗ (∃ d, owns (c : Thread nD τ) (msc3 t) fullShare ((dat3 V c).before 2 t d))
    ∗ (∃ d, owns (c : Thread nD τ) (msd3 t) fullShare ((dat3 V c).before 3 t d))
    ∗ (∃ d, owns (c : Thread nD τ) (mse3 t) fullShare ((dat3 V c).before 4 t d))
    ∗ (∃ d, owns (c : Thread nD τ) (msf3 t) fullShare ((dat3 V c).before 5 t d)))

def bodyPost3 (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point meets its obligation: the parity of the point selects the run. -/
theorem sound_body3 (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_a, before3_b, before3_c, before3_d, before3_e]
  rw [show (dat3 V c).owesAt () t.succ = (dat3 V c).owesAt () t.castSucc from rfl]
  rw [show (dat3 V c).Φ t.succ = PhiS3 V c (t.val + 1) t.isLt from rfl, PhiS3_succ]
  rw [show (dat3 V c).Φ t.castSucc = PhiS3 V c t.val (Nat.le_of_lt t.isLt) from rfl]
  rw [leaves3 V c 0 t (liveAt3 0 t (by decide)), leaves3 V c 1 t (liveAt3 1 t (by decide)), leaves3 V c 2 t (liveAt3 2 t (by decide)),
    leaves3 V c 3 t (liveAt3 3 t (by decide)), leaves3 V c 4 t (liveAt3 4 t (by decide)),
    after3_a, after3_b, after3_c, after3_d, after3_e]
  by_cases hev : t.val % 2 = 0
  · rw [Dat.leavesExact_idle (dat3 V c) 5 t (idleAtA3 t hev).1 (idleAtA3 t hev).2, outsAt3_even V c t hev]
    unfold outA3; dsimp only
    have hw := Phi_weak3 V c t.val (Nat.le_of_lt t.isLt)
    rw [PhiA3_eq] at hw
    iintro ⟨HP, Ho, ⟨%da, Ha⟩, ⟨%db, Hb⟩, ⟨%dc, Hc⟩, ⟨%dd, Hd⟩, ⟨%de, He⟩, ⟨%df, Hf⟩⟩
    ihave HP2 := hw $$ HP
    icases HP2 with ⟨⟨HSc, Hr⟩, Hg⟩
    iapply ((runA3 V c t hev).2.2 _ Set.univ _)
    iframe Ha Hb Hc Hd He Hf HSc
    iintro ⟨Ha, Hb, Hc, Hd, He, Hf, ⟨%esc, HSc⟩⟩
    iframe Hr Hg Ho Ha Hb Hc Hd He
    isplitl [HSc]
    · unfold owns; iexists _; isplitr
      swap; · iexact HSc
      ipureintro; exact View.read_writes_of_cover _ _ _ _ _ (scoverA3 V c t hev)
    iexists _; iexact Hf
  · have hod : t.val % 2 = 1 := Nat.mod_two_ne_zero.mp hev
    rw [leaves3 V c 5 t (liveAtB3 t hod), show (dat3 V c).after 5 t = (outsAt3 V c t.val t.isLt).1 from rfl, outsAt3_odd V c t hod, PhiS3_pos V c _ _ (by omega)]
    unfold outB3; dsimp only
    iintro ⟨⟨⟨HSc, Hr⟩, Hg⟩, Ho, ⟨%da, Ha⟩, ⟨%db, Hb⟩, ⟨%dc, Hc⟩, ⟨%dd, Hd⟩, ⟨%de, He⟩, ⟨%df, Hf⟩⟩
    iapply ((runB3 V c t hod _).2.2 Set.univ _)
    iframe Ha Hb Hc Hd He HSc
    isplitl [Hf]; · iexists _; iexact Hf
    iintro ⟨Ha, Hb, Hc, Hd, He, ⟨%ef, Hf⟩, ⟨%esc, HSc⟩⟩
    iframe Hr Hg Ho Ha Hb Hc Hd He
    isplitl [HSc]
    · unfold owns; iexists _; isplitr
      swap; · iexact HSc
      ipureintro; exact View.read_writes_of_cover _ _ _ _ _ (scoverB3 V c t hod _)
    unfold owns; iexists _; isplitr
    swap; · iexact Hf
    ipureintro; exact View.read_writes_of_cover _ _ _ _ _ (coverB3 V c t hod _)

theorem body_obligation3 : BodyObligation (dat3 (F := F) V c) (defs₀ (F := F)) Variants.none () Set.univ := fun t => by
  rw [bigSep_W3, bigSep_W3]
  exact sound_body3 V c t

theorem hin3 : Pipeline.ΦA spec3 c ⊢ (dat3 V c).Φ 0 := .rfl

theorem hout3 : (dat3 V c).Φ (Fin.last cfg3.N) ⊢ Pipeline.ΦA spec3 c :=
  Phi_weak3 V c (Fin.last cfg3.N).val (Nat.le_of_lt_succ (Fin.last cfg3.N).isLt)

end Region

end Cert.KernelIdeal.Hand

end
-- ==== Proof.KI.Launch.lean ====
/- The program as nineteen items run one after another, host stretches and the four layers, and the frame: it terminates and the arguments end as launched. -/
import proofs.«414469_j73718818669208_3_alg».proof.Proof.Gen.KernelIdeal.Launch
import proofs.«414469_j73718818669208_3_alg».proof.Proof.Gen.KernelIdeal.Regions
import proofs.«414469_j73718818669208_3_alg».proof.Proof.KI.Reg0
import proofs.«414469_j73718818669208_3_alg».proof.Proof.KI.Reg1
import proofs.«414469_j73718818669208_3_alg».proof.Proof.KI.Reg2
import proofs.«414469_j73718818669208_3_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents at each boundary between two of the program's 19 items, a fold from the launch memory: a host stretch writes its results, a layer changes only its output array. -/
abbrev W0 : Dev nD → Valuation τ sig (Elt F) := fun c b => (s₀ m ρ).mem ((c : Dev nD), b)

abbrev W1 : Dev nD → Valuation τ sig (Elt F) := fun c => StableHlo.after hostOps0 (W0 m ρ c)

theorem W1_keep (c : Dev nD) (r : Ref sig .tc) (h : r ∉ hostOps0_W) : W1 m ρ c r = W0 m ρ c r :=
  StableHlo.after_of_writes_sub hostOps0 _ hostOps0_writes h

abbrev W2 : Dev nD → Valuation τ sig (Elt F) := fun c => StableHlo.after hostOps0_1 (W1 m ρ c)

theorem W2_keep (c : Dev nD) (r : Ref sig .tc) (h : r ∉ hostOps0_1_W) : W2 m ρ c r = W1 m ρ c r :=
  StableHlo.after_of_writes_sub hostOps0_1 _ hostOps0_1_writes h

abbrev W3 : Dev nD → Valuation τ sig (Elt F) := fun c => StableHlo.after hostOps0_2 (W2 m ρ c)

theorem W3_keep (c : Dev nD) (r : Ref sig .tc) (h : r ∉ hostOps0_2_W) : W3 m ρ c r = W2 m ρ c r :=
  StableHlo.after_of_writes_sub hostOps0_2 _ hostOps0_2_writes h

abbrev W4 : Dev nD → Valuation τ sig (Elt F) := fun c => StableHlo.after hostOps0_3 (W3 m ρ c)

theorem W4_keep (c : Dev nD) (r : Ref sig .tc) (h : r ∉ hostOps0_3_W) : W4 m ρ c r = W3 m ρ c r :=
  StableHlo.after_of_writes_sub hostOps0_3 _ hostOps0_3_writes h

abbrev W5 : Dev nD → Valuation τ sig (Elt F) := fun c => StableHlo.after hostOps0_4 (W4 m ρ c)

theorem W5_keep (c : Dev nD) (r : Ref sig .tc) (h : r ∉ hostOps0_4_W) : W5 m ρ c r = W4 m ρ c r :=
  StableHlo.after_of_writes_sub hostOps0_4 _ hostOps0_4_writes h

abbrev V5 : (c : Dev nD) → (b : Ref sig .tc) → Buf (Elt F) ((c : Thread nD τ).loc b) := fun c b => W5 m ρ c b

def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb

abbrev E6 : (c : Dev nD) → (b : Ref sig .tc) → Buf (Elt F) ((c : Thread nD τ).loc b) := fun c b => W6 m ρ c b

theorem hF0 (c : Dev nD) (w : Fin cfg0.W) : (dat0 (V5 m ρ) c).arrAt w cfg0.N = E6 m ρ c (Pipeline.arrRef spec0 w) :=
  (W6_arr m ρ c w).symm
theorem hrest0 (c : Dev nD) : ∀ b, b ∉ Finset.univ.image (Pipeline.arrRef spec0) → E6 m ρ c b = V5 m ρ c b :=
  fun b hb => W6_of_ne m ρ c b fun w e => hb (Finset.mem_image.mpr ⟨w, Finset.mem_univ _, e⟩)

theorem W6_out (c : Dev nD) : W6 m ρ c main_v27 = (dat0 (V5 m ρ) c).arrAt 5 cfg0.N :=
  W6_arr m ρ c 5

theorem in_of_ne0 : ∀ w : Fin cfg0.W, Pipeline.arrRef spec0 w ≠ main_v27 → (cfg0.win w).isOut = false := by
  decide

theorem W6_keep (c : Dev nD) (b : Ref sig .tc) (hb : b ≠ main_v27) : W6 m ρ c b = W5 m ρ c b := by
  by_cases h : ∃ w, Pipeline.arrRef spec0 w = b
  · obtain ⟨w, rfl⟩ := h
    exact (W6_arr m ρ c w).trans (((dat0 (V5 m ρ) c).arrAt_in w (in_of_ne0 w hb) _).trans (A_eq0 (V5 m ρ) c w))
  · exact W6_of_ne m ρ c b fun w e => h ⟨w, e⟩

abbrev W7 : Dev nD → Valuation τ sig (Elt F) := fun c => StableHlo.after hostOps1 (W6 m ρ c)

theorem W7_keep (c : Dev nD) (r : Ref sig .tc) (h : r ∉ hostOps1_W) : W7 m ρ c r = W6 m ρ c r :=
  StableHlo.after_of_writes_sub hostOps1 _ hostOps1_writes h

abbrev W8 : Dev nD → Valuation τ sig (Elt F) := fun c => StableHlo.after hostOps1_1 (W7 m ρ c)

theorem W8_keep (c : Dev nD) (r : Ref sig .tc) (h : r ∉ hostOps1_1_W) : W8 m ρ c r = W7 m ρ c r :=
  StableHlo.after_of_writes_sub hostOps1_1 _ hostOps1_1_writes h

abbrev W9 : Dev nD → Valuation τ sig (Elt F) := fun c => StableHlo.after hostOps1_2 (W8 m ρ c)

theorem W9_keep (c : Dev nD) (r : Ref sig .tc) (h : r ∉ hostOps1_2_W) : W9 m ρ c r = W8 m ρ c r :=
  StableHlo.after_of_writes_sub hostOps1_2 _ hostOps1_2_writes h

abbrev V9 : (c : Dev nD) → (b : Ref sig .tc) → Buf (Elt F) ((c : Thread nD τ).loc b) := fun c b => W9 m ρ c b

def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb

abbrev E10 : (c : Dev nD) → (b : Ref sig .tc) → Buf (Elt F) ((c : Thread nD τ).loc b) := fun c b => W10 m ρ c b

theorem hF1 (c : Dev nD) (w : Fin cfg1.W) : (dat1 (V9 m ρ) c).arrAt w cfg1.N = E10 m ρ c (Pipeline.arrRef spec1 w) :=
  (W10_arr m ρ c w).symm
theorem hrest1 (c : Dev nD) : ∀ b, b ∉ Finset.univ.image (Pipeline.arrRef spec1) → E10 m ρ c b = V9 m ρ c b :=
  fun b hb => W10_of_ne m ρ c b fun w e => hb (Finset.mem_image.mpr ⟨w, Finset.mem_univ _, e⟩)

theorem W10_out (c : Dev nD) : W10 m ρ c main_v37 = (dat1 (V9 m ρ) c).arrAt 5 cfg1.N :=
  W10_arr m ρ c 5

theorem in_of_ne1 : ∀ w : Fin cfg1.W, Pipeline.arrRef spec1 w ≠ main_v37 → (cfg1.win w).isOut = false := by
  decide

theorem W10_keep (c : Dev nD) (b : Ref sig .tc) (hb : b ≠ main_v37) : W10 m ρ c b = W9 m ρ c b := by
  by_cases h : ∃ w, Pipeline.arrRef spec1 w = b
  · obtain ⟨w, rfl⟩ := h
    exact (W10_arr m ρ c w).trans (((dat1 (V9 m ρ) c).arrAt_in w (in_of_ne1 w hb) _).trans (A_eq1 (V9 m ρ) c w))
  · exact W10_of_ne m ρ c b fun w e => h ⟨w, e⟩

abbrev W11 : Dev nD → Valuation τ sig (Elt F) := fun c => StableHlo.after hostOps2 (W10 m ρ c)

theorem W11_keep (c : Dev nD) (r : Ref sig .tc) (h : r ∉ hostOps2_W) : W11 m ρ c r = W10 m ρ c r :=
  StableHlo.after_of_writes_sub hostOps2 _ hostOps2_writes h

abbrev W12 : Dev nD → Valuation τ sig (Elt F) := fun c => StableHlo.after hostOps2_1 (W11 m ρ c)

theorem W12_keep (c : Dev nD) (r : Ref sig .tc) (h : r ∉ hostOps2_1_W) : W12 m ρ c r = W11 m ρ c r :=
  StableHlo.after_of_writes_sub hostOps2_1 _ hostOps2_1_writes h

abbrev W13 : Dev nD → Valuation τ sig (Elt F) := fun c => StableHlo.after hostOps2_2 (W12 m ρ c)

theorem W13_keep (c : Dev nD) (r : Ref sig .tc) (h : r ∉ hostOps2_2_W) : W13 m ρ c r = W12 m ρ c r :=
  StableHlo.after_of_writes_sub hostOps2_2 _ hostOps2_2_writes h

abbrev V13 : (c : Dev nD) → (b : Ref sig .tc) → Buf (Elt F) ((c : Thread nD τ).loc b) := fun c b => W13 m ρ c b

def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb

abbrev E14 : (c : Dev nD) → (b : Ref sig .tc) → Buf (Elt F) ((c : Thread nD τ).loc b) := fun c b => W14 m ρ c b

theorem hF2 (c : Dev nD) (w : Fin cfg2.W) : (dat2 (V13 m ρ) c).arrAt w cfg2.N = E14 m ρ c (Pipeline.arrRef spec2 w) :=
  (W14_arr m ρ c w).symm
theorem hrest2 (c : Dev nD) : ∀ b, b ∉ Finset.univ.image (Pipeline.arrRef spec2) → E14 m ρ c b = V13 m ρ c b :=
  fun b hb => W14_of_ne m ρ c b fun w e => hb (Finset.mem_image.mpr ⟨w, Finset.mem_univ _, e⟩)

theorem W14_out (c : Dev nD) : W14 m ρ c main_v47 = (dat2 (V13 m ρ) c).arrAt 5 cfg2.N :=
  W14_arr m ρ c 5

theorem in_of_ne2 : ∀ w : Fin cfg2.W, Pipeline.arrRef spec2 w ≠ main_v47 → (cfg2.win w).isOut = false := by
  decide

theorem W14_keep (c : Dev nD) (b : Ref sig .tc) (hb : b ≠ main_v47) : W14 m ρ c b = W13 m ρ c b := by
  by_cases h : ∃ w, Pipeline.arrRef spec2 w = b
  · obtain ⟨w, rfl⟩ := h
    exact (W14_arr m ρ c w).trans (((dat2 (V13 m ρ) c).arrAt_in w (in_of_ne2 w hb) _).trans (A_eq2 (V13 m ρ) c w))
  · exact W14_of_ne m ρ c b fun w e => h ⟨w, e⟩

abbrev W15 : Dev nD → Valuation τ sig (Elt F) := fun c => StableHlo.after hostOps3 (W14 m ρ c)

theorem W15_keep (c : Dev nD) (r : Ref sig .tc) (h : r ∉ hostOps3_W) : W15 m ρ c r = W14 m ρ c r :=
  StableHlo.after_of_writes_sub hostOps3 _ hostOps3_writes h

abbrev W16 : Dev nD → Valuation τ sig (Elt F) := fun c => StableHlo.after hostOps3_1 (W15 m ρ c)

theorem W16_keep (c : Dev nD) (r : Ref sig .tc) (h : r ∉ hostOps3_1_W) : W16 m ρ c r = W15 m ρ c r :=
  StableHlo.after_of_writes_sub hostOps3_1 _ hostOps3_1_writes h

abbrev W17 : Dev nD → Valuation τ sig (Elt F) := fun c => StableHlo.after hostOps3_2 (W16 m ρ c)

theorem W17_keep (c : Dev nD) (r : Ref sig .tc) (h : r ∉ hostOps3_2_W) : W17 m ρ c r = W16 m ρ c r :=
  StableHlo.after_of_writes_sub hostOps3_2 _ hostOps3_2_writes h

abbrev V17 : (c : Dev nD) → (b : Ref sig .tc) → Buf (Elt F) ((c : Thread nD τ).loc b) := fun c b => W17 m ρ c b

def W18 (c : Dev nD) : Valuation τ sig (Elt F) :=
  Pipeline.withArrays spec3 c (W17 m ρ c) fun w => (dat3 (V17 m ρ) c).arrAt w cfg3.N
theorem W18_arr (c : Dev nD) (w : Fin cfg3.W) :
    W18 m ρ c (Proc.devRef .tc (Pipeline.arrRef spec3 w)) = (dat3 (V17 m ρ) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb

abbrev E18 : (c : Dev nD) → (b : Ref sig .tc) → Buf (Elt F) ((c : Thread nD τ).loc b) := fun c b => W18 m ρ c b

theorem hF3 (c : Dev nD) (w : Fin cfg3.W) : (dat3 (V17 m ρ) c).arrAt w cfg3.N = E18 m ρ c (Pipeline.arrRef spec3 w) :=
  (W18_arr m ρ c w).symm
theorem hrest3 (c : Dev nD) : ∀ b, b ∉ Finset.univ.image (Pipeline.arrRef spec3) → E18 m ρ c b = V17 m ρ c b :=
  fun b hb => W18_of_ne m ρ c b fun w e => hb (Finset.mem_image.mpr ⟨w, Finset.mem_univ _, e⟩)

theorem W18_out (c : Dev nD) : W18 m ρ c main_v63 = (dat3 (V17 m ρ) c).arrAt 5 cfg3.N :=
  W18_arr m ρ c 5

theorem in_of_ne3 : ∀ w : Fin cfg3.W, Pipeline.arrRef spec3 w ≠ main_v63 → (cfg3.win w).isOut = false := by
  decide

theorem W18_keep (c : Dev nD) (b : Ref sig .tc) (hb : b ≠ main_v63) : W18 m ρ c b = W17 m ρ c b := by
  by_cases h : ∃ w, Pipeline.arrRef spec3 w = b
  · obtain ⟨w, rfl⟩ := h
    exact (W18_arr m ρ c w).trans (((dat3 (V17 m ρ) c).arrAt_in w (in_of_ne3 w hb) _).trans (A_eq3 (V17 m ρ) c w))
  · exact W18_of_ne m ρ c b fun w e => h ⟨w, e⟩

abbrev W19 : Dev nD → Valuation τ sig (Elt F) := fun c => StableHlo.after hostOps4 (W18 m ρ c)

theorem W19_keep (c : Dev nD) (r : Ref sig .tc) (h : r ∉ hostOps4_W) : W19 m ρ c r = W18 m ρ c r :=
  StableHlo.after_of_writes_sub hostOps4 _ hostOps4_writes h

abbrev mainArgs : List (Ref sig .tc) :=
  [main_arg0, main_arg1, main_arg2, main_arg3, main_arg4, main_arg5, main_arg6, main_arg7, main_arg8, main_arg9, main_arg10]

/-- No host operation writes an argument and no layer's output array is one, so an argument holds at the end what it held at launch. -/
theorem W19_arg (c : Dev nD) (b : Ref sig .tc) (hb : b ∈ mainArgs) : W19 m ρ c b = m ((c : Thread nD τ).loc b) :=
  (W19_keep m ρ c b ((by decide : ∀ b ∈ mainArgs, b ∉ hostOps4_W) b hb)).trans <|
  (W18_keep m ρ c b ((by decide : ∀ b ∈ mainArgs, b ≠ main_v63) b hb)).trans <|
  (W17_keep m ρ c b ((by decide : ∀ b ∈ mainArgs, b ∉ hostOps3_2_W) b hb)).trans <|
  (W16_keep m ρ c b ((by decide : ∀ b ∈ mainArgs, b ∉ hostOps3_1_W) b hb)).trans <|
  (W15_keep m ρ c b ((by decide : ∀ b ∈ mainArgs, b ∉ hostOps3_W) b hb)).trans <|
  (W14_keep m ρ c b ((by decide : ∀ b ∈ mainArgs, b ≠ main_v47) b hb)).trans <|
  (W13_keep m ρ c b ((by decide : ∀ b ∈ mainArgs, b ∉ hostOps2_2_W) b hb)).trans <|
  (W12_keep m ρ c b ((by decide : ∀ b ∈ mainArgs, b ∉ hostOps2_1_W) b hb)).trans <|
  (W11_keep m ρ c b ((by decide : ∀ b ∈ mainArgs, b ∉ hostOps2_W) b hb)).trans <|
  (W10_keep m ρ c b ((by decide : ∀ b ∈ mainArgs, b ≠ main_v37) b hb)).trans <|
  (W9_keep m ρ c b ((by decide : ∀ b ∈ mainArgs, b ∉ hostOps1_2_W) b hb)).trans <|
  (W8_keep m ρ c b ((by decide : ∀ b ∈ mainArgs, b ∉ hostOps1_1_W) b hb)).trans <|
  (W7_keep m ρ c b ((by decide : ∀ b ∈ mainArgs, b ∉ hostOps1_W) b hb)).trans <|
  (W6_keep m ρ c b ((by decide : ∀ b ∈ mainArgs, b ≠ main_v27) b hb)).trans <|
  (W5_keep m ρ c b ((by decide : ∀ b ∈ mainArgs, b ∉ hostOps0_4_W) b hb)).trans <|
  (W4_keep m ρ c b ((by decide : ∀ b ∈ mainArgs, b ∉ hostOps0_3_W) b hb)).trans <|
  (W3_keep m ρ c b ((by decide : ∀ b ∈ mainArgs, b ∉ hostOps0_2_W) b hb)).trans <|
  (W2_keep m ρ c b ((by decide : ∀ b ∈ mainArgs, b ∉ hostOps0_1_W) b hb)).trans <|
  (W1_keep m ρ c b ((by decide : ∀ b ∈ mainArgs, b ∉ hostOps0_W) b hb)).trans rfl

def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V9 m ρ) c
  | ⟨2, _⟩ => fun c => dat2 (V13 m ρ) c
  | ⟨3, _⟩ => fun c => dat3 (V17 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W19 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V5 m ρ) c)
    unfold Pipeline.ΦA
    iintro ⟨Hp, -, Hr⟩
    isplitl [Hr]; · iexact Hr
    iexact Hp
  hout c := by
    rw [Pipeline.ownSems0_none]
    refine BIBase.Entails.trans (hout0 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (E6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V9 m ρ) c)
    unfold Pipeline.ΦA
    iintro ⟨Hp, -, Hr⟩
    isplitl [Hr]; · iexact Hr
    iexact Hp
  hout c := by
    rw [Pipeline.ownSems0_none]
    refine BIBase.Entails.trans (hout1 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (E10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V13 m ρ) c)
    unfold Pipeline.ΦA
    iintro ⟨Hp, -, Hr⟩
    isplitl [Hr]; · iexact Hr
    iexact Hp
  hout c := by
    rw [Pipeline.ownSems0_none]
    refine BIBase.Entails.trans (hout2 (V13 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (E14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V17 m ρ) c).loose
  hwaits := Pipeline.hwaits_of_owed_zero _ _ _ _ L lv 3 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec3 c (V17 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V17 m ρ) c)
    unfold Pipeline.ΦA
    iintro ⟨Hp, -, Hr⟩
    isplitl [Hr]; · iexact Hr
    iexact Hp
  hout c := by
    rw [Pipeline.ownSems0_none]
    refine BIBase.Entails.trans (hout3 (V17 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V17 m ρ c) (E18 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev mainSegs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .region (reg1 m ρ),
    .host (hseg hostOps2 hostOps2_sub hostOps2_fresh (W10 m ρ)),
    .host (hseg hostOps2_1 hostOps2_1_sub hostOps2_1_fresh (W11 m ρ)),
    .host (hseg hostOps2_2 hostOps2_2_sub hostOps2_2_fresh (W12 m ρ)),
    .region (reg2 m ρ),
    .host (hseg hostOps3 hostOps3_sub hostOps3_fresh (W14 m ρ)),
    .host (hseg hostOps3_1 hostOps3_1_sub hostOps3_1_fresh (W15 m ρ)),
    .host (hseg hostOps3_2 hostOps3_2_sub hostOps3_2_fresh (W16 m ρ)),
    .region (reg3 m ρ),
    .host (hseg hostOps4 hostOps4_sub hostOps4_fresh (W18 m ρ)) ]

theorem main_run (c : Dev nD) : main (F := F) c = Pipeline.Seg.run (mainSegs m ρ) := (main_chain c).trans (by chain_rfl)

set_option backward.isDefEq.respectTransparency.types false in

/-- Every weakly fair execution terminates without a fault, with each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W19 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W19 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- A final state with every unscoped buffer at `W19` has the arguments as launched. -/
theorem kept (c : Dev nD) (mem : (ℓ : Loc nD τ sig) → Buf (Elt F) ℓ) (h : ∀ b ∈ Pipeline.ucRefs τ sig, mem ((c : Thread nD τ).1, b) = W19 m ρ c b)
    (b : Ref sig .tc) (hb : b ∈ mainArgs) : mem ((c.tc : Thread nD τ).loc b) = m ((c.tc : Thread nD τ).loc b) :=
  (h _ (mem_uc b ((by decide : ∀ b ∈ mainArgs, ¬(Proc.devRef .tc b : DevRef τ sig).isScoped) b hb))).trans (W19_arg m ρ c b hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs (onTc (τ := τ) (main (F := F))) ⟨m, fun _ => 0, ρ⟩).mono (fun r h c =>
    have k := kept m ρ c r.2.mem (h c)
    ⟨k _ (by decide), k _ (by decide), k _ (by decide), k _ (by decide), k _ (by decide), k _ (by decide), k _ (by decide), k _ (by decide), k _ (by decide), k _ (by decide), k _ (by decide)⟩) (run_all m ρ)

end Cert.KernelIdeal.Hand

end
-- ==== Proof.Spec.lean ====
/- The four-layer network as plain functions on the extended reals: what a layer sums, the layer, and the same on arrays padded with zeros. -/
import Idealize.ShloMosaic.PureOps.Ideal
import Mathlib.Algebra.BigOperators.Group.Finset.Basic

noncomputable section

namespace GinSpec

open Idealize.ShloMosaic

abbrev one : EReal := Ideal.ofBits .f32 0x3F800000#32

def agg (src dst : Fin 640000 → Fin 10000) (h : Fin 10000 → Fin 128 → EReal) (v : Fin 10000) (k : Fin 128) : EReal :=
  ∑ e ∈ Finset.univ.filter (fun e : Fin 640000 => dst e = v), h (src e) k

def lin {C : ℕ} (src dst : Fin 640000 → Fin 10000) (h : Fin 10000 → Fin 128 → EReal)
    (W : Fin 128 → Fin C → EReal) (b : Fin C → EReal) (v : Fin 10000) (j : Fin C) : EReal :=
  (∑ k : Fin 128, (one * h v k + agg src dst h v k) * W k j) + b j

def hid (src dst : Fin 640000 → Fin 10000) (h : Fin 10000 → Fin 128 → EReal)
    (W : Fin 128 → Fin 128 → EReal) (b : Fin 128 → EReal) (v : Fin 10000) (j : Fin 128) : EReal :=
  max (lin src dst h W b v j) 0

def net (src dst : Fin 640000 → Fin 10000) (h0 : Fin 10000 → Fin 128 → EReal)
    (W1 : Fin 128 → Fin 128 → EReal) (b1 : Fin 128 → EReal) (W3 : Fin 128 → Fin 128 → EReal) (b3 : Fin 128 → EReal)
    (W4 : Fin 128 → Fin 128 → EReal) (b4 : Fin 128 → EReal) (W2 : Fin 128 → Fin 64 → EReal) (b2 : Fin 64 → EReal) :
    Fin 10000 → Fin 64 → EReal :=
  lin src dst (hid src dst (hid src dst (hid src dst h0 W1 b1) W3 b3) W4 b4) W2 b2

def klin (A : Fin 10240 → Fin 10240 → EReal) (hb hr : Fin 10240 → Fin 128 → EReal)
    (W : Fin 128 → Fin 128 → EReal) (b : Fin 128 → EReal) (r : Fin 10240) (j : Fin 128) : EReal :=
  (∑ k : Fin 128, (one * hr r k
      + ((0 + ∑ u : Fin 5120, A r ⟨u.val, by omega⟩ * hb ⟨u.val, by omega⟩ k)
          + ∑ u : Fin 5120, A r ⟨5120 + u.val, by omega⟩ * hb ⟨5120 + u.val, by omega⟩ k)) * W k j) + b j

def cnt (src dst : Fin 640000 → Fin 10000) (r u : Fin 10240) : EReal :=
  (((Finset.univ.filter (fun e : Fin 640000 => (dst e).val = r.val ∧ (src e).val = u.val)).card : ℝ) : EReal)

def pad (h : Fin 10000 → Fin 128 → EReal) (r : Fin 10240) (k : Fin 128) : EReal :=
  if hr : r.val < 10000 then h ⟨r.val, hr⟩ k else 0

def padW (W : Fin 128 → Fin 64 → EReal) (k : Fin 128) (j : Fin 128) : EReal :=
  if hj : j.val < 64 then W k ⟨j.val, hj⟩ else 0
def padb (b : Fin 64 → EReal) (j : Fin 128) : EReal :=
  if hj : j.val < 64 then b ⟨j.val, hj⟩ else 0

end GinSpec

end
-- ==== Proof.KI.Mat.lean ====
/- The two matrix products of a layer's body as plain sums on the extended reals. -/
import proofs.«414469_j73718818669208_3_alg».proof.Proof.Gen.KernelIdeal.Skeleton
import proofs.«414469_j73718818669208_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

theorem lhsA_0 (i : S1280x128.Idx) (q : dot_S1280x5120_S5120x128_S1280x128_1_0_0_1_n_n.contr.Idx) :
    (dot_S1280x5120_S5120x128_S1280x128_1_0_0_1_n_n.lhsIdx i q 0).val = (i 0).val := by
  unfold DotDims.lhsIdx
  rw [dif_neg (show ¬(0 : Fin S1280x5120.rank) ∈ dot_S1280x5120_S5120x128_S1280x128_1_0_0_1_n_n.lhsBatch by decide), dif_pos (show (0 : Fin S1280x5120.rank) ∈ dot_S1280x5120_S5120x128_S1280x128_1_0_0_1_n_n.lhsNonContracting by decide)]
  rfl

theorem lhsA_1 (i : S1280x128.Idx) (q : dot_S1280x5120_S5120x128_S1280x128_1_0_0_1_n_n.contr.Idx) :
    (dot_S1280x5120_S5120x128_S1280x128_1_0_0_1_n_n.lhsIdx i q 1).val = (q ⟨0, by decide⟩).val :=
  dot_S1280x5120_S5120x128_S1280x128_1_0_0_1_n_n.lhsIdx_val_of_single rfl i q

theorem rhsA_0 (i : S1280x128.Idx) (q : dot_S1280x5120_S5120x128_S1280x128_1_0_0_1_n_n.contr.Idx) :
    (dot_S1280x5120_S5120x128_S1280x128_1_0_0_1_n_n.rhsIdx i q 0).val = (q ⟨0, by decide⟩).val :=
  dot_S1280x5120_S5120x128_S1280x128_1_0_0_1_n_n.rhsIdx_val_of_single rfl i q

theorem rhsA_1 (i : S1280x128.Idx) (q : dot_S1280x5120_S5120x128_S1280x128_1_0_0_1_n_n.contr.Idx) :
    (dot_S1280x5120_S5120x128_S1280x128_1_0_0_1_n_n.rhsIdx i q 1).val = (i 1).val := by
  unfold DotDims.rhsIdx
  rw [dif_neg (show ¬(1 : Fin S5120x128.rank) ∈ dot_S1280x5120_S5120x128_S1280x128_1_0_0_1_n_n.rhsBatch by decide), dif_pos (show (1 : Fin S5120x128.rank) ∈ dot_S1280x5120_S5120x128_S1280x128_1_0_0_1_n_n.rhsNonContracting by decide)]
  rfl

/-- A count tile times 5120 feature rows into a zero accumulator, entry by entry: the sum over the tile's columns. -/
theorem matA_apply (a : FVec Ideal S1280x5120 .bf16) (hs : FVec Ideal S5120x128 .bf16) (p : Fin 1280) (q : Fin 128) :
    matmul dot_S1280x5120_S5120x128_S1280x128_1_0_0_1_n_n none a hs (constant (F := Ideal) S1280x128 .f32 0x00000000#32) (ix2 p q)
      = ∑ u : Fin 5120, a (ix2 p u) * hs (ix2 u q) := by
  simp only [matmul]
  rw [Ideal.matmul_constant_zero_apply, ← Equiv.sum_comp (ValueIdx.contrEquiv1 dot_S1280x5120_S5120x128_S1280x128_1_0_0_1_n_n 5120 rfl rfl).symm]
  refine Finset.sum_congr rfl fun k _ => ?_
  have hk := ValueIdx.contrEquiv1_symm_val dot_S1280x5120_S5120x128_S1280x128_1_0_0_1_n_n 5120 rfl rfl k
  have el : dot_S1280x5120_S5120x128_S1280x128_1_0_0_1_n_n.lhsIdx (ix2 p q) ((ValueIdx.contrEquiv1 dot_S1280x5120_S5120x128_S1280x128_1_0_0_1_n_n 5120 rfl rfl).symm k) = ix2 p k := funext fun a => Fin.ext (by
    match a with
    | ⟨0, _⟩ => exact lhsA_0 _ _
    | ⟨1, _⟩ => exact (lhsA_1 _ _).trans hk)
  have er : dot_S1280x5120_S5120x128_S1280x128_1_0_0_1_n_n.rhsIdx (ix2 p q) ((ValueIdx.contrEquiv1 dot_S1280x5120_S5120x128_S1280x128_1_0_0_1_n_n 5120 rfl rfl).symm k) = ix2 k q := funext fun a => Fin.ext (by
    match a with
    | ⟨0, _⟩ => exact (rhsA_0 _ _).trans hk
    | ⟨1, _⟩ => exact rhsA_1 _ _)
  rw [el, er]

theorem lhsW_0 (i : S1280x128.Idx) (q : dot_S1280x128_S128x128_S1280x128_1_0_0_1_n_n.contr.Idx) :
    (dot_S1280x128_S128x128_S1280x128_1_0_0_1_n_n.lhsIdx i q 0).val = (i 0).val := by
  unfold DotDims.lhsIdx
  rw [dif_neg (show ¬(0 : Fin S1280x128.rank) ∈ dot_S1280x128_S128x128_S1280x128_1_0_0_1_n_n.lhsBatch by decide), dif_pos (show (0 : Fin S1280x128.rank) ∈ dot_S1280x128_S128x128_S1280x128_1_0_0_1_n_n.lhsNonContracting by decide)]
  rfl

theorem lhsW_1 (i : S1280x128.Idx) (q : dot_S1280x128_S128x128_S1280x128_1_0_0_1_n_n.contr.Idx) :
    (dot_S1280x128_S128x128_S1280x128_1_0_0_1_n_n.lhsIdx i q 1).val = (q ⟨0, by decide⟩).val :=
  dot_S1280x128_S128x128_S1280x128_1_0_0_1_n_n.lhsIdx_val_of_single rfl i q

theorem rhsW_0 (i : S1280x128.Idx) (q : dot_S1280x128_S128x128_S1280x128_1_0_0_1_n_n.contr.Idx) :
    (dot_S1280x128_S128x128_S1280x128_1_0_0_1_n_n.rhsIdx i q 0).val = (q ⟨0, by decide⟩).val :=
  dot_S1280x128_S128x128_S1280x128_1_0_0_1_n_n.rhsIdx_val_of_single rfl i q

theorem rhsW_1 (i : S1280x128.Idx) (q : dot_S1280x128_S128x128_S1280x128_1_0_0_1_n_n.contr.Idx) :
    (dot_S1280x128_S128x128_S1280x128_1_0_0_1_n_n.rhsIdx i q 1).val = (i 1).val := by
  unfold DotDims.rhsIdx
  rw [dif_neg (show ¬(1 : Fin S128x128.rank) ∈ dot_S1280x128_S128x128_S1280x128_1_0_0_1_n_n.rhsBatch by decide), dif_pos (show (1 : Fin S128x128.rank) ∈ dot_S1280x128_S128x128_S1280x128_1_0_0_1_n_n.rhsNonContracting by decide)]
  rfl

/-- A block times the weights into a zero accumulator, entry by entry: the sum over the 128 features. -/
theorem matW_apply (z : FVec Ideal S1280x128 .bf16) (w : FVec Ideal S128x128 .bf16) (p : Fin 1280) (q : Fin 128) :
    matmul dot_S1280x128_S128x128_S1280x128_1_0_0_1_n_n none z w (constant (F := Ideal) S1280x128 .f32 0x00000000#32) (ix2 p q)
      = ∑ k : Fin 128, z (ix2 p k) * w (ix2 k q) := by
  simp only [matmul]
  rw [Ideal.matmul_constant_zero_apply, ← Equiv.sum_comp (ValueIdx.contrEquiv1 dot_S1280x128_S128x128_S1280x128_1_0_0_1_n_n 128 rfl rfl).symm]
  refine Finset.sum_congr rfl fun k _ => ?_
  have hk := ValueIdx.contrEquiv1_symm_val dot_S1280x128_S128x128_S1280x128_1_0_0_1_n_n 128 rfl rfl k
  have el : dot_S1280x128_S128x128_S1280x128_1_0_0_1_n_n.lhsIdx (ix2 p q) ((ValueIdx.contrEquiv1 dot_S1280x128_S128x128_S1280x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S1280x128_S128x128_S1280x128_1_0_0_1_n_n.rhsIdx (ix2 p q) ((ValueIdx.contrEquiv1 dot_S1280x128_S128x128_S1280x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

theorem bias_apply (b : Vec Ideal S1x128 .f32) (p : Fin 1280) (q : Fin 128) :
    broadcastTo S1280x128 b broadcasts_S1x128_S1280x128 (ix2 p q) = b (ix2 (0 : Fin 1) q) :=
  broadcastTo_1b_ab_apply b broadcasts_S1x128_S1280x128 p q

end Cert.KernelIdeal.Hand

end
-- ==== Proof.KI.Pay0.lean ====
/- The body's arithmetic at an entry, on the extended reals. -/
import proofs.«414469_j73718818669208_3_alg».proof.Proof.KI.Mat
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- The reduction step at an entry: the accumulator there plus the sum over the tile's columns. -/
theorem pay0_2_apply (hs : Vec Ideal S5120x128 .bf16) (acc : Vec Ideal S1280x128 .f32) (a : Vec Ideal S1280x5120 .bf16)
    (p : Fin 1280) (q : Fin 128) :
    k0_pay2 (F := Ideal) hs acc a (ix2 p q) = acc (ix2 p q) + ∑ u : Fin 5120, a (ix2 p u) * hs (ix2 u q) := by
  unfold k0_pay2
  simp only [shapeCast_self]
  rw [addf_apply, matA_apply]

theorem pay0_1_apply (p : Fin 1280) (q : Fin 128) : k0_pay1 (F := Ideal) (ix2 p q) = 0 := by
  unfold k0_pay1
  simp only [shapeCast_self]
  exact Ideal.ofBits_zero_f32

/-- The output tile at an entry. -/
theorem pay0_3_apply (x : Vec Ideal S1280x128 .f32) (acc : Vec Ideal S1280x128 .f32) (w : Vec Ideal S128x128 .bf16)
    (b : Vec Ideal S1x128 .f32) (p : Fin 1280) (q : Fin 128) :
    k0_pay3 (F := Ideal) x acc w b (ix2 p q)
      = max ((∑ k : Fin 128, (GinSpec.one * x (ix2 p k) + acc (ix2 p k)) * w (ix2 k q)) + b (ix2 (0 : Fin 1) q)) 0 := by
  unfold k0_pay3
  simp only [shapeCast_self]
  rw [maximumf_apply, addf_apply, matW_apply, bias_apply, broadcast_apply]
  simp only [truncf_apply, addf_apply, mulf_apply, broadcast_apply]
  exact congrArg (max _) Ideal.ofBits_zero_f32

end Cert.KernelIdeal.Hand

end
-- ==== Proof.KI.Value0.lean ====
/- Row tile by row tile, a layer's output array ends as the layer's function of the arrays it starts from. -/
import proofs.«414469_j73718818669208_3_alg».proof.Proof.KI.Reg0
import proofs.«414469_j73718818669208_3_alg».proof.Proof.KI.Pay0
import proofs.«414469_j73718818669208_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem idx_facts0 : ∀ t : Fin cfg0.N, win0_0.index t (0 : Fin 2) = t.val / 2 ∧ win0_0.index t (1 : Fin 2) = t.val % 2
    ∧ win0_1.index t (0 : Fin 2) = 0 ∧ win0_1.index t (1 : Fin 2) = 0
    ∧ win0_2.index t (0 : Fin 2) = t.val / 2 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 2 ∧ win0_5.index t (1 : Fin 2) = 0
    ∧ k0_off1 (grid0.coords t) (0 : Fin 2) = 5120 * (t.val % 2) ∧ k0_off1 (grid0.coords t) (1 : Fin 2) = 0 :=
  (by decide +kernel : ∀ t : Fin grid0.N, _)

section Acc
open Idealize.ShloMosaic.Tactic
variable {F : FTy → Type} [FloatOps F] (V : (c : Dev nD) → (b : Ref sig .tc) → Buf (Elt F) ((c : Thread nD τ).loc b)) (c : Dev nD)

theorem after0_5 (t : Fin cfg0.N) : (dat0 V c).after 5 t = (outsAt0 V c t.val t.isLt).1 := by dsimp only [dat0]

theorem zeroOff0 : (![0, 0] : Fin 2 → ℕ) = fun _ => 0 := by
  funext a; fin_cases a <;> rfl

/-- An even point leaves the accumulator at zeros + (count tile) x (feature rows), -/
theorem acc0_even (t : Fin cfg0.N) (h : t.val % 2 = 0) :
    (outsAt0 V c t.val t.isLt).2 = k0_pay2 (View.ld (hblk0 V c t) (hrect0 t)) (k0_pay1 (F := F)) (ablk0 V c t) := by
  rw [outsAt0_even V c t h]; unfold outA0; dsimp only
  rw [View.read_writes_eq_canon _ _ _ (scoverA0 V c t h)]
  unfold runA0 kernelRunA0
  dsimp only
  sl_unfold_run_names
  rw [View.canon_cons_unit_zero (S := S1280x128) zeroOff0]
  simp only [View.readAt_eq_ld, Memref.IsWhole.read_unread, View.ld_unit_zero (S := S1280x5120) zeroOff0, View.ld_unit_zero (S := S1280x128) zeroOff0, View.ld_unit_zero (S := S128x128) zeroOff0, View.ld_unit_zero (S := S1x128) zeroOff0, View.readCov_unit_zero (S := S1280x128) _ zeroOff0]

/-- an odd point adds its (count tile) x (feature rows) to it -/
theorem acc0_odd (t : Fin cfg0.N) (h : t.val % 2 = 1) :
    (outsAt0 V c t.val t.isLt).2 = k0_pay2 (View.ld (hblk0 V c t) (hrect0 t)) ((outsAt0 V c (t.val - 1) (Nat.lt_of_le_of_lt (Nat.sub_le _ _) t.isLt)).2) (ablk0 V c t) := by
  rw [outsAt0_odd V c t h]; unfold outB0; dsimp only
  rw [View.read_writes_eq_canon _ _ _ (scoverB0 V c t h _)]
  unfold runB0 kernelRunB0
  dsimp only
  sl_unfold_run_names
  rw [View.canon_unit_zero (S := S1280x128) zeroOff0]
  simp only [View.readAt_eq_ld, Memref.IsWhole.read_unread, View.ld_unit_zero (S := S1280x5120) zeroOff0, View.ld_unit_zero (S := S1280x128) zeroOff0, View.ld_unit_zero (S := S128x128) zeroOff0, View.ld_unit_zero (S := S1x128) zeroOff0]
  exact congrArg (fun z => k0_pay2 (View.ld (hblk0 V c t) (hrect0 t)) z (ablk0 V c t)) ((Memref.isWhole_whole cc0_scratch0).read_unread _)

/-- and computes the output tile from the feature row tile, that sum, the weights and the bias. -/
theorem out0_odd (t : Fin cfg0.N) (h : t.val % 2 = 1) :
    (outsAt0 V c t.val t.isLt).1 = k0_pay3 (xblk0 V c t) ((outsAt0 V c t.val t.isLt).2) (wblk0 V c t) (bblk0 V c t) := by
  rw [outsAt0_odd V c t h]; unfold outB0; dsimp only
  rw [View.read_writes_eq_canon _ _ _ (coverB0 V c t h _), View.read_writes_eq_canon _ _ _ (scoverB0 V c t h _)]
  unfold runB0 kernelRunB0
  dsimp only
  sl_unfold_run_names
  simp only [View.canon_unit_zero (S := S1280x128) zeroOff0, View.readAt_eq_ld, Memref.IsWhole.read_unread, View.ld_unit_zero (S := S1280x5120) zeroOff0, View.ld_unit_zero (S := S1280x128) zeroOff0, View.ld_unit_zero (S := S128x128) zeroOff0, View.ld_unit_zero (S := S1x128) zeroOff0, View.readCov_unit_zero (S := S1280x128) _ zeroOff0]

end Acc

section Region

variable (V : (c : Dev nD) → (b : Ref sig .tc) → Buf (Elt Ideal) ((c : Thread nD τ).loc b))

abbrev aarr0 (c : Dev nD) : Vec Ideal S10240x10240 .bf16 := V c (Pipeline.arrRef spec0 0)
abbrev harr0 (c : Dev nD) : Vec Ideal S10240x128 .bf16 := V c (Pipeline.arrRef spec0 1)
abbrev xarr0 (c : Dev nD) : Vec Ideal S10240x128 .f32 := V c (Pipeline.arrRef spec0 2)
abbrev warr0 (c : Dev nD) : Vec Ideal S128x128 .bf16 := V c (Pipeline.arrRef spec0 3)
abbrev barr0 (c : Dev nD) : Vec Ideal S1x128 .f32 := V c (Pipeline.arrRef spec0 4)

abbrev lay0 (c : Dev nD) (r : Fin 10240) (j : Fin 128) : EReal :=
  max (GinSpec.klin (fun r u => aarr0 V c (ix2 r u)) (fun r k => harr0 V c (ix2 r k)) (fun r k => xarr0 V c (ix2 r k))
        (fun k j => warr0 V c (ix2 k j)) (fun j => barr0 V c (ix2 (0 : Fin 1) j)) r j) 0

abbrev out0 (c : Dev nD) : Vec Ideal S10240x128 .f32 := fun i => lay0 V c (i 0) (i 1)

theorem ablk0_apply (c : Dev nD) (t : Fin cfg0.N) (p : Fin 1280) (u : Fin 5120) (r v : Fin 10240)
    (hr : r.val = 1280 * (t.val / 2) + p.val) (hv : v.val = 5120 * (t.val % 2) + u.val) :
    ablk0 V c t (ix2 p u) = aarr0 V c (ix2 r v) := by
  obtain ⟨e0, e1, -⟩ := idx_facts0 t
  show ((cfg0.win 0).blk t).view.read (Elt Ideal) (V c (Pipeline.arrRef spec0 0)) (ix2 p u) = _
  rw [View.read_apply]
  show V c (Pipeline.arrRef spec0 0) _ = V c (Pipeline.arrRef spec0 0) _
  congr 1
  funext a
  apply Fin.ext
  match a with
  | ⟨0, _⟩ => show win0_0.index t (0 : Fin 2) * 1280 + 1 * p.val = r.val; omega
  | ⟨1, _⟩ => show win0_0.index t (1 : Fin 2) * 5120 + 1 * u.val = v.val; omega

theorem hblk0_eq (c : Dev nD) (t : Fin cfg0.N) : hblk0 V c t = harr0 V c := by
  obtain ⟨-, -, e0, e1, -⟩ := idx_facts0 t
  funext y
  show ((cfg0.win 1).blk t).view.read (Elt Ideal) (V c (Pipeline.arrRef spec0 1)) y = _
  rw [View.read_apply]
  show V c (Pipeline.arrRef spec0 1) _ = V c (Pipeline.arrRef spec0 1) _
  congr 1
  funext a
  apply Fin.ext
  match a with
  | ⟨0, _⟩ => show win0_1.index t (0 : Fin 2) * 10240 + 1 * (y 0).val = (y 0).val; omega
  | ⟨1, _⟩ => show win0_1.index t (1 : Fin 2) * 128 + 1 * (y 1).val = (y 1).val; omega

theorem hrows0_apply (X : Vec Ideal S10240x128 .bf16) (t : Fin cfg0.N) (u : Fin 5120) (q : Fin 128) (r : Fin 10240)
    (hr : r.val = 5120 * (t.val % 2) + u.val) :
    View.ld X (hrect0 t) (ix2 u q) = X (ix2 r q) := by
  obtain ⟨-, -, -, -, -, -, -, -, -, -, -, -, e0, e1⟩ := idx_facts0 t
  show X ((hrect0 t).idx (ix2 u q)) = X (ix2 r q)
  congr 1
  funext a
  apply Fin.ext
  match a with
  | ⟨0, _⟩ => show k0_off1 (grid0.coords t) (0 : Fin 2) + 1 * u.val = r.val; omega
  | ⟨1, _⟩ => show k0_off1 (grid0.coords t) (1 : Fin 2) + 1 * q.val = q.val; omega

theorem xblk0_apply (c : Dev nD) (t : Fin cfg0.N) (p : Fin 1280) (k : Fin 128) (r : Fin 10240)
    (hr : r.val = 1280 * (t.val / 2) + p.val) :
    xblk0 V c t (ix2 p k) = xarr0 V c (ix2 r k) := by
  obtain ⟨-, -, -, -, e0, e1, -⟩ := idx_facts0 t
  show ((cfg0.win 2).blk t).view.read (Elt Ideal) (V c (Pipeline.arrRef spec0 2)) (ix2 p k) = _
  rw [View.read_apply]
  show V c (Pipeline.arrRef spec0 2) _ = V c (Pipeline.arrRef spec0 2) _
  congr 1
  funext a
  apply Fin.ext
  match a with
  | ⟨0, _⟩ => show win0_2.index t (0 : Fin 2) * 1280 + 1 * p.val = r.val; omega
  | ⟨1, _⟩ => show win0_2.index t (1 : Fin 2) * 128 + 1 * k.val = k.val; omega

theorem wblk0_eq (c : Dev nD) (t : Fin cfg0.N) : wblk0 V c t = warr0 V c := by
  obtain ⟨-, -, -, -, -, -, e0, e1, -⟩ := idx_facts0 t
  funext y
  show ((cfg0.win 3).blk t).view.read (Elt Ideal) (V c (Pipeline.arrRef spec0 3)) y = _
  rw [View.read_apply]
  show V c (Pipeline.arrRef spec0 3) _ = V c (Pipeline.arrRef spec0 3) _
  congr 1
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem bblk0_eq (c : Dev nD) (t : Fin cfg0.N) : bblk0 V c t = barr0 V c := by
  obtain ⟨-, -, -, -, -, -, -, -, e0, e1, -⟩ := idx_facts0 t
  funext y
  show ((cfg0.win 4).blk t).view.read (Elt Ideal) (V c (Pipeline.arrRef spec0 4)) y = _
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem acc0_even_apply (c : Dev nD) (t : Fin cfg0.N) (h : t.val % 2 = 0) (p : Fin 1280) (q : Fin 128) (r : Fin 10240)
    (hr : r.val = 1280 * (t.val / 2) + p.val) :
    (outsAt0 V c t.val t.isLt).2 (ix2 p q)
      = 0 + ∑ u : Fin 5120, aarr0 V c (ix2 r ⟨u.val, by omega⟩) * harr0 V c (ix2 ⟨u.val, by omega⟩ q) := by
  refine (congrFun (acc0_even V c t h) (ix2 p q)).trans ?_
  refine (pay0_2_apply (View.ld (hblk0 V c t) (hrect0 t)) (k0_pay1 (F := Ideal)) (ablk0 V c t) p q).trans ?_
  rw [pay0_1_apply]
  refine congrArg (fun s => (0 : EReal) + s) (Finset.sum_congr rfl fun u _ => ?_)
  rw [ablk0_apply V c t p u r ⟨u.val, by omega⟩ hr (by show u.val = 5120 * (t.val % 2) + u.val; omega), hblk0_eq V c t,
    hrows0_apply (harr0 V c) t u q ⟨u.val, by omega⟩ (by show u.val = 5120 * (t.val % 2) + u.val; omega)]

theorem acc0_odd_apply (c : Dev nD) (t : Fin cfg0.N) (h : t.val % 2 = 1) (p : Fin 1280) (q : Fin 128) (r : Fin 10240)
    (hr : r.val = 1280 * (t.val / 2) + p.val) :
    (outsAt0 V c t.val t.isLt).2 (ix2 p q)
      = (0 + ∑ u : Fin 5120, aarr0 V c (ix2 r ⟨u.val, by omega⟩) * harr0 V c (ix2 ⟨u.val, by omega⟩ q))
        + ∑ u : Fin 5120, aarr0 V c (ix2 r ⟨5120 + u.val, by omega⟩) * harr0 V c (ix2 ⟨5120 + u.val, by omega⟩ q) := by
  refine (congrFun (acc0_odd V c t h) (ix2 p q)).trans ?_
  refine (pay0_2_apply (View.ld (hblk0 V c t) (hrect0 t))
    ((outsAt0 V c (t.val - 1) (Nat.lt_of_le_of_lt (Nat.sub_le _ _) t.isLt)).2) (ablk0 V c t) p q).trans ?_
  refine congrArg₂ (fun x y : EReal => x + y)
    (acc0_even_apply V c ⟨t.val - 1, Nat.lt_of_le_of_lt (Nat.sub_le _ _) t.isLt⟩ (by show (t.val - 1) % 2 = 0; omega) p q r
      (by show r.val = 1280 * ((t.val - 1) / 2) + p.val; omega))
    (Finset.sum_congr rfl fun u _ => ?_)
  rw [ablk0_apply V c t p u r ⟨5120 + u.val, by omega⟩ hr (by show 5120 + u.val = 5120 * (t.val % 2) + u.val; omega), hblk0_eq V c t,
    hrows0_apply (harr0 V c) t u q ⟨5120 + u.val, by omega⟩ (by show 5120 + u.val = 5120 * (t.val % 2) + u.val; omega)]

theorem out0_odd_apply (c : Dev nD) (t : Fin cfg0.N) (h : t.val % 2 = 1) (p : Fin 1280) (q : Fin 128) (r : Fin 10240)
    (hr : r.val = 1280 * (t.val / 2) + p.val) :
    (outsAt0 V c t.val t.isLt).1 (ix2 p q) = lay0 V c r q := by
  refine (congrFun (out0_odd V c t h) (ix2 p q)).trans ?_
  refine (pay0_3_apply (xblk0 V c t) ((outsAt0 V c t.val t.isLt).2) (wblk0 V c t) (bblk0 V c t) p q).trans ?_
  rw [wblk0_eq V c t, bblk0_eq V c t]
  refine congrArg (fun s : EReal => max s 0) ?_
  unfold GinSpec.klin
  refine congrArg₂ (fun x y : EReal => x + y) (Finset.sum_congr rfl fun k _ => ?_) rfl
  rw [xblk0_apply V c t p k r hr, acc0_odd_apply V c t h p k r hr]

theorem flushed0_eq (c : Dev nD) (t : Fin cfg0.N) (hf : (cfg0.win 5).flush t = true) :
    (dat0 V c).flushed 5 t = ((cfg0.win 5).blk t).view.read (Elt Ideal) (out0 V c) := by
  have h : t.val % 2 = 1 := (flush0_5 t).mp hf
  have hN : cfg0.N = 16 := N_0
  have ht : t.val < cfg0.N := t.isLt
  obtain ⟨-, -, -, -, -, -, -, -, -, -, e0, e1, -⟩ := idx_facts0 t
  show (cfg0.win 5).cut (grid0.coords t) ((dat0 V c).after 5 t) = _
  rw [after0_5]
  refine funext fun (j : S1280x128.Idx) => ?_
  obtain ⟨p, q, rfl⟩ : ∃ (p : Fin 1280) (q : Fin 128), j = ix2 p q := ⟨j 0, j 1, eq_ix2 j⟩
  rw [View.read_apply]
  show (outsAt0 V c t.val t.isLt).1 (ix2 p q) = out0 V c (((cfg0.win 5).blk t).view.emb (ix2 p q))
  rw [out0_odd_apply V c t h p q ⟨1280 * (t.val / 2) + p.val, by omega⟩ rfl]
  show lay0 V c _ _ = lay0 V c _ _
  congr 1
  · apply Fin.ext
    show 1280 * (t.val / 2) + p.val = win0_5.index t (0 : Fin 2) * 1280 + 1 * p.val
    omega
  · apply Fin.ext
    show q.val = win0_5.index t (1 : Fin 2) * 128 + 1 * q.val
    omega

theorem mem_blk0 (t : Fin cfg0.N) (i : S10240x128.Idx) :
    i ∈ ((cfg0.win 5).blk t).view.set ↔ ∀ a : Fin 2, win0_5.index t a * S1280x128.size a ≤ (i a).val ∧ (i a).val < win0_5.index t a * S1280x128.size a + S1280x128.size a := by
  show i ∈ ((View.whole (Pipeline.arrRef spec0 5)).slice (win0_5.rect t)).set ↔ _
  rw [View.set_slice_whole, Rect.mem_set_unit]
  exact Iff.rfl

theorem cover0 (i : S10240x128.Idx) : ∃ t : Fin cfg0.N, (cfg0.win 5).flush t = true ∧ i ∈ ((cfg0.win 5).blk t).view.set := by
  have hi0 : (i 0).val < 10240 := (i 0).isLt
  have hi1 : (i 1).val < 128 := (i 1).isLt
  have hN : cfg0.N = 16 := N_0
  obtain ⟨t, ht⟩ : ∃ t : Fin cfg0.N, t.val = 2 * ((i 0).val / 1280) + 1 := ⟨⟨2 * ((i 0).val / 1280) + 1, by omega⟩, rfl⟩
  obtain ⟨-, -, -, -, -, -, -, -, -, -, e0, e1, -⟩ := idx_facts0 t
  refine ⟨t, (flush0_5 t).mpr (by omega), ?_⟩
  rw [mem_blk0]
  intro a
  match a with
  | ⟨0, _⟩ => show win0_5.index t (0 : Fin 2) * 1280 ≤ (i 0).val ∧ (i 0).val < win0_5.index t (0 : Fin 2) * 1280 + 1280; omega
  | ⟨1, _⟩ => show win0_5.index t (1 : Fin 2) * 128 ≤ (i 1).val ∧ (i 1).val < win0_5.index t (1 : Fin 2) * 128 + 128; omega

theorem final0 (c : Dev nD) : (dat0 V c).arrAt 5 cfg0.N = out0 V c :=
  (dat0 V c).arrAt_eq_of_cover 5 (out0 V c) (flushed0_eq V c) cover0

theorem arrAt0_out (c : Dev nD) (r : Fin 10240) (j : Fin 128) :
    (dat0 (F := Ideal) V c).arrAt 5 cfg0.N (ValueIdx.ix2 r j)
      = max (GinSpec.klin (fun r u => V c (Pipeline.arrRef spec0 0) (ValueIdx.ix2 r u)) (fun r k => V c (Pipeline.arrRef spec0 1) (ValueIdx.ix2 r k))
               (fun r k => V c (Pipeline.arrRef spec0 2) (ValueIdx.ix2 r k)) (fun k j => V c (Pipeline.arrRef spec0 3) (ValueIdx.ix2 k j))
               (fun j => V c (Pipeline.arrRef spec0 4) (ValueIdx.ix2 (0 : Fin 1) j)) r j) 0 :=
  congrFun (final0 V c) (ix2 r j)

end Region

end Cert.KernelIdeal.Hand

end
-- ==== Proof.KI.Pay1.lean ====
/- The body's arithmetic at an entry, on the extended reals. -/
import proofs.«414469_j73718818669208_3_alg».proof.Proof.KI.Mat
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- The reduction step at an entry: the accumulator there plus the sum over the tile's columns. -/
theorem pay1_2_apply (hs : Vec Ideal S5120x128 .bf16) (acc : Vec Ideal S1280x128 .f32) (a : Vec Ideal S1280x5120 .bf16)
    (p : Fin 1280) (q : Fin 128) :
    k1_pay2 (F := Ideal) hs acc a (ix2 p q) = acc (ix2 p q) + ∑ u : Fin 5120, a (ix2 p u) * hs (ix2 u q) := by
  unfold k1_pay2
  simp only [shapeCast_self]
  rw [addf_apply, matA_apply]

theorem pay1_1_apply (p : Fin 1280) (q : Fin 128) : k1_pay1 (F := Ideal) (ix2 p q) = 0 := by
  unfold k1_pay1
  simp only [shapeCast_self]
  exact Ideal.ofBits_zero_f32

/-- The output tile at an entry. -/
theorem pay1_3_apply (x : Vec Ideal S1280x128 .f32) (acc : Vec Ideal S1280x128 .f32) (w : Vec Ideal S128x128 .bf16)
    (b : Vec Ideal S1x128 .f32) (p : Fin 1280) (q : Fin 128) :
    k1_pay3 (F := Ideal) x acc w b (ix2 p q)
      = max ((∑ k : Fin 128, (GinSpec.one * x (ix2 p k) + acc (ix2 p k)) * w (ix2 k q)) + b (ix2 (0 : Fin 1) q)) 0 := by
  unfold k1_pay3
  simp only [shapeCast_self]
  rw [maximumf_apply, addf_apply, matW_apply, bias_apply, broadcast_apply]
  simp only [truncf_apply, addf_apply, mulf_apply, broadcast_apply]
  exact congrArg (max _) Ideal.ofBits_zero_f32

end Cert.KernelIdeal.Hand

end
-- ==== Proof.KI.Value1.lean ====
/- Row tile by row tile, a layer's output array ends as the layer's function of the arrays it starts from. -/
import proofs.«414469_j73718818669208_3_alg».proof.Proof.KI.Reg1
import proofs.«414469_j73718818669208_3_alg».proof.Proof.KI.Pay1
import proofs.«414469_j73718818669208_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem idx_facts1 : ∀ t : Fin cfg1.N, win1_0.index t (0 : Fin 2) = t.val / 2 ∧ win1_0.index t (1 : Fin 2) = t.val % 2
    ∧ win1_1.index t (0 : Fin 2) = 0 ∧ win1_1.index t (1 : Fin 2) = 0
    ∧ win1_2.index t (0 : Fin 2) = t.val / 2 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 2 ∧ win1_5.index t (1 : Fin 2) = 0
    ∧ k1_off1 (grid1.coords t) (0 : Fin 2) = 5120 * (t.val % 2) ∧ k1_off1 (grid1.coords t) (1 : Fin 2) = 0 :=
  (by decide +kernel : ∀ t : Fin grid1.N, _)

section Acc
open Idealize.ShloMosaic.Tactic
variable {F : FTy → Type} [FloatOps F] (V : (c : Dev nD) → (b : Ref sig .tc) → Buf (Elt F) ((c : Thread nD τ).loc b)) (c : Dev nD)

theorem after1_5 (t : Fin cfg1.N) : (dat1 V c).after 5 t = (outsAt1 V c t.val t.isLt).1 := by dsimp only [dat1]

theorem zeroOff1 : (![0, 0] : Fin 2 → ℕ) = fun _ => 0 := by
  funext a; fin_cases a <;> rfl

/-- An even point leaves the accumulator at zeros + (count tile) x (feature rows), -/
theorem acc1_even (t : Fin cfg1.N) (h : t.val % 2 = 0) :
    (outsAt1 V c t.val t.isLt).2 = k1_pay2 (View.ld (hblk1 V c t) (hrect1 t)) (k1_pay1 (F := F)) (ablk1 V c t) := by
  rw [outsAt1_even V c t h]; unfold outA1; dsimp only
  rw [View.read_writes_eq_canon _ _ _ (scoverA1 V c t h)]
  unfold runA1 kernelRunA1
  dsimp only
  sl_unfold_run_names
  rw [View.canon_cons_unit_zero (S := S1280x128) zeroOff1]
  simp only [View.readAt_eq_ld, Memref.IsWhole.read_unread, View.ld_unit_zero (S := S1280x5120) zeroOff1, View.ld_unit_zero (S := S1280x128) zeroOff1, View.ld_unit_zero (S := S128x128) zeroOff1, View.ld_unit_zero (S := S1x128) zeroOff1, View.readCov_unit_zero (S := S1280x128) _ zeroOff1]

/-- an odd point adds its (count tile) x (feature rows) to it -/
theorem acc1_odd (t : Fin cfg1.N) (h : t.val % 2 = 1) :
    (outsAt1 V c t.val t.isLt).2 = k1_pay2 (View.ld (hblk1 V c t) (hrect1 t)) ((outsAt1 V c (t.val - 1) (Nat.lt_of_le_of_lt (Nat.sub_le _ _) t.isLt)).2) (ablk1 V c t) := by
  rw [outsAt1_odd V c t h]; unfold outB1; dsimp only
  rw [View.read_writes_eq_canon _ _ _ (scoverB1 V c t h _)]
  unfold runB1 kernelRunB1
  dsimp only
  sl_unfold_run_names
  rw [View.canon_unit_zero (S := S1280x128) zeroOff1]
  simp only [View.readAt_eq_ld, Memref.IsWhole.read_unread, View.ld_unit_zero (S := S1280x5120) zeroOff1, View.ld_unit_zero (S := S1280x128) zeroOff1, View.ld_unit_zero (S := S128x128) zeroOff1, View.ld_unit_zero (S := S1x128) zeroOff1]
  exact congrArg (fun z => k1_pay2 (View.ld (hblk1 V c t) (hrect1 t)) z (ablk1 V c t)) ((Memref.isWhole_whole cc1_scratch0).read_unread _)

/-- and computes the output tile from the feature row tile, that sum, the weights and the bias. -/
theorem out1_odd (t : Fin cfg1.N) (h : t.val % 2 = 1) :
    (outsAt1 V c t.val t.isLt).1 = k1_pay3 (xblk1 V c t) ((outsAt1 V c t.val t.isLt).2) (wblk1 V c t) (bblk1 V c t) := by
  rw [outsAt1_odd V c t h]; unfold outB1; dsimp only
  rw [View.read_writes_eq_canon _ _ _ (coverB1 V c t h _), View.read_writes_eq_canon _ _ _ (scoverB1 V c t h _)]
  unfold runB1 kernelRunB1
  dsimp only
  sl_unfold_run_names
  simp only [View.canon_unit_zero (S := S1280x128) zeroOff1, View.readAt_eq_ld, Memref.IsWhole.read_unread, View.ld_unit_zero (S := S1280x5120) zeroOff1, View.ld_unit_zero (S := S1280x128) zeroOff1, View.ld_unit_zero (S := S128x128) zeroOff1, View.ld_unit_zero (S := S1x128) zeroOff1, View.readCov_unit_zero (S := S1280x128) _ zeroOff1]

end Acc

section Region

variable (V : (c : Dev nD) → (b : Ref sig .tc) → Buf (Elt Ideal) ((c : Thread nD τ).loc b))

abbrev aarr1 (c : Dev nD) : Vec Ideal S10240x10240 .bf16 := V c (Pipeline.arrRef spec1 0)
abbrev harr1 (c : Dev nD) : Vec Ideal S10240x128 .bf16 := V c (Pipeline.arrRef spec1 1)
abbrev xarr1 (c : Dev nD) : Vec Ideal S10240x128 .f32 := V c (Pipeline.arrRef spec1 2)
abbrev warr1 (c : Dev nD) : Vec Ideal S128x128 .bf16 := V c (Pipeline.arrRef spec1 3)
abbrev barr1 (c : Dev nD) : Vec Ideal S1x128 .f32 := V c (Pipeline.arrRef spec1 4)

abbrev lay1 (c : Dev nD) (r : Fin 10240) (j : Fin 128) : EReal :=
  max (GinSpec.klin (fun r u => aarr1 V c (ix2 r u)) (fun r k => harr1 V c (ix2 r k)) (fun r k => xarr1 V c (ix2 r k))
        (fun k j => warr1 V c (ix2 k j)) (fun j => barr1 V c (ix2 (0 : Fin 1) j)) r j) 0

abbrev out1 (c : Dev nD) : Vec Ideal S10240x128 .f32 := fun i => lay1 V c (i 0) (i 1)

theorem ablk1_apply (c : Dev nD) (t : Fin cfg1.N) (p : Fin 1280) (u : Fin 5120) (r v : Fin 10240)
    (hr : r.val = 1280 * (t.val / 2) + p.val) (hv : v.val = 5120 * (t.val % 2) + u.val) :
    ablk1 V c t (ix2 p u) = aarr1 V c (ix2 r v) := by
  obtain ⟨e0, e1, -⟩ := idx_facts1 t
  show ((cfg1.win 0).blk t).view.read (Elt Ideal) (V c (Pipeline.arrRef spec1 0)) (ix2 p u) = _
  rw [View.read_apply]
  show V c (Pipeline.arrRef spec1 0) _ = V c (Pipeline.arrRef spec1 0) _
  congr 1
  funext a
  apply Fin.ext
  match a with
  | ⟨0, _⟩ => show win1_0.index t (0 : Fin 2) * 1280 + 1 * p.val = r.val; omega
  | ⟨1, _⟩ => show win1_0.index t (1 : Fin 2) * 5120 + 1 * u.val = v.val; omega

theorem hblk1_eq (c : Dev nD) (t : Fin cfg1.N) : hblk1 V c t = harr1 V c := by
  obtain ⟨-, -, e0, e1, -⟩ := idx_facts1 t
  funext y
  show ((cfg1.win 1).blk t).view.read (Elt Ideal) (V c (Pipeline.arrRef spec1 1)) y = _
  rw [View.read_apply]
  show V c (Pipeline.arrRef spec1 1) _ = V c (Pipeline.arrRef spec1 1) _
  congr 1
  funext a
  apply Fin.ext
  match a with
  | ⟨0, _⟩ => show win1_1.index t (0 : Fin 2) * 10240 + 1 * (y 0).val = (y 0).val; omega
  | ⟨1, _⟩ => show win1_1.index t (1 : Fin 2) * 128 + 1 * (y 1).val = (y 1).val; omega

theorem hrows1_apply (X : Vec Ideal S10240x128 .bf16) (t : Fin cfg1.N) (u : Fin 5120) (q : Fin 128) (r : Fin 10240)
    (hr : r.val = 5120 * (t.val % 2) + u.val) :
    View.ld X (hrect1 t) (ix2 u q) = X (ix2 r q) := by
  obtain ⟨-, -, -, -, -, -, -, -, -, -, -, -, e0, e1⟩ := idx_facts1 t
  show X ((hrect1 t).idx (ix2 u q)) = X (ix2 r q)
  congr 1
  funext a
  apply Fin.ext
  match a with
  | ⟨0, _⟩ => show k1_off1 (grid1.coords t) (0 : Fin 2) + 1 * u.val = r.val; omega
  | ⟨1, _⟩ => show k1_off1 (grid1.coords t) (1 : Fin 2) + 1 * q.val = q.val; omega

theorem xblk1_apply (c : Dev nD) (t : Fin cfg1.N) (p : Fin 1280) (k : Fin 128) (r : Fin 10240)
    (hr : r.val = 1280 * (t.val / 2) + p.val) :
    xblk1 V c t (ix2 p k) = xarr1 V c (ix2 r k) := by
  obtain ⟨-, -, -, -, e0, e1, -⟩ := idx_facts1 t
  show ((cfg1.win 2).blk t).view.read (Elt Ideal) (V c (Pipeline.arrRef spec1 2)) (ix2 p k) = _
  rw [View.read_apply]
  show V c (Pipeline.arrRef spec1 2) _ = V c (Pipeline.arrRef spec1 2) _
  congr 1
  funext a
  apply Fin.ext
  match a with
  | ⟨0, _⟩ => show win1_2.index t (0 : Fin 2) * 1280 + 1 * p.val = r.val; omega
  | ⟨1, _⟩ => show win1_2.index t (1 : Fin 2) * 128 + 1 * k.val = k.val; omega

theorem wblk1_eq (c : Dev nD) (t : Fin cfg1.N) : wblk1 V c t = warr1 V c := by
  obtain ⟨-, -, -, -, -, -, e0, e1, -⟩ := idx_facts1 t
  funext y
  show ((cfg1.win 3).blk t).view.read (Elt Ideal) (V c (Pipeline.arrRef spec1 3)) y = _
  rw [View.read_apply]
  show V c (Pipeline.arrRef spec1 3) _ = V c (Pipeline.arrRef spec1 3) _
  congr 1
  funext a
  apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem bblk1_eq (c : Dev nD) (t : Fin cfg1.N) : bblk1 V c t = barr1 V c := by
  obtain ⟨-, -, -, -, -, -, -, -, e0, e1, -⟩ := idx_facts1 t
  funext y
  show ((cfg1.win 4).blk t).view.read (Elt Ideal) (V c (Pipeline.arrRef spec1 4)) y = _
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem acc1_even_apply (c : Dev nD) (t : Fin cfg1.N) (h : t.val % 2 = 0) (p : Fin 1280) (q : Fin 128) (r : Fin 10240)
    (hr : r.val = 1280 * (t.val / 2) + p.val) :
    (outsAt1 V c t.val t.isLt).2 (ix2 p q)
      = 0 + ∑ u : Fin 5120, aarr1 V c (ix2 r ⟨u.val, by omega⟩) * harr1 V c (ix2 ⟨u.val, by omega⟩ q) := by
  refine (congrFun (acc1_even V c t h) (ix2 p q)).trans ?_
  refine (pay1_2_apply (View.ld (hblk1 V c t) (hrect1 t)) (k1_pay1 (F := Ideal)) (ablk1 V c t) p q).trans ?_
  rw [pay1_1_apply]
  refine congrArg (fun s => (0 : EReal) + s) (Finset.sum_congr rfl fun u _ => ?_)
  rw [ablk1_apply V c t p u r ⟨u.val, by omega⟩ hr (by show u.val = 5120 * (t.val % 2) + u.val; omega), hblk1_eq V c t,
    hrows1_apply (harr1 V c) t u q ⟨u.val, by omega⟩ (by show u.val = 5120 * (t.val % 2) + u.val; omega)]

theorem acc1_odd_apply (c : Dev nD) (t : Fin cfg1.N) (h : t.val % 2 = 1) (p : Fin 1280) (q : Fin 128) (r : Fin 10240)
    (hr : r.val = 1280 * (t.val / 2) + p.val) :
    (outsAt1 V c t.val t.isLt).2 (ix2 p q)
      = (0 + ∑ u : Fin 5120, aarr1 V c (ix2 r ⟨u.val, by omega⟩) * harr1 V c (ix2 ⟨u.val, by omega⟩ q))
        + ∑ u : Fin 5120, aarr1 V c (ix2 r ⟨5120 + u.val, by omega⟩) * harr1 V c (ix2 ⟨5120 + u.val, by omega⟩ q) := by
  refine (congrFun (acc1_odd V c t h) (ix2 p q)).trans ?_
  refine (pay1_2_apply (View.ld (hblk1 V c t) (hrect1 t))
    ((outsAt1 V c (t.val - 1) (Nat.lt_of_le_of_lt (Nat.sub_le _ _) t.isLt)).2) (ablk1 V c t) p q).trans ?_
  refine congrArg₂ (fun x y : EReal => x + y)
    (acc1_even_apply V c ⟨t.val - 1, Nat.lt_of_le_of_lt (Nat.sub_le _ _) t.isLt⟩ (by show (t.val - 1) % 2 = 0; omega) p q r
      (by show r.val = 1280 * ((t.val - 1) / 2) + p.val; omega))
    (Finset.sum_congr rfl fun u _ => ?_)
  rw [ablk1_apply V c t p u r ⟨5120 + u.val, by omega⟩ hr (by show 5120 + u.val = 5120 * (t.val % 2) + u.val; omega), hblk1_eq V c t,
    hrows1_apply (harr1 V c) t u q ⟨5120 + u.val, by omega⟩ (by show 5120 + u.val = 5120 * (t.val % 2) + u.val; omega)]

theorem out1_odd_apply (c : Dev nD) (t : Fin cfg1.N) (h : t.val % 2 = 1) (p : Fin 1280) (q : Fin 128) (r : Fin 10240)
    (hr : r.val = 1280 * (t.val / 2) + p.val) :
    (outsAt1 V c t.val t.isLt).1 (ix2 p q) = lay1 V c r q := by
  refine (congrFun (out1_odd V c t h) (ix2 p q)).trans ?_
  refine (pay1_3_apply (xblk1 V c t) ((outsAt1 V c t.val t.isLt).2) (wblk1 V c t) (bblk1 V c t) p q).trans ?_
  rw [wblk1_eq V c t, bblk1_eq V c t]
  refine congrArg (fun s : EReal => max s 0) ?_
  unfold GinSpec.klin
  refine congrArg₂ (fun x y : EReal => x + y) (Finset.sum_congr rfl fun k _ => ?_) rfl
  rw [xblk1_apply V c t p k r hr, acc1_odd_apply V c t h p k r hr]

theorem flushed1_eq (c : Dev nD) (t : Fin cfg1.N) (hf : (cfg1.win 5).flush t = true) :
    (dat1 V c).flushed 5 t = ((cfg1.win 5).blk t).view.read (Elt Ideal) (out1 V c) := by
  have h : t.val % 2 = 1 := (flush1_5 t).mp hf
  have hN : cfg1.N = 16 := N_1
  have ht : t.val < cfg1.N := t.isLt
  obtain ⟨-, -, -, -, -, -, -, -, -, -, e0, e1, -⟩ := idx_facts1 t
  show (cfg1.win 5).cut (grid1.coords t) ((dat1 V c).after 5 t) = _
  rw [after1_5]
  refine funext fun (j : S1280x128.Idx) => ?_
  obtain ⟨p, q, rfl⟩ : ∃ (p : Fin 1280) (q : Fin 128), j = ix2 p q := ⟨j 0, j 1, eq_ix2 j⟩
  rw [View.read_apply]
  show (outsAt1 V c t.val t.isLt).1 (ix2 p q) = out1 V c (((cfg1.win 5).blk t).view.emb (ix2 p q))
  rw [out1_odd_apply V c t h p q ⟨1280 * (t.val / 2) + p.val, by omega⟩ rfl]
  show lay1 V c _ _ = lay1 V c _ _
  congr 1
  · apply Fin.ext
    show 1280 * (t.val / 2) + p.val = win1_5.index t (0 : Fin 2) * 1280 + 1 * p.val
    omega
  · apply Fin.ext
    show q.val = win1_5.index t (1 : Fin 2) * 128 + 1 * q.val
    omega

theorem mem_blk1 (t : Fin cfg1.N) (i : S10240x128.Idx) :
    i ∈ ((cfg1.win 5).blk t).view.set ↔ ∀ a : Fin 2, win1_5.index t a * S1280x128.size a ≤ (i a).val ∧ (i a).val < win1_5.index t a * S1280x128.size a + S1280x128.size a := by
  show i ∈ ((View.whole (Pipeline.arrRef spec1 5)).slice (win1_5.rect t)).set ↔ _
  rw [View.set_slice_whole, Rect.mem_set_unit]
  exact Iff.rfl

theorem cover1 (i : S10240x128.Idx) : ∃ t : Fin cfg1.N, (cfg1.win 5).flush t = true ∧ i ∈ ((cfg1.win 5).blk t).view.set := by
  have hi0 : (i 0).val < 10240 := (i 0).isLt
  have hi1 : (i 1).val < 128 := (i 1).isLt
  have hN : cfg1.N = 16 := N_1
  obtain ⟨t, ht⟩ : ∃ t : Fin cfg1.N, t.val = 2 * ((i 0).val / 1280) + 1 := ⟨⟨2 * ((i 0).val / 1280) + 1, by omega⟩, rfl⟩
  obtain ⟨-, -, -, -, -, -, -, -, -, -, e0, e1, -⟩ := idx_facts1 t
  refine ⟨t, (flush1_5 t).mpr (by omega), ?_⟩
  rw [mem_blk1]
  intro a
  match a with
  | ⟨0, _⟩ => show win1_5.index t (0 : Fin 2) * 1280 ≤ (i 0).val ∧ (i 0).val < win1_5.index t (0 : Fin 2) * 1280 + 1280; omega
  | ⟨1, _⟩ => show win1_5.index t (1 : Fin 2) * 128 ≤ (i 1).val ∧ (i 1).val < win1_5.index t (1 : Fin 2) * 128 + 128; omega

theorem final1 (c : Dev nD) : (dat1 V c).arrAt 5 cfg1.N = out1 V c :=
  (dat1 V c).arrAt_eq_of_cover 5 (out1 V c) (flushed1_eq V c) cover1

theorem arrAt1_out (c : Dev nD) (r : Fin 10240) (j : Fin 128) :
    (dat1 (F := Ideal) V c).arrAt 5 cfg1.N (ValueIdx.ix2 r j)
      = max (GinSpec.klin (fun r u => V c (Pipeline.arrRef spec1 0) (ValueIdx.ix2 r u)) (fun r k => V c (Pipeline.arrRef spec1 1) (ValueIdx.ix2 r k))
               (fun r k => V c (Pipeline.arrRef spec1 2) (ValueIdx.ix2 r k)) (fun k j => V c (Pipeline.arrRef spec1 3) (ValueIdx.ix2 k j))
               (fun j => V c (Pipeline.arrRef spec1 4) (ValueIdx.ix2 (0 : Fin 1) j)) r j) 0 :=
  congrFun (final1 V c) (ix2 r j)

end Region

end Cert.KernelIdeal.Hand

end
-- ==== Proof.KI.Pay2.lean ====
/- The body's arithmetic at an entry, on the extended reals. -/
import proofs.«414469_j73718818669208_3_alg».proof.Proof.KI.Mat
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- The reduction step at an entry: the accumulator there plus the sum over the tile's columns. -/
theorem pay2_2_apply (hs : Vec Ideal S5120x128 .bf16) (acc : Vec Ideal S1280x128 .f32) (a : Vec Ideal S1280x5120 .bf16)
    (p : Fin 1280) (q : Fin 128) :
    k2_pay2 (F := Ideal) hs acc a (ix2 p q) = acc (ix2 p q) + ∑ u : Fin 5120, a (ix2 p u) * hs (ix2 u q) := by
  unfold k2_pay2
  simp only [shapeCast_self]
  rw [addf_apply, matA_apply]

theorem pay2_1_apply (p : Fin 1280) (q : Fin 128) : k2_pay1 (F := Ideal) (ix2 p q) = 0 := by
  unfold k2_pay1
  simp only [shapeCast_self]
  exact Ideal.ofBits_zero_f32

/-- The output tile at an entry. -/
theorem pay2_3_apply (x : Vec Ideal S1280x128 .f32) (acc : Vec Ideal S1280x128 .f32) (w : Vec Ideal S128x128 .bf16)
    (b : Vec Ideal S1x128 .f32) (p : Fin 1280) (q : Fin 128) :
    k2_pay3 (F := Ideal) x acc w b (ix2 p q)
      = max ((∑ k : Fin 128, (GinSpec.one * x (ix2 p k) + acc (ix2 p k)) * w (ix2 k q)) + b (ix2 (0 : Fin 1) q)) 0 := by
  unfold k2_pay3
  simp only [shapeCast_self]
  rw [maximumf_apply, addf_apply, matW_apply, bias_apply, broadcast_apply]
  simp only [truncf_apply, addf_apply, mulf_apply, broadcast_apply]
  exact congrArg (max _) Ideal.ofBits_zero_f32

end Cert.KernelIdeal.Hand

end
-- ==== Proof.KI.Value2.lean ====
/- Row tile by row tile, a layer's output array ends as the layer's function of the arrays it starts from. -/
import proofs.«414469_j73718818669208_3_alg».proof.Proof.KI.Reg2
import proofs.«414469_j73718818669208_3_alg».proof.Proof.KI.Pay2
import proofs.«414469_j73718818669208_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem idx_facts2 : ∀ t : Fin cfg2.N, win2_0.index t (0 : Fin 2) = t.val / 2 ∧ win2_0.index t (1 : Fin 2) = t.val % 2
    ∧ win2_1.index t (0 : Fin 2) = 0 ∧ win2_1.index t (1 : Fin 2) = 0
    ∧ win2_2.index t (0 : Fin 2) = t.val / 2 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 2 ∧ win2_5.index t (1 : Fin 2) = 0
    ∧ k2_off1 (grid2.coords t) (0 : Fin 2) = 5120 * (t.val % 2) ∧ k2_off1 (grid2.coords t) (1 : Fin 2) = 0 :=
  (by decide +kernel : ∀ t : Fin grid2.N, _)

section Acc
open Idealize.ShloMosaic.Tactic
variable {F : FTy → Type} [FloatOps F] (V : (c : Dev nD) → (b : Ref sig .tc) → Buf (Elt F) ((c : Thread nD τ).loc b)) (c : Dev nD)

theorem after2_5 (t : Fin cfg2.N) : (dat2 V c).after 5 t = (outsAt2 V c t.val t.isLt).1 := by dsimp only [dat2]

theorem zeroOff2 : (![0, 0] : Fin 2 → ℕ) = fun _ => 0 := by
  funext a; fin_cases a <;> rfl

/-- An even point leaves the accumulator at zeros + (count tile) x (feature rows), -/
theorem acc2_even (t : Fin cfg2.N) (h : t.val % 2 = 0) :
    (outsAt2 V c t.val t.isLt).2 = k2_pay2 (View.ld (hblk2 V c t) (hrect2 t)) (k2_pay1 (F := F)) (ablk2 V c t) := by
  rw [outsAt2_even V c t h]; unfold outA2; dsimp only
  rw [View.read_writes_eq_canon _ _ _ (scoverA2 V c t h)]
  unfold runA2 kernelRunA2
  dsimp only
  sl_unfold_run_names
  rw [View.canon_cons_unit_zero (S := S1280x128) zeroOff2]
  simp only [View.readAt_eq_ld, Memref.IsWhole.read_unread, View.ld_unit_zero (S := S1280x5120) zeroOff2, View.ld_unit_zero (S := S1280x128) zeroOff2, View.ld_unit_zero (S := S128x128) zeroOff2, View.ld_unit_zero (S := S1x128) zeroOff2, View.readCov_unit_zero (S := S1280x128) _ zeroOff2]

/-- an odd point adds its (count tile) x (feature rows) to it -/
theorem acc2_odd (t : Fin cfg2.N) (h : t.val % 2 = 1) :
    (outsAt2 V c t.val t.isLt).2 = k2_pay2 (View.ld (hblk2 V c t) (hrect2 t)) ((outsAt2 V c (t.val - 1) (Nat.lt_of_le_of_lt (Nat.sub_le _ _) t.isLt)).2) (ablk2 V c t) := by
  rw [outsAt2_odd V c t h]; unfold outB2; dsimp only
  rw [View.read_writes_eq_canon _ _ _ (scoverB2 V c t h _)]
  unfold runB2 kernelRunB2
  dsimp only
  sl_unfold_run_names
  rw [View.canon_unit_zero (S := S1280x128) zeroOff2]
  simp only [View.readAt_eq_ld, Memref.IsWhole.read_unread, View.ld_unit_zero (S := S1280x5120) zeroOff2, View.ld_unit_zero (S := S1280x128) zeroOff2, View.ld_unit_zero (S := S128x128) zeroOff2, View.ld_unit_zero (S := S1x128) zeroOff2]
  exact congrArg (fun z => k2_pay2 (View.ld (hblk2 V c t) (hrect2 t)) z (ablk2 V c t)) ((Memref.isWhole_whole cc2_scratch0).read_unread _)

/-- and computes the output tile from the feature row tile, that sum, the weights and the bias. -/
theorem out2_odd (t : Fin cfg2.N) (h : t.val % 2 = 1) :
    (outsAt2 V c t.val t.isLt).1 = k2_pay3 (xblk2 V c t) ((outsAt2 V c t.val t.isLt).2) (wblk2 V c t) (bblk2 V c t) := by
  rw [outsAt2_odd V c t h]; unfold outB2; dsimp only
  rw [View.read_writes_eq_canon _ _ _ (coverB2 V c t h _), View.read_writes_eq_canon _ _ _ (scoverB2 V c t h _)]
  unfold runB2 kernelRunB2
  dsimp only
  sl_unfold_run_names
  simp only [View.canon_unit_zero (S := S1280x128) zeroOff2, View.readAt_eq_ld, Memref.IsWhole.read_unread, View.ld_unit_zero (S := S1280x5120) zeroOff2, View.ld_unit_zero (S := S1280x128) zeroOff2, View.ld_unit_zero (S := S128x128) zeroOff2, View.ld_unit_zero (S := S1x128) zeroOff2, View.readCov_unit_zero (S := S1280x128) _ zeroOff2]

end Acc

section Region

variable (V : (c : Dev nD) → (b : Ref sig .tc) → Buf (Elt Ideal) ((c : Thread nD τ).loc b))

abbrev aarr2 (c : Dev nD) : Vec Ideal S10240x10240 .bf16 := V c (Pipeline.arrRef spec2 0)
abbrev harr2 (c : Dev nD) : Vec Ideal S10240x128 .bf16 := V c (Pipeline.arrRef spec2 1)
abbrev xarr2 (c : Dev nD) : Vec Ideal S10240x128 .f32 := V c (Pipeline.arrRef spec2 2)
abbrev warr2 (c : Dev nD) : Vec Ideal S128x128 .bf16 := V c (Pipeline.arrRef spec2 3)
abbrev barr2 (c : Dev nD) : Vec Ideal S1x128 .f32 := V c (Pipeline.arrRef spec2 4)

abbrev lay2 (c : Dev nD) (r : Fin 10240) (j : Fin 128) : EReal :=
  max (GinSpec.klin (fun r u => aarr2 V c (ix2 r u)) (fun r k => harr2 V c (ix2 r k)) (fun r k => xarr2 V c (ix2 r k))
        (fun k j => warr2 V c (ix2 k j)) (fun j => barr2 V c (ix2 (0 : Fin 1) j)) r j) 0

abbrev out2 (c : Dev nD) : Vec Ideal S10240x128 .f32 := fun i => lay2 V c (i 0) (i 1)

theorem ablk2_apply (c : Dev nD) (t : Fin cfg2.N) (p : Fin 1280) (u : Fin 5120) (r v : Fin 10240)
    (hr : r.val = 1280 * (t.val / 2) + p.val) (hv : v.val = 5120 * (t.val % 2) + u.val) :
    ablk2 V c t (ix2 p u) = aarr2 V c (ix2 r v) := by
  obtain ⟨e0, e1, -⟩ := idx_facts2 t
  show ((cfg2.win 0).blk t).view.read (Elt Ideal) (V c (Pipeline.arrRef spec2 0)) (ix2 p u) = _
  rw [View.read_apply]
  show V c (Pipeline.arrRef spec2 0) _ = V c (Pipeline.arrRef spec2 0) _
  congr 1
  funext a
  apply Fin.ext
  match a with
  | ⟨0, _⟩ => show win2_0.index t (0 : Fin 2) * 1280 + 1 * p.val = r.val; omega
  | ⟨1, _⟩ => show win2_0.index t (1 : Fin 2) * 5120 + 1 * u.val = v.val; omega

theorem hblk2_eq (c : Dev nD) (t : Fin cfg2.N) : hblk2 V c t = harr2 V c := by
  obtain ⟨-, -, e0, e1, -⟩ := idx_facts2 t
  funext y
  show ((cfg2.win 1).blk t).view.read (Elt Ideal) (V c (Pipeline.arrRef spec2 1)) y = _
  rw [View.read_apply]
  show V c (Pipeline.arrRef spec2 1) _ = V c (Pipeline.arrRef spec2 1) _
  congr 1
  funext a
  apply Fin.ext
  match a with
  | ⟨0, _⟩ => show win2_1.index t (0 : Fin 2) * 10240 + 1 * (y 0).val = (y 0).val; omega
  | ⟨1, _⟩ => show win2_1.index t (1 : Fin 2) * 128 + 1 * (y 1).val = (y 1).val; omega

theorem hrows2_apply (X : Vec Ideal S10240x128 .bf16) (t : Fin cfg2.N) (u : Fin 5120) (q : Fin 128) (r : Fin 10240)
    (hr : r.val = 5120 * (t.val % 2) + u.val) :
    View.ld X (hrect2 t) (ix2 u q) = X (ix2 r q) := by
  obtain ⟨-, -, -, -, -, -, -, -, -, -, -, -, e0, e1⟩ := idx_facts2 t
  show X ((hrect2 t).idx (ix2 u q)) = X (ix2 r q)
  congr 1
  funext a
  apply Fin.ext
  match a with
  | ⟨0, _⟩ => show k2_off1 (grid2.coords t) (0 : Fin 2) + 1 * u.val = r.val; omega
  | ⟨1, _⟩ => show k2_off1 (grid2.coords t) (1 : Fin 2) + 1 * q.val = q.val; omega

theorem xblk2_apply (c : Dev nD) (t : Fin cfg2.N) (p : Fin 1280) (k : Fin 128) (r : Fin 10240)
    (hr : r.val = 1280 * (t.val / 2) + p.val) :
    xblk2 V c t (ix2 p k) = xarr2 V c (ix2 r k) := by
  obtain ⟨-, -, -, -, e0, e1, -⟩ := idx_facts2 t
  show ((cfg2.win 2).blk t).view.read (Elt Ideal) (V c (Pipeline.arrRef spec2 2)) (ix2 p k) = _
  rw [View.read_apply]
  show V c (Pipeline.arrRef spec2 2) _ = V c (Pipeline.arrRef spec2 2) _
  congr 1
  funext a
  apply Fin.ext
  match a with
  | ⟨0, _⟩ => show win2_2.index t (0 : Fin 2) * 1280 + 1 * p.val = r.val; omega
  | ⟨1, _⟩ => show win2_2.index t (1 : Fin 2) * 128 + 1 * k.val = k.val; omega

theorem wblk2_eq (c : Dev nD) (t : Fin cfg2.N) : wblk2 V c t = warr2 V c := by
  obtain ⟨-, -, -, -, -, -, e0, e1, -⟩ := idx_facts2 t
  funext y
  show ((cfg2.win 3).blk t).view.read (Elt Ideal) (V c (Pipeline.arrRef spec2 3)) y = _
  rw [View.read_apply]
  show V c (Pipeline.arrRef spec2 3) _ = V c (Pipeline.arrRef spec2 3) _
  congr 1
  funext a
  apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

theorem bblk2_eq (c : Dev nD) (t : Fin cfg2.N) : bblk2 V c t = barr2 V c := by
  obtain ⟨-, -, -, -, -, -, -, -, e0, e1, -⟩ := idx_facts2 t
  funext y
  show ((cfg2.win 4).blk t).view.read (Elt Ideal) (V c (Pipeline.arrRef spec2 4)) y = _
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

theorem acc2_even_apply (c : Dev nD) (t : Fin cfg2.N) (h : t.val % 2 = 0) (p : Fin 1280) (q : Fin 128) (r : Fin 10240)
    (hr : r.val = 1280 * (t.val / 2) + p.val) :
    (outsAt2 V c t.val t.isLt).2 (ix2 p q)
      = 0 + ∑ u : Fin 5120, aarr2 V c (ix2 r ⟨u.val, by omega⟩) * harr2 V c (ix2 ⟨u.val, by omega⟩ q) := by
  refine (congrFun (acc2_even V c t h) (ix2 p q)).trans ?_
  refine (pay2_2_apply (View.ld (hblk2 V c t) (hrect2 t)) (k2_pay1 (F := Ideal)) (ablk2 V c t) p q).trans ?_
  rw [pay2_1_apply]
  refine congrArg (fun s => (0 : EReal) + s) (Finset.sum_congr rfl fun u _ => ?_)
  rw [ablk2_apply V c t p u r ⟨u.val, by omega⟩ hr (by show u.val = 5120 * (t.val % 2) + u.val; omega), hblk2_eq V c t,
    hrows2_apply (harr2 V c) t u q ⟨u.val, by omega⟩ (by show u.val = 5120 * (t.val % 2) + u.val; omega)]

theorem acc2_odd_apply (c : Dev nD) (t : Fin cfg2.N) (h : t.val % 2 = 1) (p : Fin 1280) (q : Fin 128) (r : Fin 10240)
    (hr : r.val = 1280 * (t.val / 2) + p.val) :
    (outsAt2 V c t.val t.isLt).2 (ix2 p q)
      = (0 + ∑ u : Fin 5120, aarr2 V c (ix2 r ⟨u.val, by omega⟩) * harr2 V c (ix2 ⟨u.val, by omega⟩ q))
        + ∑ u : Fin 5120, aarr2 V c (ix2 r ⟨5120 + u.val, by omega⟩) * harr2 V c (ix2 ⟨5120 + u.val, by omega⟩ q) := by
  refine (congrFun (acc2_odd V c t h) (ix2 p q)).trans ?_
  refine (pay2_2_apply (View.ld (hblk2 V c t) (hrect2 t))
    ((outsAt2 V c (t.val - 1) (Nat.lt_of_le_of_lt (Nat.sub_le _ _) t.isLt)).2) (ablk2 V c t) p q).trans ?_
  refine congrArg₂ (fun x y : EReal => x + y)
    (acc2_even_apply V c ⟨t.val - 1, Nat.lt_of_le_of_lt (Nat.sub_le _ _) t.isLt⟩ (by show (t.val - 1) % 2 = 0; omega) p q r
      (by show r.val = 1280 * ((t.val - 1) / 2) + p.val; omega))
    (Finset.sum_congr rfl fun u _ => ?_)
  rw [ablk2_apply V c t p u r ⟨5120 + u.val, by omega⟩ hr (by show 5120 + u.val = 5120 * (t.val % 2) + u.val; omega), hblk2_eq V c t,
    hrows2_apply (harr2 V c) t u q ⟨5120 + u.val, by omega⟩ (by show 5120 + u.val = 5120 * (t.val % 2) + u.val; omega)]

theorem out2_odd_apply (c : Dev nD) (t : Fin cfg2.N) (h : t.val % 2 = 1) (p : Fin 1280) (q : Fin 128) (r : Fin 10240)
    (hr : r.val = 1280 * (t.val / 2) + p.val) :
    (outsAt2 V c t.val t.isLt).1 (ix2 p q) = lay2 V c r q := by
  refine (congrFun (out2_odd V c t h) (ix2 p q)).trans ?_
  refine (pay2_3_apply (xblk2 V c t) ((outsAt2 V c t.val t.isLt).2) (wblk2 V c t) (bblk2 V c t) p q).trans ?_
  rw [wblk2_eq V c t, bblk2_eq V c t]
  refine congrArg (fun s : EReal => max s 0) ?_
  unfold GinSpec.klin
  refine congrArg₂ (fun x y : EReal => x + y) (Finset.sum_congr rfl fun k _ => ?_) rfl
  rw [xblk2_apply V c t p k r hr, acc2_odd_apply V c t h p k r hr]

theorem flushed2_eq (c : Dev nD) (t : Fin cfg2.N) (hf : (cfg2.win 5).flush t = true) :
    (dat2 V c).flushed 5 t = ((cfg2.win 5).blk t).view.read (Elt Ideal) (out2 V c) := by
  have h : t.val % 2 = 1 := (flush2_5 t).mp hf
  have hN : cfg2.N = 16 := N_2
  have ht : t.val < cfg2.N := t.isLt
  obtain ⟨-, -, -, -, -, -, -, -, -, -, e0, e1, -⟩ := idx_facts2 t
  show (cfg2.win 5).cut (grid2.coords t) ((dat2 V c).after 5 t) = _
  rw [after2_5]
  refine funext fun (j : S1280x128.Idx) => ?_
  obtain ⟨p, q, rfl⟩ : ∃ (p : Fin 1280) (q : Fin 128), j = ix2 p q := ⟨j 0, j 1, eq_ix2 j⟩
  rw [View.read_apply]
  show (outsAt2 V c t.val t.isLt).1 (ix2 p q) = out2 V c (((cfg2.win 5).blk t).view.emb (ix2 p q))
  rw [out2_odd_apply V c t h p q ⟨1280 * (t.val / 2) + p.val, by omega⟩ rfl]
  show lay2 V c _ _ = lay2 V c _ _
  congr 1
  · apply Fin.ext
    show 1280 * (t.val / 2) + p.val = win2_5.index t (0 : Fin 2) * 1280 + 1 * p.val
    omega
  · apply Fin.ext
    show q.val = win2_5.index t (1 : Fin 2) * 128 + 1 * q.val
    omega

theorem mem_blk2 (t : Fin cfg2.N) (i : S10240x128.Idx) :
    i ∈ ((cfg2.win 5).blk t).view.set ↔ ∀ a : Fin 2, win2_5.index t a * S1280x128.size a ≤ (i a).val ∧ (i a).val < win2_5.index t a * S1280x128.size a + S1280x128.size a := by
  show i ∈ ((View.whole (Pipeline.arrRef spec2 5)).slice (win2_5.rect t)).set ↔ _
  rw [View.set_slice_whole, Rect.mem_set_unit]
  exact Iff.rfl

theorem cover2 (i : S10240x128.Idx) : ∃ t : Fin cfg2.N, (cfg2.win 5).flush t = true ∧ i ∈ ((cfg2.win 5).blk t).view.set := by
  have hi0 : (i 0).val < 10240 := (i 0).isLt
  have hi1 : (i 1).val < 128 := (i 1).isLt
  have hN : cfg2.N = 16 := N_2
  obtain ⟨t, ht⟩ : ∃ t : Fin cfg2.N, t.val = 2 * ((i 0).val / 1280) + 1 := ⟨⟨2 * ((i 0).val / 1280) + 1, by omega⟩, rfl⟩
  obtain ⟨-, -, -, -, -, -, -, -, -, -, e0, e1, -⟩ := idx_facts2 t
  refine ⟨t, (flush2_5 t).mpr (by omega), ?_⟩
  rw [mem_blk2]
  intro a
  match a with
  | ⟨0, _⟩ => show win2_5.index t (0 : Fin 2) * 1280 ≤ (i 0).val ∧ (i 0).val < win2_5.index t (0 : Fin 2) * 1280 + 1280; omega
  | ⟨1, _⟩ => show win2_5.index t (1 : Fin 2) * 128 ≤ (i 1).val ∧ (i 1).val < win2_5.index t (1 : Fin 2) * 128 + 128; omega

theorem final2 (c : Dev nD) : (dat2 V c).arrAt 5 cfg2.N = out2 V c :=
  (dat2 V c).arrAt_eq_of_cover 5 (out2 V c) (flushed2_eq V c) cover2

theorem arrAt2_out (c : Dev nD) (r : Fin 10240) (j : Fin 128) :
    (dat2 (F := Ideal) V c).arrAt 5 cfg2.N (ValueIdx.ix2 r j)
      = max (GinSpec.klin (fun r u => V c (Pipeline.arrRef spec2 0) (ValueIdx.ix2 r u)) (fun r k => V c (Pipeline.arrRef spec2 1) (ValueIdx.ix2 r k))
               (fun r k => V c (Pipeline.arrRef spec2 2) (ValueIdx.ix2 r k)) (fun k j => V c (Pipeline.arrRef spec2 3) (ValueIdx.ix2 k j))
               (fun j => V c (Pipeline.arrRef spec2 4) (ValueIdx.ix2 (0 : Fin 1) j)) r j) 0 :=
  congrFun (final2 V c) (ix2 r j)

end Region

end Cert.KernelIdeal.Hand

end
-- ==== Proof.KI.Pay3.lean ====
/- The last layer's body's arithmetic at an entry, on the extended reals. -/
import proofs.«414469_j73718818669208_3_alg».proof.Proof.KI.Mat
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

theorem pay3_2_apply (hs : Vec Ideal S5120x128 .bf16) (acc : Vec Ideal S1280x128 .f32) (a : Vec Ideal S1280x5120 .bf16)
    (p : Fin 1280) (q : Fin 128) :
    k3_pay2 (F := Ideal) hs acc a (ix2 p q) = acc (ix2 p q) + ∑ u : Fin 5120, a (ix2 p u) * hs (ix2 u q) := by
  unfold k3_pay2
  simp only [shapeCast_self]
  rw [addf_apply, matA_apply]

theorem pay3_1_apply (p : Fin 1280) (q : Fin 128) : k3_pay1 (F := Ideal) (ix2 p q) = 0 := by
  unfold k3_pay1
  simp only [shapeCast_self]
  exact Ideal.ofBits_zero_f32

/-- The last layer's output tile at an entry: no maximum with zero. -/
theorem pay3_3_apply (x : Vec Ideal S1280x128 .f32) (acc : Vec Ideal S1280x128 .f32) (w : Vec Ideal S128x128 .bf16)
    (b : Vec Ideal S1x128 .f32) (p : Fin 1280) (q : Fin 128) :
    k3_pay3 (F := Ideal) x acc w b (ix2 p q)
      = (∑ k : Fin 128, (GinSpec.one * x (ix2 p k) + acc (ix2 p k)) * w (ix2 k q)) + b (ix2 (0 : Fin 1) q) := by
  unfold k3_pay3
  simp only [shapeCast_self]
  rw [addf_apply, matW_apply, bias_apply]
  simp only [truncf_apply, addf_apply, mulf_apply, broadcast_apply]
  rfl

end Cert.KernelIdeal.Hand

end
-- ==== Proof.KI.Value3.lean ====
/- Row tile by row tile, the last layer's output array ends as the layer's function, taken without the maximum, of the arrays it starts from. -/
import proofs.«414469_j73718818669208_3_alg».proof.Proof.KI.Reg3
import proofs.«414469_j73718818669208_3_alg».proof.Proof.KI.Pay3
import proofs.«414469_j73718818669208_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem idx_facts3 : ∀ t : Fin cfg3.N, win3_0.index t (0 : Fin 2) = t.val / 2 ∧ win3_0.index t (1 : Fin 2) = t.val % 2
    ∧ win3_1.index t (0 : Fin 2) = 0 ∧ win3_1.index t (1 : Fin 2) = 0
    ∧ win3_2.index t (0 : Fin 2) = t.val / 2 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val / 2 ∧ win3_5.index t (1 : Fin 2) = 0
    ∧ k3_off1 (grid3.coords t) (0 : Fin 2) = 5120 * (t.val % 2) ∧ k3_off1 (grid3.coords t) (1 : Fin 2) = 0 :=
  (by decide +kernel : ∀ t : Fin grid3.N, _)

section Acc
open Idealize.ShloMosaic.Tactic
variable {F : FTy → Type} [FloatOps F] (V : (c : Dev nD) → (b : Ref sig .tc) → Buf (Elt F) ((c : Thread nD τ).loc b)) (c : Dev nD)

theorem after3_5 (t : Fin cfg3.N) : (dat3 V c).after 5 t = (outsAt3 V c t.val t.isLt).1 := by dsimp only [dat3]

theorem zeroOff3 : (![0, 0] : Fin 2 → ℕ) = fun _ => 0 := by
  funext a; fin_cases a <;> rfl

/-- An even point leaves the accumulator at zeros + (count tile) x (feature rows), -/
theorem acc3_even (t : Fin cfg3.N) (h : t.val % 2 = 0) :
    (outsAt3 V c t.val t.isLt).2 = k3_pay2 (View.ld (hblk3 V c t) (hrect3 t)) (k3_pay1 (F := F)) (ablk3 V c t) := by
  rw [outsAt3_even V c t h]; unfold outA3; dsimp only
  rw [View.read_writes_eq_canon _ _ _ (scoverA3 V c t h)]
  unfold runA3 kernelRunA3
  dsimp only
  sl_unfold_run_names
  rw [View.canon_cons_unit_zero (S := S1280x128) zeroOff3]
  simp only [View.readAt_eq_ld, Memref.IsWhole.read_unread, View.ld_unit_zero (S := S1280x5120) zeroOff3, View.ld_unit_zero (S := S1280x128) zeroOff3, View.ld_unit_zero (S := S128x128) zeroOff3, View.ld_unit_zero (S := S1x128) zeroOff3, View.readCov_unit_zero (S := S1280x128) _ zeroOff3]

/-- an odd point adds its (count tile) x (feature rows) to it -/
theorem acc3_odd (t : Fin cfg3.N) (h : t.val % 2 = 1) :
    (outsAt3 V c t.val t.isLt).2 = k3_pay2 (View.ld (hblk3 V c t) (hrect3 t)) ((outsAt3 V c (t.val - 1) (Nat.lt_of_le_of_lt (Nat.sub_le _ _) t.isLt)).2) (ablk3 V c t) := by
  rw [outsAt3_odd V c t h]; unfold outB3; dsimp only
  rw [View.read_writes_eq_canon _ _ _ (scoverB3 V c t h _)]
  unfold runB3 kernelRunB3
  dsimp only
  sl_unfold_run_names
  rw [View.canon_unit_zero (S := S1280x128) zeroOff3]
  simp only [View.readAt_eq_ld, Memref.IsWhole.read_unread, View.ld_unit_zero (S := S1280x5120) zeroOff3, View.ld_unit_zero (S := S1280x128) zeroOff3, View.ld_unit_zero (S := S128x128) zeroOff3, View.ld_unit_zero (S := S1x128) zeroOff3]
  exact congrArg (fun z => k3_pay2 (View.ld (hblk3 V c t) (hrect3 t)) z (ablk3 V c t)) ((Memref.isWhole_whole cc3_scratch0).read_unread _)

/-- and computes the output tile from the feature row tile, that sum, the weights and the bias. -/
theorem out3_odd (t : Fin cfg3.N) (h : t.val % 2 = 1) :
    (outsAt3 V c t.val t.isLt).1 = k3_pay3 (xblk3 V c t) ((outsAt3 V c t.val t.isLt).2) (wblk3 V c t) (bblk3 V c t) := by
  rw [outsAt3_odd V c t h]; unfold outB3; dsimp only
  rw [View.read_writes_eq_canon _ _ _ (coverB3 V c t h _), View.read_writes_eq_canon _ _ _ (scoverB3 V c t h _)]
  unfold runB3 kernelRunB3
  dsimp only
  sl_unfold_run_names
  simp only [View.canon_unit_zero (S := S1280x128) zeroOff3, View.readAt_eq_ld, Memref.IsWhole.read_unread, View.ld_unit_zero (S := S1280x5120) zeroOff3, View.ld_unit_zero (S := S1280x128) zeroOff3, View.ld_unit_zero (S := S128x128) zeroOff3, View.ld_unit_zero (S := S1x128) zeroOff3, View.readCov_unit_zero (S := S1280x128) _ zeroOff3]

end Acc

section Region

variable (V : (c : Dev nD) → (b : Ref sig .tc) → Buf (Elt Ideal) ((c : Thread nD τ).loc b))

abbrev aarr3 (c : Dev nD) : Vec Ideal S10240x10240 .bf16 := V c (Pipeline.arrRef spec3 0)
abbrev harr3 (c : Dev nD) : Vec Ideal S10240x128 .bf16 := V c (Pipeline.arrRef spec3 1)
abbrev xarr3 (c : Dev nD) : Vec Ideal S10240x128 .f32 := V c (Pipeline.arrRef spec3 2)
abbrev warr3 (c : Dev nD) : Vec Ideal S128x128 .bf16 := V c (Pipeline.arrRef spec3 3)
abbrev barr3 (c : Dev nD) : Vec Ideal S1x128 .f32 := V c (Pipeline.arrRef spec3 4)

abbrev lay3 (c : Dev nD) (r : Fin 10240) (j : Fin 128) : EReal :=
  GinSpec.klin (fun r u => aarr3 V c (ix2 r u)) (fun r k => harr3 V c (ix2 r k)) (fun r k => xarr3 V c (ix2 r k))
    (fun k j => warr3 V c (ix2 k j)) (fun j => barr3 V c (ix2 (0 : Fin 1) j)) r j

abbrev out3 (c : Dev nD) : Vec Ideal S10240x128 .f32 := fun i => lay3 V c (i 0) (i 1)

theorem ablk3_apply (c : Dev nD) (t : Fin cfg3.N) (p : Fin 1280) (u : Fin 5120) (r v : Fin 10240)
    (hr : r.val = 1280 * (t.val / 2) + p.val) (hv : v.val = 5120 * (t.val % 2) + u.val) :
    ablk3 V c t (ix2 p u) = aarr3 V c (ix2 r v) := by
  obtain ⟨e3, e1, -⟩ := idx_facts3 t
  show ((cfg3.win 0).blk t).view.read (Elt Ideal) (V c (Pipeline.arrRef spec3 0)) (ix2 p u) = _
  rw [View.read_apply]
  show V c (Pipeline.arrRef spec3 0) _ = V c (Pipeline.arrRef spec3 0) _
  congr 1
  funext a
  apply Fin.ext
  match a with
  | ⟨0, _⟩ => show win3_0.index t (0 : Fin 2) * 1280 + 1 * p.val = r.val; omega
  | ⟨1, _⟩ => show win3_0.index t (1 : Fin 2) * 5120 + 1 * u.val = v.val; omega

theorem hblk3_eq (c : Dev nD) (t : Fin cfg3.N) : hblk3 V c t = harr3 V c := by
  obtain ⟨-, -, e3, e1, -⟩ := idx_facts3 t
  funext y
  show ((cfg3.win 1).blk t).view.read (Elt Ideal) (V c (Pipeline.arrRef spec3 1)) y = _
  rw [View.read_apply]
  show V c (Pipeline.arrRef spec3 1) _ = V c (Pipeline.arrRef spec3 1) _
  congr 1
  funext a
  apply Fin.ext
  match a with
  | ⟨0, _⟩ => show win3_1.index t (0 : Fin 2) * 10240 + 1 * (y 0).val = (y 0).val; omega
  | ⟨1, _⟩ => show win3_1.index t (1 : Fin 2) * 128 + 1 * (y 1).val = (y 1).val; omega

theorem hrows3_apply (X : Vec Ideal S10240x128 .bf16) (t : Fin cfg3.N) (u : Fin 5120) (q : Fin 128) (r : Fin 10240)
    (hr : r.val = 5120 * (t.val % 2) + u.val) :
    View.ld X (hrect3 t) (ix2 u q) = X (ix2 r q) := by
  obtain ⟨-, -, -, -, -, -, -, -, -, -, -, -, e3, e1⟩ := idx_facts3 t
  show X ((hrect3 t).idx (ix2 u q)) = X (ix2 r q)
  congr 1
  funext a
  apply Fin.ext
  match a with
  | ⟨0, _⟩ => show k3_off1 (grid3.coords t) (0 : Fin 2) + 1 * u.val = r.val; omega
  | ⟨1, _⟩ => show k3_off1 (grid3.coords t) (1 : Fin 2) + 1 * q.val = q.val; omega

theorem xblk3_apply (c : Dev nD) (t : Fin cfg3.N) (p : Fin 1280) (k : Fin 128) (r : Fin 10240)
    (hr : r.val = 1280 * (t.val / 2) + p.val) :
    xblk3 V c t (ix2 p k) = xarr3 V c (ix2 r k) := by
  obtain ⟨-, -, -, -, e3, e1, -⟩ := idx_facts3 t
  show ((cfg3.win 2).blk t).view.read (Elt Ideal) (V c (Pipeline.arrRef spec3 2)) (ix2 p k) = _
  rw [View.read_apply]
  show V c (Pipeline.arrRef spec3 2) _ = V c (Pipeline.arrRef spec3 2) _
  congr 1
  funext a
  apply Fin.ext
  match a with
  | ⟨0, _⟩ => show win3_2.index t (0 : Fin 2) * 1280 + 1 * p.val = r.val; omega
  | ⟨1, _⟩ => show win3_2.index t (1 : Fin 2) * 128 + 1 * k.val = k.val; omega

theorem wblk3_eq (c : Dev nD) (t : Fin cfg3.N) : wblk3 V c t = warr3 V c := by
  obtain ⟨-, -, -, -, -, -, e3, e1, -⟩ := idx_facts3 t
  funext y
  show ((cfg3.win 3).blk t).view.read (Elt Ideal) (V c (Pipeline.arrRef spec3 3)) y = _
  rw [View.read_apply]
  show V c (Pipeline.arrRef spec3 3) _ = V c (Pipeline.arrRef spec3 3) _
  congr 1
  funext a
  apply Fin.ext
  match a with
  | ⟨0, _⟩ => show win3_3.index t (0 : Fin 2) * 128 + 1 * (y 0).val = (y 0).val; omega
  | ⟨1, _⟩ => show win3_3.index t (1 : Fin 2) * 128 + 1 * (y 1).val = (y 1).val; omega

theorem bblk3_eq (c : Dev nD) (t : Fin cfg3.N) : bblk3 V c t = barr3 V c := by
  obtain ⟨-, -, -, -, -, -, -, -, e3, e1, -⟩ := idx_facts3 t
  funext y
  show ((cfg3.win 4).blk t).view.read (Elt Ideal) (V c (Pipeline.arrRef spec3 4)) y = _
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

theorem acc3_even_apply (c : Dev nD) (t : Fin cfg3.N) (h : t.val % 2 = 0) (p : Fin 1280) (q : Fin 128) (r : Fin 10240)
    (hr : r.val = 1280 * (t.val / 2) + p.val) :
    (outsAt3 V c t.val t.isLt).2 (ix2 p q)
      = 0 + ∑ u : Fin 5120, aarr3 V c (ix2 r ⟨u.val, by omega⟩) * harr3 V c (ix2 ⟨u.val, by omega⟩ q) := by
  refine (congrFun (acc3_even V c t h) (ix2 p q)).trans ?_
  refine (pay3_2_apply (View.ld (hblk3 V c t) (hrect3 t)) (k3_pay1 (F := Ideal)) (ablk3 V c t) p q).trans ?_
  rw [pay3_1_apply]
  refine congrArg (fun s => (0 : EReal) + s) (Finset.sum_congr rfl fun u _ => ?_)
  rw [ablk3_apply V c t p u r ⟨u.val, by omega⟩ hr (by show u.val = 5120 * (t.val % 2) + u.val; omega), hblk3_eq V c t,
    hrows3_apply (harr3 V c) t u q ⟨u.val, by omega⟩ (by show u.val = 5120 * (t.val % 2) + u.val; omega)]

theorem acc3_odd_apply (c : Dev nD) (t : Fin cfg3.N) (h : t.val % 2 = 1) (p : Fin 1280) (q : Fin 128) (r : Fin 10240)
    (hr : r.val = 1280 * (t.val / 2) + p.val) :
    (outsAt3 V c t.val t.isLt).2 (ix2 p q)
      = (0 + ∑ u : Fin 5120, aarr3 V c (ix2 r ⟨u.val, by omega⟩) * harr3 V c (ix2 ⟨u.val, by omega⟩ q))
        + ∑ u : Fin 5120, aarr3 V c (ix2 r ⟨5120 + u.val, by omega⟩) * harr3 V c (ix2 ⟨5120 + u.val, by omega⟩ q) := by
  refine (congrFun (acc3_odd V c t h) (ix2 p q)).trans ?_
  refine (pay3_2_apply (View.ld (hblk3 V c t) (hrect3 t))
    ((outsAt3 V c (t.val - 1) (Nat.lt_of_le_of_lt (Nat.sub_le _ _) t.isLt)).2) (ablk3 V c t) p q).trans ?_
  refine congrArg₂ (fun x y : EReal => x + y)
    (acc3_even_apply V c ⟨t.val - 1, Nat.lt_of_le_of_lt (Nat.sub_le _ _) t.isLt⟩ (by show (t.val - 1) % 2 = 0; omega) p q r
      (by show r.val = 1280 * ((t.val - 1) / 2) + p.val; omega))
    (Finset.sum_congr rfl fun u _ => ?_)
  rw [ablk3_apply V c t p u r ⟨5120 + u.val, by omega⟩ hr (by show 5120 + u.val = 5120 * (t.val % 2) + u.val; omega), hblk3_eq V c t,
    hrows3_apply (harr3 V c) t u q ⟨5120 + u.val, by omega⟩ (by show 5120 + u.val = 5120 * (t.val % 2) + u.val; omega)]

theorem out3_odd_apply (c : Dev nD) (t : Fin cfg3.N) (h : t.val % 2 = 1) (p : Fin 1280) (q : Fin 128) (r : Fin 10240)
    (hr : r.val = 1280 * (t.val / 2) + p.val) :
    (outsAt3 V c t.val t.isLt).1 (ix2 p q) = lay3 V c r q := by
  refine (congrFun (out3_odd V c t h) (ix2 p q)).trans ?_
  refine (pay3_3_apply (xblk3 V c t) ((outsAt3 V c t.val t.isLt).2) (wblk3 V c t) (bblk3 V c t) p q).trans ?_
  rw [wblk3_eq V c t, bblk3_eq V c t]
  unfold lay3 GinSpec.klin
  refine congrArg₂ (fun x y : EReal => x + y) (Finset.sum_congr rfl fun k _ => ?_) rfl
  rw [xblk3_apply V c t p k r hr, acc3_odd_apply V c t h p k r hr]

theorem flushed3_eq (c : Dev nD) (t : Fin cfg3.N) (hf : (cfg3.win 5).flush t = true) :
    (dat3 V c).flushed 5 t = ((cfg3.win 5).blk t).view.read (Elt Ideal) (out3 V c) := by
  have h : t.val % 2 = 1 := (flush3_5 t).mp hf
  have hN : cfg3.N = 16 := N_3
  have ht : t.val < cfg3.N := t.isLt
  obtain ⟨-, -, -, -, -, -, -, -, -, -, e3, e1, -⟩ := idx_facts3 t
  show (cfg3.win 5).cut (grid3.coords t) ((dat3 V c).after 5 t) = _
  rw [after3_5]
  refine funext fun (j : S1280x128.Idx) => ?_
  obtain ⟨p, q, rfl⟩ : ∃ (p : Fin 1280) (q : Fin 128), j = ix2 p q := ⟨j 0, j 1, eq_ix2 j⟩
  rw [View.read_apply]
  show (outsAt3 V c t.val t.isLt).1 (ix2 p q) = out3 V c (((cfg3.win 5).blk t).view.emb (ix2 p q))
  rw [out3_odd_apply V c t h p q ⟨1280 * (t.val / 2) + p.val, by omega⟩ rfl]
  show lay3 V c _ _ = lay3 V c _ _
  congr 1
  · apply Fin.ext
    show 1280 * (t.val / 2) + p.val = win3_5.index t (0 : Fin 2) * 1280 + 1 * p.val
    omega
  · apply Fin.ext
    show q.val = win3_5.index t (1 : Fin 2) * 128 + 1 * q.val
    omega

theorem mem_blk3 (t : Fin cfg3.N) (i : S10240x128.Idx) :
    i ∈ ((cfg3.win 5).blk t).view.set ↔ ∀ a : Fin 2, win3_5.index t a * S1280x128.size a ≤ (i a).val ∧ (i a).val < win3_5.index t a * S1280x128.size a + S1280x128.size a := by
  show i ∈ ((View.whole (Pipeline.arrRef spec3 5)).slice (win3_5.rect t)).set ↔ _
  rw [View.set_slice_whole, Rect.mem_set_unit]
  exact Iff.rfl

theorem cover3 (i : S10240x128.Idx) : ∃ t : Fin cfg3.N, (cfg3.win 5).flush t = true ∧ i ∈ ((cfg3.win 5).blk t).view.set := by
  have hi3 : (i 0).val < 10240 := (i 0).isLt
  have hi1 : (i 1).val < 128 := (i 1).isLt
  have hN : cfg3.N = 16 := N_3
  obtain ⟨t, ht⟩ : ∃ t : Fin cfg3.N, t.val = 2 * ((i 0).val / 1280) + 1 := ⟨⟨2 * ((i 0).val / 1280) + 1, by omega⟩, rfl⟩
  obtain ⟨-, -, -, -, -, -, -, -, -, -, e3, e1, -⟩ := idx_facts3 t
  refine ⟨t, (flush3_5 t).mpr (by omega), ?_⟩
  rw [mem_blk3]
  intro a
  match a with
  | ⟨0, _⟩ => show win3_5.index t (0 : Fin 2) * 1280 ≤ (i 0).val ∧ (i 0).val < win3_5.index t (0 : Fin 2) * 1280 + 1280; omega
  | ⟨1, _⟩ => show win3_5.index t (1 : Fin 2) * 128 ≤ (i 1).val ∧ (i 1).val < win3_5.index t (1 : Fin 2) * 128 + 128; omega

theorem final3 (c : Dev nD) : (dat3 V c).arrAt 5 cfg3.N = out3 V c :=
  (dat3 V c).arrAt_eq_of_cover 5 (out3 V c) (flushed3_eq V c) cover3

theorem arrAt3_out (c : Dev nD) (r : Fin 10240) (j : Fin 128) :
    (dat3 (F := Ideal) V c).arrAt 5 cfg3.N (ValueIdx.ix2 r j)
      = GinSpec.klin (fun r u => V c (Pipeline.arrRef spec3 0) (ValueIdx.ix2 r u)) (fun r k => V c (Pipeline.arrRef spec3 1) (ValueIdx.ix2 r k))
          (fun r k => V c (Pipeline.arrRef spec3 2) (ValueIdx.ix2 r k)) (fun k j => V c (Pipeline.arrRef spec3 3) (ValueIdx.ix2 k j))
          (fun j => V c (Pipeline.arrRef spec3 4) (ValueIdx.ix2 (0 : Fin 1) j)) r j :=
  congrFun (final3 V c) (ix2 r j)

end Region

end Cert.KernelIdeal.Hand

end
-- ==== Proof.Math.Count.lean ====
/- Scatter-adding ones into a zero array leaves, at each cell, the number of updates aimed at it. -/
import Idealize.ShloMosaic.PureOps.ShapeOps
import Mathlib.Data.Fintype.Basic
import Mathlib.Data.Finset.Card

noncomputable section

namespace GinMath

open Idealize.ShloMosaic

theorem foldl_addi_one_count {s si u : Shape} {w : Nat} (d : ScatterDims s si u) (idx : IVec si w)
    (i : s.Idx) (l : List (Fin u.numel)) (r : s.Idx → BitVec 32) :
    (l.foldl (fun r n =>
        match d.resultIdx? (u.rowMajor.symm n) idx with
        | some k => fun i' => if i' = k then IntOp.addi (r k) ((fun _ => (1 : BitVec 32)) (u.rowMajor.symm n)) else r i'
        | none => r) r) i
      = r i + BitVec.ofNat 32
          (l.countP fun n => decide (d.resultIdx? (u.rowMajor.symm n) idx = some i)) := by
  induction l generalizing r with
  | nil => simp
  | cons n l ih =>
    rw [List.foldl_cons, ih, List.countP_cons]
    cases h : d.resultIdx? (u.rowMajor.symm n) idx with
    | none => simp
    | some k =>
      by_cases hk : i = k
      · subst hk
        simp only [if_true, decide_true, IntOp.addi]
        rw [BitVec.ofNat_add, BitVec.add_assoc, BitVec.add_comm (BitVec.ofNat 32 _)]
        rfl
      · have hk' : ¬ (some k = some i) := fun e => hk (Option.some.inj e).symm
        simp [hk, hk']

theorem scatter_addi_ones {s si u : Shape} {w : Nat} (d : ScatterDims s si u) (idx : IVec si w)
    (i : s.Idx) :
    Host.scatter d IntOp.addi (fun _ => (0 : BitVec 32)) idx (fun _ => (1 : BitVec 32)) i
      = BitVec.ofNat 32
          (Finset.univ.filter (fun j : u.Idx => d.resultIdx? j idx = some i)).card := by
  refine (foldl_addi_one_count d idx i (List.finRange u.numel) (fun _ => (0 : BitVec 32))).trans ?_
  have h0 : ∀ x : BitVec 32, (0 : BitVec 32) + x = x := fun x => BitVec.zero_add x
  rw [h0]
  congr 1
  rw [List.countP_eq_length_filter]
  have hfin : (List.filter
        (fun n => decide (d.resultIdx? (u.rowMajor.symm n) idx = some i)) (List.finRange u.numel)).length
      = (Finset.univ.filter
          (fun n : Fin u.numel => d.resultIdx? (u.rowMajor.symm n) idx = some i)).card := by
    rw [Fin.univ_def]
    rfl
  rw [hfin]
  exact Finset.card_equiv u.rowMajor.symm (fun n => by simp)

theorem toInt_ofNat_count (n : ℕ) (h : n ≤ 640000) : (BitVec.ofNat 32 n).toInt = (n : ℤ) := by
  rw [BitVec.toInt_eq_toNat_cond, BitVec.toNat_ofNat]
  have hmod : n % 2 ^ 32 = n := Nat.mod_eq_of_lt (by omega)
  rw [hmod]
  split
  · rfl
  · omega

end GinMath
-- ==== Proof.Math.Dims.lean ====
/- Where the scatter, gather and pad operations of the two programs read and write, coordinate by coordinate. -/
import Idealize.ShloMosaic.PureOps
import Idealize.ShloMosaic.Lib.ValueIdx

noncomputable section

namespace GinMath

open Idealize.ShloMosaic

abbrev SNN : Shape := ⟨2, ![10240, 10240]⟩
abbrev SE2 : Shape := ⟨2, ![640000, 2]⟩
abbrev SE : Shape := ⟨1, ![640000]⟩
abbrev SN : Shape := ⟨2, ![10000, 128]⟩
abbrev SE1 : Shape := ⟨2, ![640000, 1]⟩
abbrev SEC : Shape := ⟨2, ![640000, 128]⟩

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h, Option.some.injEq]
    constructor
    · intro e a
      have ha := congrArg Fin.val (congrFun e a)
      have h0 := (h a).1
      simp only at ha
      omega
    · intro e
      funext a
      refine Fin.ext ?_
      have := e a
      simp only
      omega
  · rw [dif_neg h]
    constructor
    · intro e
      exact absurd e (by simp)
    · intro e
      refine absurd (fun a => ?_) h
      have := e a
      have hlt := (i a).isLt
      constructor <;> omega

theorem forall_axis2 {P : Fin 2 → Prop} : (∀ a, P a) ↔ P 0 ∧ P 1 :=
  ⟨fun h => ⟨h 0, h 1⟩, fun h a => match a with | ⟨0, _⟩ => h.1 | ⟨1, _⟩ => h.2⟩

theorem count_resultIdx (d : ScatterDims SNN SE2 SE) (h1 : d.updateWindowDims = []) (h2 : d.insertedWindowDims = [0, 1])
    (h3 : d.scatterDimsToOperandDims = [0, 1]) (h4 : d.indexVectorDim = 1)
    (idx : IVec SE2 32) (j : SE.Idx) (i : SNN.Idx) :
    d.resultIdx? j idx = some i ↔
      (idx (ValueIdx.ix2 (j 0) 0)).toInt = ((i 0).val : ℤ) ∧ (idx (ValueIdx.ix2 (j 0) 1)).toInt = ((i 1).val : ℤ) := by
  obtain ⟨uw, iw, sd, iv, wf⟩ := d
  dsimp only at h1 h2 h3 h4
  subst h1 h2 h3 h4
  rw [resultIdx?_eq_some_iff]
  have hw : ∀ a, ScatterDims.window (s := SNN) (si := SE2) (u := SE) ⟨[], [0, 1], [0, 1], 1, wf⟩ j a = 0 := by
    intro a
    unfold ScatterDims.window
    have hk : Shape.kept SNN [0, 1] = [] := by decide
    rw [dif_neg]
    show a ∉ Shape.kept SNN [0, 1]
    rw [hk]
    exact List.not_mem_nil
  have hj : ∀ X : Fin 1, ((j X).val : ℕ) = (j 0).val := fun X => by
    obtain rfl : X = 0 := Subsingleton.elim _ _
    rfl
  have hs0 : ScatterDims.start (s := SNN) (si := SE2) (u := SE) ⟨[], [0, 1], [0, 1], 1, wf⟩ j idx 0
      = (idx (ValueIdx.ix2 (j 0) 0)).toInt := by
    unfold ScatterDims.start
    rw [dif_pos (show (0 : Fin SNN.rank) ∈ [0, 1] by decide)]
    congr 2
    funext b
    refine Fin.ext ?_
    match b with
    | ⟨0, _⟩ => exact hj _
    | ⟨1, _⟩ => rfl
  have hs1 : ScatterDims.start (s := SNN) (si := SE2) (u := SE) ⟨[], [0, 1], [0, 1], 1, wf⟩ j idx 1
      = (idx (ValueIdx.ix2 (j 0) 1)).toInt := by
    unfold ScatterDims.start
    rw [dif_pos (show (1 : Fin SNN.rank) ∈ [0, 1] by decide)]
    congr 2
    funext b
    refine Fin.ext ?_
    match b with
    | ⟨0, _⟩ => exact hj _
    | ⟨1, _⟩ => rfl
  rw [forall_axis2 (P := fun a => ScatterDims.start (s := SNN) (si := SE2) (u := SE) ⟨[], [0, 1], [0, 1], 1, wf⟩ j idx a
    + (ScatterDims.window (s := SNN) (si := SE2) (u := SE) ⟨[], [0, 1], [0, 1], 1, wf⟩ j a : ℤ) = ((i a).val : ℤ))]
  simp only [hw, hs0, hs1, Nat.cast_zero, add_zero]

theorem segsum_resultIdx (d : ScatterDims SN SE1 SEC) (h1 : d.updateWindowDims = [1]) (h2 : d.insertedWindowDims = [0])
    (h3 : d.scatterDimsToOperandDims = [0]) (h4 : d.indexVectorDim = 1)
    (idx : IVec SE1 32) (j : SEC.Idx) (i : SN.Idx) :
    d.resultIdx? j idx = some i ↔
      (idx (ValueIdx.ix2 (j 0) 0)).toInt = ((i 0).val : ℤ) ∧ (j 1).val = (i 1).val := by
  obtain ⟨uw, iw, sd, iv, wf⟩ := d
  dsimp only at h1 h2 h3 h4
  subst h1 h2 h3 h4
  rw [resultIdx?_eq_some_iff]
  have hk : Shape.kept SN [0] = [1] := by decide
  have hw0 : ScatterDims.window (s := SN) (si := SE1) (u := SEC) ⟨[1], [0], [0], 1, wf⟩ j 0 = 0 := by
    unfold ScatterDims.window
    rw [dif_neg]
    show (0 : Fin SN.rank) ∉ Shape.kept SN [0]
    rw [hk]
    decide
  have hw1 : ScatterDims.window (s := SN) (si := SE1) (u := SEC) ⟨[1], [0], [0], 1, wf⟩ j 1 = (j 1).val := by
    unfold ScatterDims.window
    rw [dif_pos (show (1 : Fin SN.rank) ∈ Shape.kept SN [0] by rw [hk]; decide)]
    rfl
  have hs0 : ScatterDims.start (s := SN) (si := SE1) (u := SEC) ⟨[1], [0], [0], 1, wf⟩ j idx 0
      = (idx (ValueIdx.ix2 (j 0) 0)).toInt := by
    unfold ScatterDims.start
    rw [dif_pos (show (0 : Fin SN.rank) ∈ [0] by decide)]
    congr 2
    funext b
    refine Fin.ext ?_
    match b with
    | ⟨0, _⟩ => rfl
    | ⟨1, _⟩ => rfl
  have hs1 : ScatterDims.start (s := SN) (si := SE1) (u := SEC) ⟨[1], [0], [0], 1, wf⟩ j idx 1 = 0 := by
    unfold ScatterDims.start
    rw [dif_neg (show (1 : Fin SN.rank) ∉ [0] by decide)]
  rw [forall_axis2 (P := fun a => ScatterDims.start (s := SN) (si := SE1) (u := SEC) ⟨[1], [0], [0], 1, wf⟩ j idx a
    + (ScatterDims.window (s := SN) (si := SE1) (u := SEC) ⟨[1], [0], [0], 1, wf⟩ j a : ℤ) = ((i a).val : ℤ))]
  simp only [hw0, hw1, hs0, hs1, Nat.cast_zero, add_zero, zero_add, Nat.cast_inj]

theorem take_operandIdx (d : GatherDims SN SE1 SEC) (h1 : d.offsetDims = [1]) (h2 : d.collapsedSliceDims = [0])
    (h3 : d.operandBatchingDims = []) (h4 : d.startIndicesBatchingDims = []) (h5 : d.startIndexMap = [0])
    (h6 : d.indexVectorDim = 1) (h7 : d.sliceSizes = ![1, 128])
    (idx : IVec SE1 32) (j : SEC.Idx) (v : Fin 10000) (hv : (idx (ValueIdx.ix2 (j 0) 0)).toInt = (v.val : ℤ)) :
    d.operandIdx j idx = ValueIdx.ix2 v (j 1) := by
  obtain ⟨od, cd, ob, sb, sm, iv, ss, wf⟩ := d
  dsimp only at h1 h2 h3 h4 h5 h6 h7
  subst h1 h2 h3 h4 h5 h6 h7
  have hk : Shape.kept SN ([0] ++ []) = [1] := by decide
  have hb : ∀ a, GatherDims.batchCoord (s := SN) (si := SE1) (t := SEC) ⟨[1], [0], [], [], [0], 1, ![1, 128], wf⟩ j a = 0 :=
    fun a => GatherDims.batchCoord_eq_zero _ _ _ List.not_mem_nil
  have ho0 : GatherDims.offCoord (s := SN) (si := SE1) (t := SEC) ⟨[1], [0], [], [], [0], 1, ![1, 128], wf⟩ j 0 = 0 := by
    refine GatherDims.offCoord_eq_zero _ _ _ ?_
    show (0 : Fin SN.rank) ∉ Shape.kept SN ([0] ++ [])
    rw [hk]
    decide
  have ho1 : GatherDims.offCoord (s := SN) (si := SE1) (t := SEC) ⟨[1], [0], [], [], [0], 1, ![1, 128], wf⟩ j 1
      = (j 1).val := by
    unfold GatherDims.offCoord
    rw [dif_pos (show (1 : Fin SN.rank) ∈ Shape.kept SN ([0] ++ []) by rw [hk]; decide)]
    rfl
  have hs0 : GatherDims.start (s := SN) (si := SE1) (t := SEC) ⟨[1], [0], [], [], [0], 1, ![1, 128], wf⟩ j idx 0
      = v.val := by
    unfold GatherDims.start
    rw [dif_pos (show (0 : Fin SN.rank) ∈ [0] by decide)]
    have hsi : GatherDims.siIdx (s := SN) (si := SE1) (t := SEC) ⟨[1], [0], [], [], [0], 1, ![1, 128], wf⟩ j
        ⟨List.idxOf (0 : Fin SN.rank) [0], List.idxOf_lt_length_iff.2 (show (0 : Fin SN.rank) ∈ [0] by decide)⟩
        = ValueIdx.ix2 (j 0) 0 := by
      funext b
      refine Fin.ext ?_
      match b with
      | ⟨0, _⟩ => rfl
      | ⟨1, _⟩ => rfl
    rw [hsi]
    have e : ∀ (x : ℤ) (n : ℕ), x = (n : ℤ) → n < 10000 → min x.toNat (10000 - 1) = n := by
      intro x n hx hn
      omega
    exact e _ _ hv v.isLt
  have hs1 : GatherDims.start (s := SN) (si := SE1) (t := SEC) ⟨[1], [0], [], [], [0], 1, ![1, 128], wf⟩ j idx 1 = 0 := by
    unfold GatherDims.start
    rw [dif_neg (show (1 : Fin SN.rank) ∉ [0] by decide)]
  funext a
  refine Fin.ext ?_
  match a with
  | ⟨0, _⟩ =>
    show GatherDims.start _ j idx 0 + GatherDims.batchCoord _ j 0 + GatherDims.offCoord _ j 0 = v.val
    simp only [hs0, hb, ho0, Nat.add_zero]
  | ⟨1, _⟩ =>
    show GatherDims.start _ j idx 1 + GatherDims.batchCoord _ j 1 + GatherDims.offCoord _ j 1 = (j 1).val
    simp only [hs1, hb, ho1, Nat.zero_add]

abbrev SWW : Shape := ⟨2, ![128, 128]⟩
abbrev S1' : Shape := ⟨1, ![1]⟩
abbrev SW64 : Shape := ⟨2, ![128, 64]⟩
abbrev SB : Shape := ⟨1, ![128]⟩
abbrev SB64 : Shape := ⟨1, ![64]⟩

theorem forall_axis1 {P : Fin 1 → Prop} : (∀ a, P a) ↔ P 0 :=
  ⟨fun h => h 0, fun h a => match a with | ⟨0, _⟩ => h⟩

theorem padW_resultIdx (d : ScatterDims SWW S1' SW64) (h1 : d.updateWindowDims = [0, 1]) (h2 : d.insertedWindowDims = [])
    (h3 : d.scatterDimsToOperandDims = [1]) (h4 : d.indexVectorDim = 0)
    (idx : IVec S1' 32) (h0 : (idx (ValueIdx.ix1 (0 : Fin 1))).toInt = 0) (j : SW64.Idx) (i : SWW.Idx) :
    d.resultIdx? j idx = some i ↔ (j 0).val = (i 0).val ∧ (j 1).val = (i 1).val := by
  obtain ⟨uw, iw, sd, iv, wf⟩ := d
  dsimp only at h1 h2 h3 h4
  subst h1 h2 h3 h4
  rw [resultIdx?_eq_some_iff]
  have hk : Shape.kept SWW [] = [0, 1] := by decide
  have hw0 : ScatterDims.window (s := SWW) (si := S1') (u := SW64) ⟨[0, 1], [], [1], 0, wf⟩ j 0 = (j 0).val := by
    unfold ScatterDims.window
    rw [dif_pos (show (0 : Fin SWW.rank) ∈ Shape.kept SWW [] by rw [hk]; decide)]
    rfl
  have hw1 : ScatterDims.window (s := SWW) (si := S1') (u := SW64) ⟨[0, 1], [], [1], 0, wf⟩ j 1 = (j 1).val := by
    unfold ScatterDims.window
    rw [dif_pos (show (1 : Fin SWW.rank) ∈ Shape.kept SWW [] by rw [hk]; decide)]
    rfl
  have hs0 : ScatterDims.start (s := SWW) (si := S1') (u := SW64) ⟨[0, 1], [], [1], 0, wf⟩ j idx 0 = 0 := by
    unfold ScatterDims.start
    rw [dif_neg (show (0 : Fin SWW.rank) ∉ [1] by decide)]
  have hs1 : ScatterDims.start (s := SWW) (si := S1') (u := SW64) ⟨[0, 1], [], [1], 0, wf⟩ j idx 1 = 0 := by
    unfold ScatterDims.start
    rw [dif_pos (show (1 : Fin SWW.rank) ∈ [1] by decide)]
    refine Eq.trans ?_ h0
    congr 2
    funext b
    refine Fin.ext ?_
    match b with
    | ⟨0, _⟩ => rfl
  rw [forall_axis2 (P := fun a => ScatterDims.start (s := SWW) (si := S1') (u := SW64) ⟨[0, 1], [], [1], 0, wf⟩ j idx a
    + (ScatterDims.window (s := SWW) (si := S1') (u := SW64) ⟨[0, 1], [], [1], 0, wf⟩ j a : ℤ) = ((i a).val : ℤ))]
  simp only [hw0, hw1, hs0, hs1, zero_add, Nat.cast_inj]

theorem padb_resultIdx (d : ScatterDims SB S1' SB64) (h1 : d.updateWindowDims = [0]) (h2 : d.insertedWindowDims = [])
    (h3 : d.scatterDimsToOperandDims = [0]) (h4 : d.indexVectorDim = 0)
    (idx : IVec S1' 32) (h0 : (idx (ValueIdx.ix1 (0 : Fin 1))).toInt = 0) (j : SB64.Idx) (i : SB.Idx) :
    d.resultIdx? j idx = some i ↔ (j 0).val = (i 0).val := by
  obtain ⟨uw, iw, sd, iv, wf⟩ := d
  dsimp only at h1 h2 h3 h4
  subst h1 h2 h3 h4
  rw [resultIdx?_eq_some_iff]
  have hk : Shape.kept SB [] = [0] := by decide
  have hw0 : ScatterDims.window (s := SB) (si := S1') (u := SB64) ⟨[0], [], [0], 0, wf⟩ j 0 = (j 0).val := by
    unfold ScatterDims.window
    rw [dif_pos (show (0 : Fin SB.rank) ∈ Shape.kept SB [] by rw [hk]; decide)]
    rfl
  have hs0 : ScatterDims.start (s := SB) (si := S1') (u := SB64) ⟨[0], [], [0], 0, wf⟩ j idx 0 = 0 := by
    unfold ScatterDims.start
    rw [dif_pos (show (0 : Fin SB.rank) ∈ [0] by decide)]
    refine Eq.trans ?_ h0
    congr 2
    funext b
    refine Fin.ext ?_
    match b with
    | ⟨0, _⟩ => rfl
  rw [forall_axis1 (P := fun a => ScatterDims.start (s := SB) (si := S1') (u := SB64) ⟨[0], [], [0], 0, wf⟩ j idx a
    + (ScatterDims.window (s := SB) (si := S1') (u := SB64) ⟨[0], [], [0], 0, wf⟩ j a : ℤ) = ((i a).val : ℤ))]
  simp only [hw0, hs0, zero_add, Nat.cast_inj]

end GinMath

end
-- ==== Proof.KI.HostA.lean ====
/- The matrix the host builds before the first layer: entry (v, u) is the number of edges from u to v. -/
import proofs.«414469_j73718818669208_3_alg».proof.Proof.Gen.KernelIdeal.Launch
import Idealize.ShloMosaic.Lib.StableHlo.Run
import Idealize.ShloMosaic.Lib.ValueIdx
import Idealize.ShloMosaic.Lib.Pipeline.Value
import proofs.«414469_j73718818669208_3_alg».proof.Proof.Spec
import proofs.«414469_j73718818669208_3_alg».proof.Proof.Math.Count
import proofs.«414469_j73718818669208_3_alg».proof.Proof.Math.Dims

noncomputable section

namespace Cert.KernelIdeal.HostVal

open Cert.KernelIdeal Cert.KernelIdeal.Gen Idealize.ShloMosaic Idealize.ShloMosaic.TcCoe Idealize.SL.Sem

abbrev wrap (x : IVec S640000 32) : IVec S640000 32 :=
  select (cmpi .slt x (broadcastInDim S640000 ![] bcast_S_S640000 (constantI S_ 32 0#32)))
    (addi x (broadcastInDim S640000 ![] bcast_S_S640000 (constantI S_ 32 10240#32))) x

abbrev pairs (d s : IVec S640000 32) : IVec S640000x2 32 :=
  concatenate S640000x2 1 [⟨S640000x1, broadcastInDim S640000x1 ![0] bcast_S640000_S640000x1_0 d⟩,
    ⟨S640000x1, broadcastInDim S640000x1 ![0] bcast_S640000_S640000x1_0 s⟩] concatenates_S640000x1_S640000x1_S640000x2_d1

theorem wrap_apply (x : IVec S640000 32) (e : Fin 640000) (n : ℕ) (h : (x (ValueIdx.ix1 e)).toInt = (n : ℤ)) :
    wrap x (ValueIdx.ix1 e) = x (ValueIdx.ix1 e) := by
  show Scalar.select (IntOp.cmpi .slt (x (ValueIdx.ix1 e)) 0#32) (IntOp.addi (x (ValueIdx.ix1 e)) 10240#32) (x (ValueIdx.ix1 e)) = _
  have h0 : (0#32 : BitVec 32).toInt = 0 := by decide
  have hc : IntOp.cmpi .slt (x (ValueIdx.ix1 e)) 0#32 = 0#1 := by
    unfold IntOp.cmpi
    have hs : (x (ValueIdx.ix1 e)).slt 0#32 = false := by
      rw [BitVec.slt, h, h0]
      exact decide_eq_false (by omega)
    rw [hs]
    rfl
  rw [hc, ValueIdx.select_zero]

theorem pairs_col0 (d s : IVec S640000 32) (e : Fin 640000) : pairs d s (ValueIdx.ix2 e 0) = d (ValueIdx.ix1 e) := by
  show concatenate S640000x2 1 [⟨S640000x1, broadcastInDim S640000x1 ![0] bcast_S640000_S640000x1_0 d⟩,
    ⟨S640000x1, broadcastInDim S640000x1 ![0] bcast_S640000_S640000x1_0 s⟩] concatenates_S640000x1_S640000x1_S640000x2_d1 (ValueIdx.ix2 e 0) = _
  refine (concatenate_pair_apply_left (t := S640000x2) (s₁ := S640000x1) (s₂ := S640000x1) 1 _ _
    concatenates_S640000x1_S640000x1_S640000x2_d1 (ValueIdx.ix2 e 0) rfl
    (ValueIdx.ix2 e (0 : Fin 1)) (fun b => match b with | ⟨0, _⟩ => rfl | ⟨1, _⟩ => rfl)).trans ?_
  exact broadcastInDim_apply _ _ d _ (ValueIdx.ix1 e) (fun a => match a with | ⟨0, _⟩ => rfl)

theorem pairs_col1 (d s : IVec S640000 32) (e : Fin 640000) : pairs d s (ValueIdx.ix2 e 1) = s (ValueIdx.ix1 e) := by
  show concatenate S640000x2 1 [⟨S640000x1, broadcastInDim S640000x1 ![0] bcast_S640000_S640000x1_0 d⟩,
    ⟨S640000x1, broadcastInDim S640000x1 ![0] bcast_S640000_S640000x1_0 s⟩] concatenates_S640000x1_S640000x1_S640000x2_d1 (ValueIdx.ix2 e 1) = _
  refine (concatenate_pair_apply_right (t := S640000x2) (s₁ := S640000x1) (s₂ := S640000x1) 1 _ _
    concatenates_S640000x1_S640000x1_S640000x2_d1 (ValueIdx.ix2 e 1) rfl rfl
    (ValueIdx.ix2 e (0 : Fin 1)) (fun b => match b with | ⟨0, _⟩ => fun _ => rfl | ⟨1, _⟩ => fun hb => absurd rfl hb) rfl).trans ?_
  exact broadcastInDim_apply _ _ s _ (ValueIdx.ix1 e) (fun a => match a with | ⟨0, _⟩ => rfl)

theorem count_pairs (idx : IVec S640000x2 32) (src dst : Fin 640000 → Fin 10000)
    (h0 : ∀ e : Fin 640000, (idx (ValueIdx.ix2 e 0)).toInt = ((dst e).val : ℤ))
    (h1 : ∀ e : Fin 640000, (idx (ValueIdx.ix2 e 1)).toInt = ((src e).val : ℤ)) (r u : Fin 10240) :
    (Finset.univ.filter (fun j : S640000.Idx =>
        scatter_S10240x10240_S640000x2_S640000_n_01_01_1.resultIdx? j idx = some (ValueIdx.ix2 r u))).card
      = (Finset.univ.filter (fun e : Fin 640000 => (dst e).val = r.val ∧ (src e).val = u.val)).card := by
  have key : ∀ j : S640000.Idx,
      scatter_S10240x10240_S640000x2_S640000_n_01_01_1.resultIdx? j idx = some (ValueIdx.ix2 r u)
        ↔ ((dst (j 0)).val = r.val ∧ (src (j 0)).val = u.val) := by
    intro j
    rw [GinMath.count_resultIdx scatter_S10240x10240_S640000x2_S640000_n_01_01_1 rfl rfl rfl rfl idx j (ValueIdx.ix2 r u)]
    constructor
    · rintro ⟨a, b⟩
      exact ⟨Nat.cast_inj.1 ((h0 (j 0)).symm.trans a), Nat.cast_inj.1 ((h1 (j 0)).symm.trans b)⟩
    · rintro ⟨a, b⟩
      exact ⟨(h0 (j 0)).trans (congrArg (fun n : ℕ => (n : ℤ)) a), (h1 (j 0)).trans (congrArg (fun n : ℕ => (n : ℤ)) b)⟩
  refine Finset.card_bij (fun j _ => j 0) ?_ ?_ ?_
  · intro j hj
    exact Finset.mem_filter.2 ⟨Finset.mem_univ _, (key j).1 (Finset.mem_filter.1 hj).2⟩
  · intro j _ j' _ h
    exact (ValueIdx.eq_ix1 j).trans ((congrArg ValueIdx.ix1 h).trans (ValueIdx.eq_ix1 j').symm)
  · intro e he
    exact ⟨ValueIdx.ix1 e, Finset.mem_filter.2 ⟨Finset.mem_univ _, (key (ValueIdx.ix1 e)).2 (Finset.mem_filter.1 he).2⟩, rfl⟩

set_option maxHeartbeats 4000000 in

theorem entry0_A (X : Valuation τ sig (Elt Ideal)) (src dst : Fin 640000 → Fin 10000)
    (hsrc : ∀ e : Fin 640000, (X main_arg1 (ValueIdx.ix1 e)).toInt = ((src e).val : ℤ))
    (hdst : ∀ e : Fin 640000, (X main_arg2 (ValueIdx.ix1 e)).toInt = ((dst e).val : ℤ)) (r u : Fin 10240) :
    StableHlo.after hostOps0 X main_v16 (ValueIdx.ix2 r u) = GinSpec.cnt src dst r u := by
  have e : @Eq (S10240x10240.Idx → EReal) (StableHlo.after hostOps0 X main_v16)
      (sitofp (F := Ideal) .bf16 (Host.scatter scatter_S10240x10240_S640000x2_S640000_n_01_01_1 IntOp.addi
          (broadcastInDim S10240x10240 ![] bcast_S_S10240x10240 (constantI S_ 32 0#32))
          (pairs (wrap (X main_arg2)) (wrap (X main_arg1)))
          (broadcastInDim S640000 ![] bcast_S_S640000 (constantI S_ 32 1#32)))) := by
    dsimp only [hostOps0]
    after_results
  have h0 : ∀ e : Fin 640000, (pairs (wrap (X main_arg2)) (wrap (X main_arg1)) (ValueIdx.ix2 e 0)).toInt = ((dst e).val : ℤ) := by
    intro e
    rw [pairs_col0, wrap_apply _ e _ (hdst e)]
    exact hdst e
  have h1 : ∀ e : Fin 640000, (pairs (wrap (X main_arg2)) (wrap (X main_arg1)) (ValueIdx.ix2 e 1)).toInt = ((src e).val : ℤ) := by
    intro e
    rw [pairs_col1, wrap_apply _ e _ (hsrc e)]
    exact hsrc e
  have hs : Host.scatter scatter_S10240x10240_S640000x2_S640000_n_01_01_1 IntOp.addi
        (broadcastInDim S10240x10240 ![] bcast_S_S10240x10240 (constantI S_ 32 0#32))
        (pairs (wrap (X main_arg2)) (wrap (X main_arg1)))
        (broadcastInDim S640000 ![] bcast_S_S640000 (constantI S_ 32 1#32)) (ValueIdx.ix2 r u)
      = BitVec.ofNat 32 (Finset.univ.filter (fun e : Fin 640000 => (dst e).val = r.val ∧ (src e).val = u.val)).card := by
    rw [← count_pairs _ src dst h0 h1 r u]
    exact GinMath.scatter_addi_ones scatter_S10240x10240_S640000x2_S640000_n_01_01_1 _ (ValueIdx.ix2 r u)
  have hle : (Finset.univ.filter (fun e : Fin 640000 => (dst e).val = r.val ∧ (src e).val = u.val)).card ≤ 640000 := by
    refine (Finset.card_le_univ _).trans ?_
    rw [Fintype.card_fin]
  rw [e]
  show (((Host.scatter scatter_S10240x10240_S640000x2_S640000_n_01_01_1 IntOp.addi
        (broadcastInDim S10240x10240 ![] bcast_S_S10240x10240 (constantI S_ 32 0#32))
        (pairs (wrap (X main_arg2)) (wrap (X main_arg1)))
        (broadcastInDim S640000 ![] bcast_S_S640000 (constantI S_ 32 1#32)) (ValueIdx.ix2 r u)).toInt : ℝ) : EReal) = _
  rw [hs, GinMath.toInt_ofNat_count _ hle, Int.cast_natCast]
  rfl

end Cert.KernelIdeal.HostVal

end
-- ==== Proof.KI.HostVals0.lean ====
/- The host arithmetic around the layers read at an entry: rows below 10000 are kept, the 240 rows of padding are zero. -/
import proofs.«414469_j73718818669208_3_alg».proof.Proof.Gen.KernelIdeal.Regions
import proofs.«414469_j73718818669208_3_alg».proof.Proof.Spec
import Idealize.ShloMosaic.Lib.StableHlo.Run
import Idealize.ShloMosaic.Lib.ValueIdx
import Idealize.ShloMosaic.Lib.Pipeline.Value
import Idealize.ShloMosaic.Lib.KernelVsHost
import Idealize.ShloMosaic.Lib.IdealHost
import Idealize.ShloMosaic.Lib.ValueLayout
import Idealize.ShloMosaic.Lib.StableHlo.Predicate

set_option maxRecDepth 4096

noncomputable section

namespace Cert.KernelIdeal.HostVal

open Cert.KernelIdeal Cert.KernelIdeal.Gen
open Idealize.ShloMosaic Idealize.ShloMosaic.TcCoe
open Idealize.SL.Sem

abbrev at0 (X : Valuation τ sig (Elt Ideal)) : Valuation τ sig (Elt Ideal) :=
  StableHlo.after hostOps0_4 (StableHlo.after hostOps0_3 (StableHlo.after hostOps0_2 (StableHlo.after hostOps0_1 (StableHlo.after hostOps0 X))))

abbrev at1 (X : Valuation τ sig (Elt Ideal)) : Valuation τ sig (Elt Ideal) :=
  StableHlo.after hostOps1_2 (StableHlo.after hostOps1_1 (StableHlo.after hostOps1 X))

abbrev at2 (X : Valuation τ sig (Elt Ideal)) : Valuation τ sig (Elt Ideal) :=
  StableHlo.after hostOps2_2 (StableHlo.after hostOps2_1 (StableHlo.after hostOps2 X))

abbrev at3 (X : Valuation τ sig (Elt Ideal)) : Valuation τ sig (Elt Ideal) :=
  StableHlo.after hostOps3_2 (StableHlo.after hostOps3_1 (StableHlo.after hostOps3 X))

theorem ix2_eq_ij {n m : Nat} (p : Fin n) (q : Fin m) : ValueIdx.ix2 p q = StableHlo.Predicate.ij p q := by
  funext d; match d with | ⟨0, _⟩ => rfl | ⟨1, _⟩ => rfl

theorem rowMask_apply (h0 : S_.BroadcastsInDim S10240 (![] : Fin 0 → Fin S10240.rank))
    (h1 : S10240.BroadcastsInDim S10240x1 (![0] : Fin 1 → Fin S10240x1.rank))
    (h2 : S10240x1.BroadcastsInDim S10240x128 (![0, 1] : Fin 2 → Fin S10240x128.rank)) (r : Fin 10240) (k : Fin 128) :
    broadcastInDim S10240x128 ![0, 1] h2 (broadcastInDim S10240x1 ![0] h1
        (cmpi CmpIPredicate.slt (iotaInDim S10240 32 0) (broadcastInDim S10240 ![] h0 (constantI S_ 32 10000#32))))
      (ValueIdx.ix2 r k) = if r.val < 10000 then 1#1 else 0#1 := by
  rw [ix2_eq_ij, StableHlo.Predicate.bcast_rows]
  show IntOp.cmpi CmpIPredicate.slt (BitVec.ofNat 32 r.val) (BitVec.ofNat 32 10000) = _
  have hr := r.isLt
  have hlt : (BitVec.ofNat 32 r.val).toNat = r.val := by
    rw [BitVec.toNat_ofNat]; exact Nat.mod_eq_of_lt (by omega)
  have hc : (BitVec.ofNat 32 10000).toNat = 10000 := by decide
  have hiff := StableHlo.Predicate.slt_iff_toNat (a := BitVec.ofNat 32 r.val) (b := BitVec.ofNat 32 10000)
    (by rw [hlt]; omega) (by rw [hc]; decide)
  rw [hlt, hc] at hiff
  by_cases hlt' : r.val < 10000
  · rw [if_pos hlt', hiff.mpr hlt']
  · rw [if_neg hlt']
    exact ValueIdx.eq_zero_of_ne_one (fun h => hlt' (hiff.mp h))

theorem masked_apply (h0 : S_.BroadcastsInDim S10240 (![] : Fin 0 → Fin S10240.rank))
    (h1 : S10240.BroadcastsInDim S10240x1 (![0] : Fin 1 → Fin S10240x1.rank))
    (h2 : S10240x1.BroadcastsInDim S10240x128 (![0, 1] : Fin 2 → Fin S10240x128.rank))
    (h3 : S_.BroadcastsInDim S10240x128 (![] : Fin 0 → Fin S10240x128.rank))
    (x : S10240x128.Idx → EReal) (r : Fin 10240) (k : Fin 128) :
    select (broadcastInDim S10240x128 ![0, 1] h2 (broadcastInDim S10240x1 ![0] h1
        (cmpi CmpIPredicate.slt (iotaInDim S10240 32 0) (broadcastInDim S10240 ![] h0 (constantI S_ 32 10000#32)))))
      x (broadcastInDim S10240x128 ![] h3 (constant (F := Ideal) S_ FTy.f32 0x00000000#32)) (ValueIdx.ix2 r k)
      = if r.val < 10000 then x (ValueIdx.ix2 r k) else (0 : EReal) := by
  rw [ValueIdx.select_apply, rowMask_apply]
  by_cases hlt : r.val < 10000
  · rw [if_pos hlt, if_pos hlt, ValueIdx.select_one]
  · rw [if_neg hlt, if_neg hlt, ValueIdx.select_zero, ValueIdx.broadcastInDim_scalar_apply, ValueIdx.constant_apply,
      Ideal.ofBits_zero_f32]

/-- The rows below 10000 of `x`, zeros in the 240 padding rows. -/
abbrev nodeRows (x : S10240x128.Idx → EReal) : S10240x128.Idx → EReal :=
  select (broadcastInDim S10240x128 ![0, 1] bcast_S10240x1_S10240x128_0_1 (broadcastInDim S10240x1 ![0] bcast_S10240_S10240x1_0
      (cmpi CmpIPredicate.slt (iotaInDim S10240 32 0) (broadcastInDim S10240 ![] bcast_S_S10240 (constantI S_ 32 10000#32)))))
    x (broadcastInDim S10240x128 ![] bcast_S_S10240x128 (constant (F := Ideal) S_ FTy.f32 0x00000000#32))

theorem padded_apply (hp : S10000x128.Pads (![0, 0] : Fin 2 → Nat) ![240, 0] ![0, 0] S10240x128) (hu : 0 < S_.numel)
    (x : S10000x128.Idx → EReal) (v : S_.Idx → EReal) (r : Fin 10240) (k : Fin 128) (hr : r.val < 10000) :
    pad S10240x128 ![0, 0] ![240, 0] ![0, 0] x v hp hu (ValueIdx.ix2 r k) = x (ValueIdx.ix2 (⟨r.val, hr⟩ : Fin 10000) k) :=
  pad_apply_of_inside _ _ _ x v hp hu _ _ (fun a => by
    match a with
    | ⟨0, _⟩ => show r.val = 0 + r.val * (0 + 1); omega
    | ⟨1, _⟩ => show k.val = 0 + k.val * (0 + 1); omega)

theorem cut_apply (h1 : S10240x128.Slices ![0, 0] S10240x64) (h2 : S10240x64.Slices ![0, 0] S10000x64)
    (x : S10240x128.Idx → EReal) (v : Fin 10000) (j : Fin 64) :
    extractStridedSlice S10000x64 ![0, 0] (extractStridedSlice S10240x64 ![0, 0] x h1) h2 (ValueIdx.ix2 v j)
      = x (ValueIdx.ix2 (⟨v.val, by omega⟩ : Fin 10240) (⟨j.val, by omega⟩ : Fin 128)) := by
  refine (extractStridedSlice_apply _ _ h2 _ (ValueIdx.ix2 (⟨v.val, by omega⟩ : Fin 10240) j) (fun a => ?_)).trans
    (extractStridedSlice_apply _ _ h1 _ _ (fun a => ?_))
  · match a with
    | ⟨0, _⟩ => show v.val = 0 + v.val; omega
    | ⟨1, _⟩ => show j.val = 0 + j.val; omega
  · match a with
    | ⟨0, _⟩ => show v.val = 0 + v.val; omega
    | ⟨1, _⟩ => show j.val = 0 + j.val; omega

abbrev argRefs : List (Ref sig .tc) :=
  [main_arg0, main_arg1, main_arg2, main_arg3, main_arg4, main_arg5, main_arg6, main_arg7, main_arg8, main_arg9, main_arg10]

end Cert.KernelIdeal.HostVal

end
-- ==== Proof.KI.HostVals1.lean ====
/- What the second, third and fourth layers start from: the previous layer's node rows with zeros below them, and their own weights and bias. -/
import proofs.«414469_j73718818669208_3_alg».proof.Proof.KI.HostVals0

set_option maxRecDepth 4096

noncomputable section

namespace Cert.KernelIdeal.HostVal

open Cert.KernelIdeal Cert.KernelIdeal.Gen
open Idealize.ShloMosaic Idealize.ShloMosaic.TcCoe
open Idealize.SL.Sem

theorem entry1_h (X : Valuation τ sig (Elt Ideal)) (r : Fin 10240) (k : Fin 128) :
    (at1 X main_v33 (ValueIdx.ix2 r k) : EReal) = if r.val < 10000 then (X main_v27 (ValueIdx.ix2 r k) : EReal) else (0 : EReal) := by
  have e : (at1 X main_v33 : S10240x128.Idx → EReal)
      = nodeRows (X main_v27 : S10240x128.Idx → EReal) := by
    dsimp only [at1, hostOps1_2, hostOps1_1, hostOps1]; after_results <;> rfl
  exact (congrFun e _).trans (masked_apply _ _ _ _ _ r k)

theorem entry1_hb (X : Valuation τ sig (Elt Ideal)) (r : Fin 10240) (k : Fin 128) :
    (at1 X main_v36 (ValueIdx.ix2 r k) : EReal) = if r.val < 10000 then (X main_v27 (ValueIdx.ix2 r k) : EReal) else (0 : EReal) := by
  have e : (at1 X main_v36 : S10240x128.Idx → EReal)
      = truncf (F := Ideal) FTy.bf16 (nodeRows (X main_v27 : FVec Ideal S10240x128 FTy.f32)) bitsLt_bf16_f32 := by
    dsimp only [at1, hostOps1_2, hostOps1_1, hostOps1]; after_results <;> rfl
  exact (congrFun e _).trans ((ValueIdx.truncf_apply (ψ := FTy.bf16) (φ := FTy.f32) _ bitsLt_bf16_f32 _).trans (masked_apply _ _ _ _ _ r k))

theorem entry1_A_keep (X : Valuation τ sig (Elt Ideal)) : at1 X main_v16 = X main_v16 :=
  (StableHlo.after_of_writes_sub hostOps1_2 _ hostOps1_2_writes (by decide)).trans <|
    (StableHlo.after_of_writes_sub hostOps1_1 _ hostOps1_1_writes (by decide)).trans <|
      StableHlo.after_of_writes_sub hostOps1 _ hostOps1_writes (by decide)

theorem entry1_arg (X : Valuation τ sig (Elt Ideal)) (r : Ref sig .tc) (hr : r ∈ argRefs) : at1 X r = X r :=
  (StableHlo.after_of_writes_sub hostOps1_2 _ hostOps1_2_writes ((by decide : ∀ r ∈ argRefs, r ∉ hostOps1_2_W) r hr)).trans <|
    (StableHlo.after_of_writes_sub hostOps1_1 _ hostOps1_1_writes ((by decide : ∀ r ∈ argRefs, r ∉ hostOps1_1_W) r hr)).trans <|
      StableHlo.after_of_writes_sub hostOps1 _ hostOps1_writes ((by decide : ∀ r ∈ argRefs, r ∉ hostOps1_W) r hr)

theorem entry1_W (X : Valuation τ sig (Elt Ideal)) (k j : Fin 128) :
    (at1 X main_v34 (ValueIdx.ix2 k j) : EReal) = X main_arg5 (ValueIdx.ix2 k j) := by
  have e : (at1 X main_v34 : S128x128.Idx → EReal)
      = truncf (F := Ideal) FTy.bf16 (X main_arg5 : FVec Ideal S128x128 FTy.f32) bitsLt_bf16_f32 := by
    dsimp only [at1, hostOps1_2, hostOps1_1, hostOps1]; after_results <;> rfl
  exact (congrFun e _).trans (ValueIdx.truncf_apply (ψ := FTy.bf16) (φ := FTy.f32) _ bitsLt_bf16_f32 _)

theorem entry1_b (X : Valuation τ sig (Elt Ideal)) (j : Fin 128) :
    (at1 X main_v35 (ValueIdx.ix2 (0 : Fin 1) j) : EReal) = X main_arg6 (ValueIdx.ix1 j) := by
  have e : (at1 X main_v35 : S1x128.Idx → EReal) = shapeCast S1x128 (X main_arg6 : S128.Idx → EReal) shapeCasts_S128_S1x128 := by
    dsimp only [at1, hostOps1_2, hostOps1_1, hostOps1]; after_results <;> rfl
  exact (congrFun e _).trans (ValueIdx.shapeCast_a_1a_apply _ _ _ _)

theorem entry2_h (X : Valuation τ sig (Elt Ideal)) (r : Fin 10240) (k : Fin 128) :
    (at2 X main_v43 (ValueIdx.ix2 r k) : EReal) = if r.val < 10000 then (X main_v37 (ValueIdx.ix2 r k) : EReal) else (0 : EReal) := by
  have e : (at2 X main_v43 : S10240x128.Idx → EReal)
      = nodeRows (X main_v37 : S10240x128.Idx → EReal) := by
    dsimp only [at2, hostOps2_2, hostOps2_1, hostOps2]; after_results <;> rfl
  exact (congrFun e _).trans (masked_apply _ _ _ _ _ r k)

theorem entry2_hb (X : Valuation τ sig (Elt Ideal)) (r : Fin 10240) (k : Fin 128) :
    (at2 X main_v46 (ValueIdx.ix2 r k) : EReal) = if r.val < 10000 then (X main_v37 (ValueIdx.ix2 r k) : EReal) else (0 : EReal) := by
  have e : (at2 X main_v46 : S10240x128.Idx → EReal)
      = truncf (F := Ideal) FTy.bf16 (nodeRows (X main_v37 : FVec Ideal S10240x128 FTy.f32)) bitsLt_bf16_f32 := by
    dsimp only [at2, hostOps2_2, hostOps2_1, hostOps2]; after_results <;> rfl
  exact (congrFun e _).trans ((ValueIdx.truncf_apply (ψ := FTy.bf16) (φ := FTy.f32) _ bitsLt_bf16_f32 _).trans (masked_apply _ _ _ _ _ r k))

theorem entry2_A_keep (X : Valuation τ sig (Elt Ideal)) : at2 X main_v16 = X main_v16 :=
  (StableHlo.after_of_writes_sub hostOps2_2 _ hostOps2_2_writes (by decide)).trans <|
    (StableHlo.after_of_writes_sub hostOps2_1 _ hostOps2_1_writes (by decide)).trans <|
      StableHlo.after_of_writes_sub hostOps2 _ hostOps2_writes (by decide)

theorem entry2_arg (X : Valuation τ sig (Elt Ideal)) (r : Ref sig .tc) (hr : r ∈ argRefs) : at2 X r = X r :=
  (StableHlo.after_of_writes_sub hostOps2_2 _ hostOps2_2_writes ((by decide : ∀ r ∈ argRefs, r ∉ hostOps2_2_W) r hr)).trans <|
    (StableHlo.after_of_writes_sub hostOps2_1 _ hostOps2_1_writes ((by decide : ∀ r ∈ argRefs, r ∉ hostOps2_1_W) r hr)).trans <|
      StableHlo.after_of_writes_sub hostOps2 _ hostOps2_writes ((by decide : ∀ r ∈ argRefs, r ∉ hostOps2_W) r hr)

theorem entry2_W (X : Valuation τ sig (Elt Ideal)) (k j : Fin 128) :
    (at2 X main_v44 (ValueIdx.ix2 k j) : EReal) = X main_arg7 (ValueIdx.ix2 k j) := by
  have e : (at2 X main_v44 : S128x128.Idx → EReal)
      = truncf (F := Ideal) FTy.bf16 (X main_arg7 : FVec Ideal S128x128 FTy.f32) bitsLt_bf16_f32 := by
    dsimp only [at2, hostOps2_2, hostOps2_1, hostOps2]; after_results <;> rfl
  exact (congrFun e _).trans (ValueIdx.truncf_apply (ψ := FTy.bf16) (φ := FTy.f32) _ bitsLt_bf16_f32 _)

theorem entry2_b (X : Valuation τ sig (Elt Ideal)) (j : Fin 128) :
    (at2 X main_v45 (ValueIdx.ix2 (0 : Fin 1) j) : EReal) = X main_arg8 (ValueIdx.ix1 j) := by
  have e : (at2 X main_v45 : S1x128.Idx → EReal) = shapeCast S1x128 (X main_arg8 : S128.Idx → EReal) shapeCasts_S128_S1x128 := by
    dsimp only [at2, hostOps2_2, hostOps2_1, hostOps2]; after_results <;> rfl
  exact (congrFun e _).trans (ValueIdx.shapeCast_a_1a_apply _ _ _ _)

theorem entry3_h (X : Valuation τ sig (Elt Ideal)) (r : Fin 10240) (k : Fin 128) :
    (at3 X main_v53 (ValueIdx.ix2 r k) : EReal) = if r.val < 10000 then (X main_v47 (ValueIdx.ix2 r k) : EReal) else (0 : EReal) := by
  have e : (at3 X main_v53 : S10240x128.Idx → EReal)
      = nodeRows (X main_v47 : S10240x128.Idx → EReal) := by
    dsimp only [at3, hostOps3_2, hostOps3_1, hostOps3]; after_results <;> rfl
  exact (congrFun e _).trans (masked_apply _ _ _ _ _ r k)

theorem entry3_hb (X : Valuation τ sig (Elt Ideal)) (r : Fin 10240) (k : Fin 128) :
    (at3 X main_v62 (ValueIdx.ix2 r k) : EReal) = if r.val < 10000 then (X main_v47 (ValueIdx.ix2 r k) : EReal) else (0 : EReal) := by
  have e : (at3 X main_v62 : S10240x128.Idx → EReal)
      = truncf (F := Ideal) FTy.bf16 (nodeRows (X main_v47 : FVec Ideal S10240x128 FTy.f32)) bitsLt_bf16_f32 := by
    dsimp only [at3, hostOps3_2, hostOps3_1, hostOps3]; after_results <;> rfl
  exact (congrFun e _).trans ((ValueIdx.truncf_apply (ψ := FTy.bf16) (φ := FTy.f32) _ bitsLt_bf16_f32 _).trans (masked_apply _ _ _ _ _ r k))

theorem entry3_A_keep (X : Valuation τ sig (Elt Ideal)) : at3 X main_v16 = X main_v16 :=
  (StableHlo.after_of_writes_sub hostOps3_2 _ hostOps3_2_writes (by decide)).trans <|
    (StableHlo.after_of_writes_sub hostOps3_1 _ hostOps3_1_writes (by decide)).trans <|
      StableHlo.after_of_writes_sub hostOps3 _ hostOps3_writes (by decide)

theorem entry3_arg (X : Valuation τ sig (Elt Ideal)) (r : Ref sig .tc) (hr : r ∈ argRefs) : at3 X r = X r :=
  (StableHlo.after_of_writes_sub hostOps3_2 _ hostOps3_2_writes ((by decide : ∀ r ∈ argRefs, r ∉ hostOps3_2_W) r hr)).trans <|
    (StableHlo.after_of_writes_sub hostOps3_1 _ hostOps3_1_writes ((by decide : ∀ r ∈ argRefs, r ∉ hostOps3_1_W) r hr)).trans <|
      StableHlo.after_of_writes_sub hostOps3 _ hostOps3_writes ((by decide : ∀ r ∈ argRefs, r ∉ hostOps3_W) r hr)

end Cert.KernelIdeal.HostVal

end
-- ==== Proof.KI.HostVals2.lean ====
/- What the first layer starts from (the features with zero rows appended) and how the result is cut out of the last layer's array. -/
import proofs.«414469_j73718818669208_3_alg».proof.Proof.KI.HostVals0

set_option maxRecDepth 4096

noncomputable section

namespace Cert.KernelIdeal.HostVal

open Cert.KernelIdeal Cert.KernelIdeal.Gen
open Idealize.ShloMosaic Idealize.ShloMosaic.TcCoe
open Idealize.SL.Sem

theorem later_h (Y : Valuation τ sig (Elt Ideal)) :
    (StableHlo.after hostOps0_4 (StableHlo.after hostOps0_3 (StableHlo.after hostOps0_2 (StableHlo.after hostOps0_1 Y))) main_v23
        : S10240x128.Idx → EReal)
      = nodeRows (pad S10240x128 ![0, 0] ![240, 0] ![0, 0] (Y main_arg0 : S10000x128.Idx → EReal) (sitofp (F := Ideal) FTy.f32 (Y main_c_5 : IVec S_ 32)) pads_S10000x128_S10240x128_02400_000 h_S_) := by
  dsimp only [hostOps0_4, hostOps0_3, hostOps0_2, hostOps0_1]; after_results <;> rfl

theorem later_hb (Y : Valuation τ sig (Elt Ideal)) :
    (StableHlo.after hostOps0_4 (StableHlo.after hostOps0_3 (StableHlo.after hostOps0_2 (StableHlo.after hostOps0_1 Y))) main_v26
        : S10240x128.Idx → EReal)
      = truncf (F := Ideal) FTy.bf16
          (StableHlo.after hostOps0_4 (StableHlo.after hostOps0_3 (StableHlo.after hostOps0_2 (StableHlo.after hostOps0_1 Y))) main_v23
            : FVec Ideal S10240x128 FTy.f32) bitsLt_bf16_f32 := by
  dsimp only [hostOps0_4, hostOps0_3, hostOps0_2, hostOps0_1]; after_results <;> rfl

theorem later_W (Y : Valuation τ sig (Elt Ideal)) :
    (StableHlo.after hostOps0_4 (StableHlo.after hostOps0_3 (StableHlo.after hostOps0_2 (StableHlo.after hostOps0_1 Y))) main_v24
        : S128x128.Idx → EReal)
      = truncf (F := Ideal) FTy.bf16 (Y main_arg3 : FVec Ideal S128x128 FTy.f32) bitsLt_bf16_f32 := by
  dsimp only [hostOps0_4, hostOps0_3, hostOps0_2, hostOps0_1]; after_results <;> rfl

theorem later_b (Y : Valuation τ sig (Elt Ideal)) :
    (StableHlo.after hostOps0_4 (StableHlo.after hostOps0_3 (StableHlo.after hostOps0_2 (StableHlo.after hostOps0_1 Y))) main_v25
        : S1x128.Idx → EReal)
      = shapeCast S1x128 (Y main_arg4 : S128.Idx → EReal) shapeCasts_S128_S1x128 := by
  dsimp only [hostOps0_4, hostOps0_3, hostOps0_2, hostOps0_1]; after_results <;> rfl

theorem entry0_h (X : Valuation τ sig (Elt Ideal)) (r : Fin 10240) (k : Fin 128) :
    (at0 X main_v23 (ValueIdx.ix2 r k) : EReal) = GinSpec.pad (fun v k => (X main_arg0 (ValueIdx.ix2 v k) : EReal)) r k := by
  refine (congrFun (later_h (StableHlo.after hostOps0 X)) _).trans ((masked_apply _ _ _ _ _ r k).trans ?_)
  unfold GinSpec.pad
  by_cases hr : r.val < 10000
  · rw [if_pos hr, dif_pos hr, padded_apply _ _ _ _ r k hr]
    exact congrFun (StableHlo.after_of_writes_sub hostOps0 X hostOps0_writes (by decide : main_arg0 ∉ hostOps0_W)) _
  · rw [if_neg hr, dif_neg hr]

theorem entry0_hb (X : Valuation τ sig (Elt Ideal)) (r : Fin 10240) (k : Fin 128) :
    (at0 X main_v26 (ValueIdx.ix2 r k) : EReal) = GinSpec.pad (fun v k => (X main_arg0 (ValueIdx.ix2 v k) : EReal)) r k := by
  exact (congrFun (later_hb (StableHlo.after hostOps0 X)) _).trans ((ValueIdx.truncf_apply (ψ := FTy.bf16) (φ := FTy.f32) _ bitsLt_bf16_f32 _).trans (entry0_h X r k))

theorem entry0_W (X : Valuation τ sig (Elt Ideal)) (k j : Fin 128) :
    (at0 X main_v24 (ValueIdx.ix2 k j) : EReal) = X main_arg3 (ValueIdx.ix2 k j) := by
  refine (congrFun (later_W (StableHlo.after hostOps0 X)) _).trans ((ValueIdx.truncf_apply (ψ := FTy.bf16) (φ := FTy.f32) _ bitsLt_bf16_f32 _).trans ?_)
  exact congrFun (StableHlo.after_of_writes_sub hostOps0 X hostOps0_writes (by decide : main_arg3 ∉ hostOps0_W)) _

theorem entry0_b (X : Valuation τ sig (Elt Ideal)) (j : Fin 128) :
    (at0 X main_v25 (ValueIdx.ix2 (0 : Fin 1) j) : EReal) = X main_arg4 (ValueIdx.ix1 j) := by
  refine (congrFun (later_b (StableHlo.after hostOps0 X)) _).trans ((ValueIdx.shapeCast_a_1a_apply _ _ _ _).trans ?_)
  exact congrFun (StableHlo.after_of_writes_sub hostOps0 X hostOps0_writes (by decide : main_arg4 ∉ hostOps0_W)) _

theorem entry0_A_keep (X : Valuation τ sig (Elt Ideal)) : at0 X main_v16 = StableHlo.after hostOps0 X main_v16 :=
  (StableHlo.after_of_writes_sub hostOps0_4 _ hostOps0_4_writes (by decide)).trans <|
    (StableHlo.after_of_writes_sub hostOps0_3 _ hostOps0_3_writes (by decide)).trans <|
      (StableHlo.after_of_writes_sub hostOps0_2 _ hostOps0_2_writes (by decide)).trans <|
        StableHlo.after_of_writes_sub hostOps0_1 _ hostOps0_1_writes (by decide)

theorem entry0_arg (X : Valuation τ sig (Elt Ideal)) (r : Ref sig .tc) (hr : r ∈ argRefs) : at0 X r = X r :=
  (StableHlo.after_of_writes_sub hostOps0_4 _ hostOps0_4_writes ((by decide : ∀ r ∈ argRefs, r ∉ hostOps0_4_W) r hr)).trans <|
    (StableHlo.after_of_writes_sub hostOps0_3 _ hostOps0_3_writes ((by decide : ∀ r ∈ argRefs, r ∉ hostOps0_3_W) r hr)).trans <|
      (StableHlo.after_of_writes_sub hostOps0_2 _ hostOps0_2_writes ((by decide : ∀ r ∈ argRefs, r ∉ hostOps0_2_W) r hr)).trans <|
        (StableHlo.after_of_writes_sub hostOps0_1 _ hostOps0_1_writes ((by decide : ∀ r ∈ argRefs, r ∉ hostOps0_1_W) r hr)).trans <|
          StableHlo.after_of_writes_sub hostOps0 _ hostOps0_writes ((by decide : ∀ r ∈ argRefs, r ∉ hostOps0_W) r hr)

theorem exit_out (X : Valuation τ sig (Elt Ideal)) (v : Fin 10000) (j : Fin 64) :
    (StableHlo.after hostOps4 X main_v65 (ValueIdx.ix2 v j) : EReal)
      = X main_v63 (ValueIdx.ix2 (⟨v.val, by omega⟩ : Fin 10240) (⟨j.val, by omega⟩ : Fin 128)) := by
  have e : (StableHlo.after hostOps4 X main_v65 : S10000x64.Idx → EReal)
      = extractStridedSlice S10000x64 ![0, 0] (extractStridedSlice S10240x64 ![0, 0] (X main_v63 : S10240x128.Idx → EReal)
          slices_S10240x128_S10240x64_0_0) slices_S10240x64_S10000x64_0_0 := by
    dsimp only [hostOps4]; after_results <;> rfl
  exact (congrFun e _).trans (cut_apply _ _ _ v j)

theorem exit_arg (X : Valuation τ sig (Elt Ideal)) (r : Ref sig .tc) (hr : r ∈ argRefs) : StableHlo.after hostOps4 X r = X r :=
  StableHlo.after_of_writes_sub hostOps4 _ hostOps4_writes ((by decide : ∀ r ∈ argRefs, r ∉ hostOps4_W) r hr)

end Cert.KernelIdeal.HostVal

end
-- ==== Proof.Math.SetScatter.lean ====
/- A scatter that overwrites: a cell aimed at by exactly one update holds it, a cell aimed at by none keeps its value. -/
import Idealize.ShloMosaic.PureOps.ShapeOps

noncomputable section

namespace GinMath

open Idealize.ShloMosaic

theorem foldl_set_of_miss {α : Type} {s si u : Shape} {w : Nat} (d : ScatterDims s si u)
    (idx : IVec si w) (upd : u.Idx → α) (i : s.Idx) (l : List (Fin u.numel)) (r : s.Idx → α)
    (hmiss : ∀ n ∈ l, d.resultIdx? (u.rowMajor.symm n) idx ≠ some i) :
    (l.foldl (fun r n =>
        match d.resultIdx? (u.rowMajor.symm n) idx with
        | some k => fun i' => if i' = k then (fun _ b => b) (r k) (upd (u.rowMajor.symm n)) else r i'
        | none => r) r) i
      = r i := by
  induction l generalizing r with
  | nil => rfl
  | cons n l ih =>
    rw [List.foldl_cons, ih _ (fun m hm => hmiss m (List.mem_cons_of_mem _ hm))]
    have hn := hmiss n List.mem_cons_self
    cases h : d.resultIdx? (u.rowMajor.symm n) idx with
    | none => rfl
    | some k =>
      have hk : i ≠ k := fun e => hn (by rw [h, e])
      simp [hk]

theorem foldl_set_of_hit {α : Type} {s si u : Shape} {w : Nat} (d : ScatterDims s si u)
    (idx : IVec si w) (upd : u.Idx → α) (i : s.Idx) (j : u.Idx)
    (hinj : ∀ n : Fin u.numel, d.resultIdx? (u.rowMajor.symm n) idx = some i → u.rowMajor.symm n = j)
    (l : List (Fin u.numel)) (r : s.Idx → α)
    (hex : ∃ n ∈ l, d.resultIdx? (u.rowMajor.symm n) idx = some i) :
    (l.foldl (fun r n =>
        match d.resultIdx? (u.rowMajor.symm n) idx with
        | some k => fun i' => if i' = k then (fun _ b => b) (r k) (upd (u.rowMajor.symm n)) else r i'
        | none => r) r) i
      = upd j := by
  induction l generalizing r with
  | nil =>
    obtain ⟨n, hn, _⟩ := hex
    cases hn
  | cons n l ih =>
    rw [List.foldl_cons]
    by_cases hl : ∃ m ∈ l, d.resultIdx? (u.rowMajor.symm m) idx = some i
    · exact ih _ hl
    · have hmiss : ∀ m ∈ l, d.resultIdx? (u.rowMajor.symm m) idx ≠ some i :=
        fun m hm e => hl ⟨m, hm, e⟩
      rw [foldl_set_of_miss d idx upd i l _ hmiss]
      obtain ⟨m, hm, e⟩ := hex
      rcases List.mem_cons.mp hm with hmn | hm'
      · subst hmn
        rw [e]
        simp [hinj m e]
      · exact absurd ⟨m, hm', e⟩ hl

theorem scatter_set_of_hit {α : Type} {s si u : Shape} {w : Nat} (d : ScatterDims s si u)
    (x : s.Idx → α) (idx : IVec si w) (upd : u.Idx → α) (i : s.Idx) (j : u.Idx)
    (hj : d.resultIdx? j idx = some i)
    (hinj : ∀ j' : u.Idx, d.resultIdx? j' idx = some i → j' = j) :
    Host.scatter d (fun _ b => b) x idx upd i = upd j :=
  foldl_set_of_hit d idx upd i j (fun n hn => hinj _ hn) (List.finRange u.numel) x
    ⟨u.rowMajor j, List.mem_finRange _, by rw [Equiv.symm_apply_apply]; exact hj⟩

theorem scatter_set_of_miss {α : Type} {s si u : Shape} {w : Nat} (d : ScatterDims s si u)
    (x : s.Idx → α) (idx : IVec si w) (upd : u.Idx → α) (i : s.Idx)
    (hmiss : ∀ j : u.Idx, d.resultIdx? j idx ≠ some i) :
    Host.scatter d (fun _ b => b) x idx upd i = x i :=
  foldl_set_of_miss d idx upd i (List.finRange u.numel) x (fun n _ => hmiss _)

end GinMath
-- ==== Proof.KI.HostVals3.lean ====
/- The last layer's weights and bias widened from 64 to 128 columns with zeros. -/
import proofs.«414469_j73718818669208_3_alg».proof.Proof.KI.HostVals0
import proofs.«414469_j73718818669208_3_alg».proof.Proof.Math.SetScatter
import proofs.«414469_j73718818669208_3_alg».proof.Proof.Math.Dims

set_option maxRecDepth 4096

noncomputable section

namespace Cert.KernelIdeal.HostVal

open Cert.KernelIdeal Cert.KernelIdeal.Gen
open Idealize.ShloMosaic Idealize.ShloMosaic.TcCoe
open Idealize.SL.Sem

theorem padW_apply (d : ScatterDims S128x128 S1 S128x64) (h1 : d.updateWindowDims = [0, 1]) (h2 : d.insertedWindowDims = [])
    (h3 : d.scatterDimsToOperandDims = [1]) (h4 : d.indexVectorDim = 0)
    (hb : S_.BroadcastsInDim S128x128 (![] : Fin 0 → Fin S128x128.rank)) (hb1 : S_.BroadcastsInDim S1 (![] : Fin 0 → Fin S1.rank))
    (upd : S128x64.Idx → EReal) (k j : Fin 128) :
    Host.scatter d (fun _ b => b) (broadcastInDim S128x128 ![] hb (constant (F := Ideal) S_ FTy.f32 0x00000000#32))
        (broadcastInDim S1 ![] hb1 (constantI S_ 32 0#32)) upd (ValueIdx.ix2 k j)
      = if hj : j.val < 64 then upd (ValueIdx.ix2 k (⟨j.val, hj⟩ : Fin 64)) else (0 : EReal) := by
  have h0 : ((broadcastInDim S1 ![] hb1 (constantI S_ 32 0#32) : IVec S1 32) (ValueIdx.ix1 (0 : Fin 1))).toInt = 0 := by
    show (0#32 : BitVec 32).toInt = 0
    decide
  have hiff := fun (j' : S128x64.Idx) => GinMath.padW_resultIdx d h1 h2 h3 h4 _ h0 j' (ValueIdx.ix2 k j)
  by_cases hj : j.val < 64
  · rw [dif_pos hj]
    refine GinMath.scatter_set_of_hit d _ _ upd _ (ValueIdx.ix2 k (⟨j.val, hj⟩ : Fin 64)) ((hiff _).mpr ⟨rfl, rfl⟩) (fun j' hj' => ?_)
    have hv := (hiff j').mp hj'
    funext a
    match a with
    | ⟨0, _⟩ => exact Fin.ext hv.1
    | ⟨1, _⟩ => exact Fin.ext hv.2
  · rw [dif_neg hj]
    refine (GinMath.scatter_set_of_miss d _ _ upd _ (fun j' hj' => ?_)).trans ?_
    · have hv := ((hiff j').mp hj').2
      have hlt : (j' 1).val < 64 := (j' 1).isLt
      exact hj (by rw [← show (j' 1).val = j.val from hv]; exact hlt)
    · rw [ValueIdx.broadcastInDim_scalar_apply, ValueIdx.constant_apply, Ideal.ofBits_zero_f32]

theorem padb_apply (d : ScatterDims S128 S1 S64) (h1 : d.updateWindowDims = [0]) (h2 : d.insertedWindowDims = [])
    (h3 : d.scatterDimsToOperandDims = [0]) (h4 : d.indexVectorDim = 0)
    (hb : S_.BroadcastsInDim S128 (![] : Fin 0 → Fin S128.rank)) (hb1 : S_.BroadcastsInDim S1 (![] : Fin 0 → Fin S1.rank))
    (upd : S64.Idx → EReal) (j : Fin 128) :
    Host.scatter d (fun _ b => b) (broadcastInDim S128 ![] hb (constant (F := Ideal) S_ FTy.f32 0x00000000#32))
        (broadcastInDim S1 ![] hb1 (constantI S_ 32 0#32)) upd (ValueIdx.ix1 j)
      = if hj : j.val < 64 then upd (ValueIdx.ix1 (⟨j.val, hj⟩ : Fin 64)) else (0 : EReal) := by
  have h0 : ((broadcastInDim S1 ![] hb1 (constantI S_ 32 0#32) : IVec S1 32) (ValueIdx.ix1 (0 : Fin 1))).toInt = 0 := by
    show (0#32 : BitVec 32).toInt = 0
    decide
  have hiff := fun (j' : S64.Idx) => GinMath.padb_resultIdx d h1 h2 h3 h4 _ h0 j' (ValueIdx.ix1 j)
  by_cases hj : j.val < 64
  · rw [dif_pos hj]
    refine GinMath.scatter_set_of_hit d _ _ upd _ (ValueIdx.ix1 (⟨j.val, hj⟩ : Fin 64)) ((hiff _).mpr rfl) (fun j' hj' => ?_)
    have hv := (hiff j').mp hj'
    funext a
    match a with
    | ⟨0, _⟩ => exact Fin.ext hv
  · rw [dif_neg hj]
    refine (GinMath.scatter_set_of_miss d _ _ upd _ (fun j' hj' => ?_)).trans ?_
    · have hv := (hiff j').mp hj'
      have hlt : (j' 0).val < 64 := (j' 0).isLt
      exact hj (by rw [← show (j' 0).val = j.val from hv]; exact hlt)
    · rw [ValueIdx.broadcastInDim_scalar_apply, ValueIdx.constant_apply, Ideal.ofBits_zero_f32]

theorem entry3_W (X : Valuation τ sig (Elt Ideal)) (k j : Fin 128) :
    (at3 X main_v60 (ValueIdx.ix2 k j) : EReal) = GinSpec.padW (fun k j => (X main_arg9 (ValueIdx.ix2 k j) : EReal)) k j := by
  have e : (at3 X main_v60 : S128x128.Idx → EReal)
      = truncf (F := Ideal) FTy.bf16
          (Host.scatter scatter_S128x128_S1_S128x64_01_n_1_0 (fun _ b => b)
            (broadcastInDim S128x128 ![] bcast_S_S128x128 (constant (F := Ideal) S_ FTy.f32 0x00000000#32))
            (broadcastInDim S1 ![] bcast_S_S1 (constantI S_ 32 0#32)) (X main_arg9 : S128x64.Idx → EReal)
            : FVec Ideal S128x128 FTy.f32) bitsLt_bf16_f32 := by
    dsimp only [at3, hostOps3_2, hostOps3_1, hostOps3]; after_results <;> rfl
  refine (congrFun e _).trans ((ValueIdx.truncf_apply (ψ := FTy.bf16) (φ := FTy.f32) _ bitsLt_bf16_f32 _).trans ?_)
  exact padW_apply scatter_S128x128_S1_S128x64_01_n_1_0 rfl rfl rfl rfl _ _ _ k j

theorem entry3_b (X : Valuation τ sig (Elt Ideal)) (j : Fin 128) :
    (at3 X main_v61 (ValueIdx.ix2 (0 : Fin 1) j) : EReal) = GinSpec.padb (fun j => (X main_arg10 (ValueIdx.ix1 j) : EReal)) j := by
  have e : (at3 X main_v61 : S1x128.Idx → EReal)
      = shapeCast S1x128
          (Host.scatter scatter_S128_S1_S64_0_n_0_0 (fun _ b => b)
            (broadcastInDim S128 ![] bcast_S_S128 (constant (F := Ideal) S_ FTy.f32 0x00000000#32))
            (broadcastInDim S1 ![] bcast_S_S1 (constantI S_ 32 0#32)) (X main_arg10 : S64.Idx → EReal)
            : S128.Idx → EReal) shapeCasts_S128_S1x128 := by
    dsimp only [at3, hostOps3_2, hostOps3_1, hostOps3]; after_results <;> rfl
  refine (congrFun e _).trans ((ValueIdx.shapeCast_a_1a_apply _ _ _ _).trans ?_)
  exact padb_apply scatter_S128_S1_S64_0_n_0_0 rfl rfl rfl rfl _ _ _ j

end Cert.KernelIdeal.HostVal

end
-- ==== Proof.Math.Agg.lean ====
/- On the extended reals a natural multiple n · x is x added n times; a sum over 10240 columns is the sum of its two halves. -/
import Mathlib.Data.EReal.Basic
import Mathlib.Data.EReal.Operations
import Mathlib.Algebra.BigOperators.Fin
import Mathlib.Algebra.BigOperators.Group.Finset.Basic

noncomputable section

namespace GinMath

theorem natCast_mul_eq_nsmul (n : ℕ) (x : EReal) : (((n : ℝ) : EReal)) * x = n • x := by
  induction n with
  | zero => simp
  | succ k ih =>
    have hk : (0 : EReal) ≤ ((k : ℝ) : EReal) := by exact_mod_cast Nat.cast_nonneg k
    have h1 : (0 : EReal) ≤ ((1 : ℝ) : EReal) := by exact_mod_cast zero_le_one
    rw [succ_nsmul, ← ih, Nat.cast_succ, EReal.coe_add, EReal.right_distrib_of_nonneg hk h1,
      EReal.coe_one, one_mul]

theorem sum_card_mul {E U : Type} [Fintype E] [Fintype U] [DecidableEq U] (s : E → U) (P : E → Prop)
    [DecidablePred P] (x : U → EReal) :
    ∑ u : U, ((((Finset.univ.filter (fun e : E => P e ∧ s e = u)).card : ℝ) : EReal)) * x u
      = ∑ e ∈ Finset.univ.filter P, x (s e) := by
  have hterm : ∀ u : U,
      ((((Finset.univ.filter (fun e : E => P e ∧ s e = u)).card : ℝ) : EReal)) * x u
        = ∑ e ∈ (Finset.univ.filter P).filter (fun e => s e = u), x (s e) := by
    intro u
    rw [natCast_mul_eq_nsmul, ← Finset.sum_const, Finset.filter_filter]
    refine Finset.sum_congr rfl fun e he => ?_
    rw [(Finset.mem_filter.mp he).2.2]
  rw [Finset.sum_congr rfl fun u _ => hterm u]
  exact Finset.sum_fiberwise _ _ _

theorem sum_fin_10240_split (f : Fin 10240 → EReal) :
    ∑ u : Fin 10240, f u
      = (∑ u : Fin 5120, f ⟨u.val, by omega⟩) + ∑ u : Fin 5120, f ⟨5120 + u.val, by omega⟩ :=
  Fin.sum_univ_add (a := 5120) (b := 5120) f

end GinMath
-- ==== Proof.Math.Layer.lean ====
/- A layer computed on zero-padded arrays, its sum over sources written with a count matrix, agrees on the node rows with the layer itself. -/
import proofs.«414469_j73718818669208_3_alg».proof.Proof.Spec
import proofs.«414469_j73718818669208_3_alg».proof.Proof.Math.Agg

noncomputable section

namespace GinMath

open GinSpec

theorem pad_of_lt (h : Fin 10000 → Fin 128 → EReal) (u : Fin 10000) (hu : u.val < 10240) (k : Fin 128) :
    pad h ⟨u.val, hu⟩ k = h u k := by
  unfold pad
  rw [dif_pos u.isLt]

theorem kagg_eq_agg (src dst : Fin 640000 → Fin 10000) (h : Fin 10000 → Fin 128 → EReal)
    (v : Fin 10000) (hv : v.val < 10240) (k : Fin 128) :
    ((0 + ∑ u : Fin 5120, cnt src dst ⟨v.val, hv⟩ ⟨u.val, by omega⟩ * pad h ⟨u.val, by omega⟩ k)
        + ∑ u : Fin 5120, cnt src dst ⟨v.val, hv⟩ ⟨5120 + u.val, by omega⟩ * pad h ⟨5120 + u.val, by omega⟩ k)
      = agg src dst h v k := by
  rw [zero_add, ← sum_fin_10240_split (fun u => cnt src dst ⟨v.val, hv⟩ u * pad h u k)]
  have hlt : ∀ e : Fin 640000, (src e).val < 10240 := fun e => by have := (src e).isLt; omega
  have key := sum_card_mul (E := Fin 640000) (U := Fin 10240)
    (fun e => (⟨(src e).val, hlt e⟩ : Fin 10240)) (fun e => (dst e).val = v.val) (fun u => pad h u k)
  simp only [Fin.ext_iff] at key
  unfold cnt agg
  rw [key]
  have hfilter : Finset.univ.filter (fun e : Fin 640000 => (dst e).val = v.val)
      = Finset.univ.filter (fun e : Fin 640000 => dst e = v) :=
    Finset.filter_congr fun e _ => Fin.ext_iff.symm
  rw [hfilter]
  exact Finset.sum_congr rfl fun e _ => pad_of_lt h (src e) (hlt e) k

theorem klin_eq_lin (src dst : Fin 640000 → Fin 10000) (h : Fin 10000 → Fin 128 → EReal)
    (W : Fin 128 → Fin 128 → EReal) (b : Fin 128 → EReal) (v : Fin 10000) (j : Fin 128) :
    klin (cnt src dst) (pad h) (pad h) W b ⟨v.val, by omega⟩ j = lin src dst h W b v j := by
  unfold klin lin
  congr 1
  refine Finset.sum_congr rfl fun k _ => ?_
  rw [kagg_eq_agg src dst h v _ k, pad_of_lt]

theorem klin_pad_eq_lin (src dst : Fin 640000 → Fin 10000) (h : Fin 10000 → Fin 128 → EReal)
    (W : Fin 128 → Fin 64 → EReal) (b : Fin 64 → EReal) (v : Fin 10000) (j : Fin 64) :
    klin (cnt src dst) (pad h) (pad h) (padW W) (padb b) ⟨v.val, by omega⟩ ⟨j.val, by omega⟩
      = lin src dst h W b v j := by
  unfold klin lin
  have hb : padb b ⟨j.val, by omega⟩ = b j := by
    unfold padb
    rw [dif_pos j.isLt]
  have hW : ∀ k : Fin 128, padW W k ⟨j.val, by omega⟩ = W k j := by
    intro k
    unfold padW
    rw [dif_pos j.isLt]
  rw [hb]
  congr 1
  refine Finset.sum_congr rfl fun k _ => ?_
  rw [kagg_eq_agg src dst h v _ k, pad_of_lt, hW]

theorem pad_hid (src dst : Fin 640000 → Fin 10000) (h : Fin 10000 → Fin 128 → EReal)
    (W : Fin 128 → Fin 128 → EReal) (b : Fin 128 → EReal) (r : Fin 10240) (k : Fin 128) :
    (if r.val < 10000 then max (klin (cnt src dst) (pad h) (pad h) W b r k) 0 else 0)
      = pad (hid src dst h W b) r k := by
  unfold pad
  by_cases hr : r.val < 10000
  · rw [if_pos hr, dif_pos hr]
    unfold hid
    exact congrArg (fun t => max t 0) (klin_eq_lin src dst h W b ⟨r.val, hr⟩ k)
  · rw [if_neg hr, dif_neg hr]

end GinMath
-- ==== Proof.KI.Net.lean ====
/- The kernel's result array holds the four-layer network: each layer's output array is the layer of the arrays it starts from. -/
import proofs.«414469_j73718818669208_3_alg».proof.Proof.KI.Launch
import proofs.«414469_j73718818669208_3_alg».proof.Proof.KI.Value0
import proofs.«414469_j73718818669208_3_alg».proof.Proof.KI.Value1
import proofs.«414469_j73718818669208_3_alg».proof.Proof.KI.Value2
import proofs.«414469_j73718818669208_3_alg».proof.Proof.KI.Value3
import proofs.«414469_j73718818669208_3_alg».proof.Proof.KI.HostA
import proofs.«414469_j73718818669208_3_alg».proof.Proof.KI.HostVals1
import proofs.«414469_j73718818669208_3_alg».proof.Proof.KI.HostVals2
import proofs.«414469_j73718818669208_3_alg».proof.Proof.KI.HostVals3
import proofs.«414469_j73718818669208_3_alg».proof.Proof.Math.Layer
import proofs.«414469_j73718818669208_3_alg».proof.Proof.Spec

noncomputable section

namespace Cert.KernelIdeal.Hand

open Cert.KernelIdeal Cert.KernelIdeal.Gen Cert.KernelIdeal.HostVal
open Idealize.ShloMosaic Idealize.ShloMosaic.TcCoe Idealize.SL.Sem
open GinSpec

theorem klin_congr {A A' : Fin 10240 → Fin 10240 → EReal} {hb hb' hr hr' : Fin 10240 → Fin 128 → EReal}
    {W W' : Fin 128 → Fin 128 → EReal} {b b' : Fin 128 → EReal}
    (hA : ∀ r u, A r u = A' r u) (hhb : ∀ r k, hb r k = hb' r k) (hhr : ∀ r k, hr r k = hr' r k)
    (hW : ∀ k j, W k j = W' k j) (hbb : ∀ j, b j = b' j) (r : Fin 10240) (j : Fin 128) :
    klin A hb hr W b r j = klin A' hb' hr' W' b' r j := by
  have e1 : A = A' := funext fun r => funext fun u => hA r u
  have e2 : hb = hb' := funext fun r => funext fun k => hhb r k
  have e3 : hr = hr' := funext fun r => funext fun k => hhr r k
  have e4 : W = W' := funext fun k => funext fun j => hW k j
  have e5 : b = b' := funext fun j => hbb j
  rw [e1, e2, e3, e4, e5]

variable (m : (ℓ : Loc nD τ sig) → Buf (Elt Ideal) ℓ) (ρ : Dev nD → PrngReg) (c : Dev nD)
  (src dst : Fin 640000 → Fin 10000)
  (hsrc : ∀ e : Fin 640000, (m ((c : Thread nD τ).loc main_arg1) (ValueIdx.ix1 e)).toInt = ((src e).val : ℤ))
  (hdst : ∀ e : Fin 640000, (m ((c : Thread nD τ).loc main_arg2) (ValueIdx.ix1 e)).toInt = ((dst e).val : ℤ))

abbrev feat : Fin 10000 → Fin 128 → EReal := fun v k => (m ((c : Thread nD τ).loc main_arg0) (ValueIdx.ix2 v k) : EReal)
abbrev wA : Fin 128 → Fin 128 → EReal := fun k j => (m ((c : Thread nD τ).loc main_arg3) (ValueIdx.ix2 k j) : EReal)
abbrev bA : Fin 128 → EReal := fun j => (m ((c : Thread nD τ).loc main_arg4) (ValueIdx.ix1 j) : EReal)
abbrev wB : Fin 128 → Fin 128 → EReal := fun k j => (m ((c : Thread nD τ).loc main_arg5) (ValueIdx.ix2 k j) : EReal)
abbrev bB : Fin 128 → EReal := fun j => (m ((c : Thread nD τ).loc main_arg6) (ValueIdx.ix1 j) : EReal)
abbrev wC : Fin 128 → Fin 128 → EReal := fun k j => (m ((c : Thread nD τ).loc main_arg7) (ValueIdx.ix2 k j) : EReal)
abbrev bC : Fin 128 → EReal := fun j => (m ((c : Thread nD τ).loc main_arg8) (ValueIdx.ix1 j) : EReal)
abbrev wD : Fin 128 → Fin 64 → EReal := fun k j => (m ((c : Thread nD τ).loc main_arg9) (ValueIdx.ix2 k j) : EReal)
abbrev bD : Fin 64 → EReal := fun j => (m ((c : Thread nD τ).loc main_arg10) (ValueIdx.ix1 j) : EReal)

abbrev featB : Fin 10000 → Fin 128 → EReal := hid src dst (feat m c) (wA m c) (bA m c)
abbrev featC : Fin 10000 → Fin 128 → EReal := hid src dst (featB m c src dst) (wB m c) (bB m c)
abbrev featD : Fin 10000 → Fin 128 → EReal := hid src dst (featC m c src dst) (wC m c) (bC m c)

theorem arg_ne_out : ∀ r ∈ argRefs, r ≠ main_v27 ∧ r ≠ main_v37 ∧ r ≠ main_v47 ∧ r ≠ main_v63 := by decide

theorem argAt5 (r : Ref sig .tc) (hr : r ∈ argRefs) : W5 m ρ c r = W0 m ρ c r := entry0_arg (W0 m ρ c) r hr
theorem argAt6 (r : Ref sig .tc) (hr : r ∈ argRefs) : W6 m ρ c r = W0 m ρ c r :=
  (W6_keep m ρ c r (arg_ne_out r hr).1).trans (argAt5 m ρ c r hr)
theorem argAt10 (r : Ref sig .tc) (hr : r ∈ argRefs) : W10 m ρ c r = W0 m ρ c r :=
  (W10_keep m ρ c r (arg_ne_out r hr).2.1).trans ((entry1_arg (W6 m ρ c) r hr).trans (argAt6 m ρ c r hr))
theorem argAt14 (r : Ref sig .tc) (hr : r ∈ argRefs) : W14 m ρ c r = W0 m ρ c r :=
  (W14_keep m ρ c r (arg_ne_out r hr).2.2.1).trans ((entry2_arg (W10 m ρ c) r hr).trans (argAt10 m ρ c r hr))

include hsrc hdst in

theorem cntAt5 (r u : Fin 10240) : (W5 m ρ c main_v16 (ValueIdx.ix2 r u) : EReal) = cnt src dst r u :=
  (congrFun (entry0_A_keep (W0 m ρ c)) _).trans (entry0_A (W0 m ρ c) src dst hsrc hdst r u)

theorem keepA6 : W6 m ρ c main_v16 = W5 m ρ c main_v16 := W6_keep m ρ c main_v16 (by decide)
theorem keepA9 : W9 m ρ c main_v16 = W5 m ρ c main_v16 := (entry1_A_keep (W6 m ρ c)).trans (keepA6 m ρ c)
theorem keepA10 : W10 m ρ c main_v16 = W5 m ρ c main_v16 := (W10_keep m ρ c main_v16 (by decide)).trans (keepA9 m ρ c)
theorem keepA13 : W13 m ρ c main_v16 = W5 m ρ c main_v16 := (entry2_A_keep (W10 m ρ c)).trans (keepA10 m ρ c)
theorem keepA14 : W14 m ρ c main_v16 = W5 m ρ c main_v16 := (W14_keep m ρ c main_v16 (by decide)).trans (keepA13 m ρ c)
theorem keepA17 : W17 m ρ c main_v16 = W5 m ρ c main_v16 := (entry3_A_keep (W14 m ρ c)).trans (keepA14 m ρ c)

include hsrc hdst in

theorem layA (r : Fin 10240) (k : Fin 128) :
    (W6 m ρ c main_v27 (ValueIdx.ix2 r k) : EReal)
      = max (klin (cnt src dst) (pad (feat m c)) (pad (feat m c)) (wA m c) (bA m c) r k) 0 := by
  rw [W6_out m ρ c]
  refine (arrAt0_out (V5 m ρ) c r k).trans (congrArg (fun x : EReal => max x (0 : EReal)) (klin_congr ?_ ?_ ?_ ?_ ?_ r k))
  · intro r u; exact cntAt5 m ρ c src dst hsrc hdst r u
  · intro r k; exact entry0_hb (W0 m ρ c) r k
  · intro r k; exact entry0_h (W0 m ρ c) r k
  · intro k j; exact entry0_W (W0 m ρ c) k j
  · intro j; exact entry0_b (W0 m ρ c) j

include hsrc hdst in

theorem layB (r : Fin 10240) (k : Fin 128) :
    (W10 m ρ c main_v37 (ValueIdx.ix2 r k) : EReal)
      = max (klin (cnt src dst) (pad (featB m c src dst)) (pad (featB m c src dst)) (wB m c) (bB m c) r k) 0 := by
  rw [W10_out m ρ c]
  refine (arrAt1_out (V9 m ρ) c r k).trans (congrArg (fun x : EReal => max x (0 : EReal)) (klin_congr ?_ ?_ ?_ ?_ ?_ r k))
  · intro r u; exact (congrFun (keepA9 m ρ c) _).trans (cntAt5 m ρ c src dst hsrc hdst r u)
  · intro r k
    refine (entry1_hb (W6 m ρ c) r k).trans ?_
    simp only [layA m ρ c src dst hsrc hdst]
    exact GinMath.pad_hid src dst (feat m c) (wA m c) (bA m c) r k
  · intro r k
    refine (entry1_h (W6 m ρ c) r k).trans ?_
    simp only [layA m ρ c src dst hsrc hdst]
    exact GinMath.pad_hid src dst (feat m c) (wA m c) (bA m c) r k
  · intro k j; exact (entry1_W (W6 m ρ c) k j).trans (congrFun (argAt6 m ρ c main_arg5 (by decide)) _)
  · intro j; exact (entry1_b (W6 m ρ c) j).trans (congrFun (argAt6 m ρ c main_arg6 (by decide)) _)

include hsrc hdst in

theorem layC (r : Fin 10240) (k : Fin 128) :
    (W14 m ρ c main_v47 (ValueIdx.ix2 r k) : EReal)
      = max (klin (cnt src dst) (pad (featC m c src dst)) (pad (featC m c src dst)) (wC m c) (bC m c) r k) 0 := by
  rw [W14_out m ρ c]
  refine (arrAt2_out (V13 m ρ) c r k).trans (congrArg (fun x : EReal => max x (0 : EReal)) (klin_congr ?_ ?_ ?_ ?_ ?_ r k))
  · intro r u; exact (congrFun (keepA13 m ρ c) _).trans (cntAt5 m ρ c src dst hsrc hdst r u)
  · intro r k
    refine (entry2_hb (W10 m ρ c) r k).trans ?_
    simp only [layB m ρ c src dst hsrc hdst]
    exact GinMath.pad_hid src dst (featB m c src dst) (wB m c) (bB m c) r k
  · intro r k
    refine (entry2_h (W10 m ρ c) r k).trans ?_
    simp only [layB m ρ c src dst hsrc hdst]
    exact GinMath.pad_hid src dst (featB m c src dst) (wB m c) (bB m c) r k
  · intro k j; exact (entry2_W (W10 m ρ c) k j).trans (congrFun (argAt10 m ρ c main_arg7 (by decide)) _)
  · intro j; exact (entry2_b (W10 m ρ c) j).trans (congrFun (argAt10 m ρ c main_arg8 (by decide)) _)

include hsrc hdst in

theorem layD (r : Fin 10240) (j : Fin 128) :
    (W18 m ρ c main_v63 (ValueIdx.ix2 r j) : EReal)
      = klin (cnt src dst) (pad (featD m c src dst)) (pad (featD m c src dst)) (padW (wD m c)) (padb (bD m c)) r j := by
  rw [W18_out m ρ c]
  refine (arrAt3_out (V17 m ρ) c r j).trans (klin_congr ?_ ?_ ?_ ?_ ?_ r j)
  · intro r u; exact (congrFun (keepA17 m ρ c) _).trans (cntAt5 m ρ c src dst hsrc hdst r u)
  · intro r k
    refine (entry3_hb (W14 m ρ c) r k).trans ?_
    simp only [layC m ρ c src dst hsrc hdst]
    exact GinMath.pad_hid src dst (featC m c src dst) (wC m c) (bC m c) r k
  · intro r k
    refine (entry3_h (W14 m ρ c) r k).trans ?_
    simp only [layC m ρ c src dst hsrc hdst]
    exact GinMath.pad_hid src dst (featC m c src dst) (wC m c) (bC m c) r k
  · intro k j
    refine (entry3_W (W14 m ρ c) k j).trans ?_
    rw [show (fun k j => (W14 m ρ c main_arg9 (ValueIdx.ix2 k j) : EReal)) = wD m c from
      funext fun k => funext fun j => congrFun (argAt14 m ρ c main_arg9 (by decide)) _]
  · intro j
    refine (entry3_b (W14 m ρ c) j).trans ?_
    rw [show (fun j => (W14 m ρ c main_arg10 (ValueIdx.ix1 j) : EReal)) = bD m c from
      funext fun j => congrFun (argAt14 m ρ c main_arg10 (by decide)) _]

include hsrc hdst in

theorem result_eq_net (v : Fin 10000) (j : Fin 64) :
    (W19 m ρ c main_v65 (ValueIdx.ix2 v j) : EReal)
      = net src dst (feat m c) (wA m c) (bA m c) (wB m c) (bB m c) (wC m c) (bC m c) (wD m c) (bD m c) v j := by
  refine (exit_out (W18 m ρ c) v j).trans ?_
  rw [layD m ρ c src dst hsrc hdst]
  exact GinMath.klin_pad_eq_lin src dst (featD m c src dst) (wD m c) (bD m c) v j

end Cert.KernelIdeal.Hand

end
-- ==== Proof.Ref.Agg.lean ====
/- One aggregation step of the reference: the gathered source rows summed into their destinations are the sum over the edges ending at the node. -/
import proofs.«414469_j73718818669208_3_alg».proof.Proof.Gen.ReferenceIdeal.Run
import proofs.«414469_j73718818669208_3_alg».proof.Proof.Gen.ReferenceIdeal.Read
import proofs.«414469_j73718818669208_3_alg».proof.Proof.Spec
import proofs.«414469_j73718818669208_3_alg».proof.Proof.Math.Dims
import Idealize.ShloMosaic.Lib.Affine
import Mathlib.Algebra.BigOperators.Group.Finset.Basic

noncomputable section

namespace Cert.ReferenceIdeal.RefValue

open Cert.ReferenceIdeal Cert.ReferenceIdeal.Gen Idealize.ShloMosaic Idealize.ShloMosaic.TcCoe Idealize.SL.Sem Idealize.ShloMosaic.StableHlo Cert.ReferenceIdeal.Read

theorem sum_pairs_eq {M : Type*} [AddCommMonoid M] {n0 n1 : ℕ} (P : (⟨2, ![n0, n1]⟩ : Shape).Idx → Prop) [DecidablePred P]
    (Q : Fin n0 → Prop) [DecidablePred Q] (k : Fin n1) (f : (⟨2, ![n0, n1]⟩ : Shape).Idx → M)
    (hP : ∀ e k', P (ValueIdx.ix2 e k') ↔ Q e ∧ k' = k) :
    ∑ j ∈ Finset.univ.filter P, f j = ∑ e ∈ Finset.univ.filter Q, f (ValueIdx.ix2 e k) := by
  rw [Finset.sum_filter, ValueIdx.sum_idx2, Finset.sum_filter]
  refine Finset.sum_congr rfl fun e _ => ?_
  rw [Finset.sum_congr rfl (fun k' _ => if_congr (hP e k') rfl rfl)]
  by_cases h : Q e
  · simp only [h, true_and, if_true]
    rw [Finset.sum_ite_eq', if_pos (Finset.mem_univ _)]
  · simp only [h, false_and, if_false, Finset.sum_const_zero]

section Layer

variable (x0 : (⟨S10000x128, .f32⟩ : BufTy).Contents (Elt Ideal)) (x1 x2 : (⟨S640000, .i32⟩ : BufTy).Contents (Elt Ideal))
  (src dst : Fin 640000 → Fin 10000)

theorem src_keep (hsrc : ∀ e : Fin 640000, (x1 (ValueIdx.ix1 e)).toInt = ((src e).val : ℤ)) (e : Fin 640000) :
    val_main_v5 (F := Ideal) x1 (ValueIdx.ix2 e 0) = x1 (ValueIdx.ix1 e) := by
  have hi : idx_main_v5 (ValueIdx.ix2 e (0 : Fin 1)) = ValueIdx.ix1 e :=
    funext fun a => Fin.ext (by match a with | ⟨0, _⟩ => rfl)
  rw [val_main_v5_apply, val_main_v4_apply, val_main_v1_apply, val_main_v0_apply, val_main_c_apply, hi]
  have h0 : ¬ IntOp.cmpi .slt (x1 (ValueIdx.ix1 e)) 0#32 = 1#1 := by
    rw [IntOp.cmpi_slt, hsrc e]
    have : (0#32 : BitVec 32).toInt = 0 := by decide
    omega
  exact if_neg h0

theorem gathered_apply (hsrc : ∀ e : Fin 640000, (x1 (ValueIdx.ix1 e)).toInt = ((src e).val : ℤ))
    (e : Fin 640000) (k : Fin 128) :
    val_main_v6 (F := Ideal) x0 x1 (ValueIdx.ix2 e k) = x0 (ValueIdx.ix2 (src e) k) := by
  have hv : (val_main_v5 (F := Ideal) x1 (ValueIdx.ix2 e 0)).toInt = ((src e).val : ℤ) := by
    rw [src_keep x1 src hsrc]; exact hsrc e
  have h : gather_S10000x128_S640000x1_S640000x128_1_0_n_n_0_1_1128.operandIdx (ValueIdx.ix2 e k) (val_main_v5 (F := Ideal) x1)
      = ValueIdx.ix2 (src e) k :=
    GinMath.take_operandIdx gather_S10000x128_S640000x1_S640000x128_1_0_n_n_0_1_1128 rfl rfl rfl rfl rfl rfl rfl
      (val_main_v5 (F := Ideal) x1) (ValueIdx.ix2 e k) (src e) hv
  unfold val_main_v6 Host.gather
  rw [h]

theorem dst_col (e : Fin 640000) : val_main_v8 (F := Ideal) x2 (ValueIdx.ix2 e 0) = x2 (ValueIdx.ix1 e) := by
  have hi : idx_main_v8 (ValueIdx.ix2 e (0 : Fin 1)) = ValueIdx.ix1 e :=
    funext fun a => Fin.ext (by match a with | ⟨0, _⟩ => rfl)
  rw [val_main_v8_apply, hi]

theorem lands_iff (hdst : ∀ e : Fin 640000, (x2 (ValueIdx.ix1 e)).toInt = ((dst e).val : ℤ))
    (v : Fin 10000) (k : Fin 128) (e : Fin 640000) (k' : Fin 128) :
    scatter_S10000x128_S640000x1_S640000x128_1_0_0_1.resultIdx? (ValueIdx.ix2 e k') (val_main_v8 (F := Ideal) x2)
        = some (ValueIdx.ix2 v k) ↔ dst e = v ∧ k' = k := by
  refine (GinMath.segsum_resultIdx scatter_S10000x128_S640000x1_S640000x128_1_0_0_1 rfl rfl rfl rfl
    (val_main_v8 (F := Ideal) x2) (ValueIdx.ix2 e k') (ValueIdx.ix2 v k)).trans ?_
  show (val_main_v8 (F := Ideal) x2 (ValueIdx.ix2 e 0)).toInt = (v.val : ℤ) ∧ k'.val = k.val ↔ _
  rw [dst_col, hdst]
  constructor
  · rintro ⟨h1, h2⟩
    exact ⟨Fin.ext (by exact_mod_cast h1), Fin.ext h2⟩
  · rintro ⟨h1, h2⟩
    exact ⟨by rw [h1], by rw [h2]⟩

theorem agg_apply (hsrc : ∀ e : Fin 640000, (x1 (ValueIdx.ix1 e)).toInt = ((src e).val : ℤ))
    (hdst : ∀ e : Fin 640000, (x2 (ValueIdx.ix1 e)).toInt = ((dst e).val : ℤ)) (v : Fin 10000) (k : Fin 128) :
    val_main_v9 (F := Ideal) x0 x1 x2 (ValueIdx.ix2 v k)
      = GinSpec.agg src dst (fun v k => x0 (ValueIdx.ix2 v k)) v k := by
  have hz : val_main_v7 (F := Ideal) (ValueIdx.ix2 v k) = 0 := by
    rw [val_main_v7_apply, val_main_cst_apply, Ideal.ofBits_def, Ideal.ofBits_zero_f32]
  unfold val_main_v9 Host.scatterAdd
  rw [Ideal.hostScatterAdd_def]
  unfold Ideal.hostScatterAdd GinSpec.agg
  rw [hz, zero_add, sum_pairs_eq _ (fun e => dst e = v) k _ (lands_iff x2 dst hdst v k)]
  exact Finset.sum_congr rfl fun e _ => gathered_apply x0 x1 src hsrc e k

theorem pre_apply (hsrc : ∀ e : Fin 640000, (x1 (ValueIdx.ix1 e)).toInt = ((src e).val : ℤ))
    (hdst : ∀ e : Fin 640000, (x2 (ValueIdx.ix1 e)).toInt = ((dst e).val : ℤ)) (v : Fin 10000) (k : Fin 128) :
    val_main_v12 (F := Ideal) x0 x1 x2 (ValueIdx.ix2 v k)
      = GinSpec.one * x0 (ValueIdx.ix2 v k) + GinSpec.agg src dst (fun v k => x0 (ValueIdx.ix2 v k)) v k := by
  rw [val_main_v12_apply, val_main_v11_apply, val_main_v10_apply, val_main_cst_1_apply, agg_apply x0 x1 x2 src dst hsrc hdst]
  rfl

end Layer

end Cert.ReferenceIdeal.RefValue

end
-- ==== Proof.Ref.Value.lean ====
/- The reference's result, entry by entry, is the four layers composed. -/
import proofs.«414469_j73718818669208_3_alg».proof.Proof.Ref.Agg

noncomputable section

namespace Cert.ReferenceIdeal.RefValue

open Cert.ReferenceIdeal Cert.ReferenceIdeal.Gen Idealize.ShloMosaic Idealize.ShloMosaic.TcCoe Idealize.SL.Sem Idealize.ShloMosaic.StableHlo Cert.ReferenceIdeal.Read

section Layers

variable (x0 : (⟨S10000x128, .f32⟩ : BufTy).Contents (Elt Ideal)) (x1 x2 : (⟨S640000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x64, .f32⟩ : BufTy).Contents (Elt Ideal)) (x10 : (⟨S64, .f32⟩ : BufTy).Contents (Elt Ideal))
  (src dst : Fin 640000 → Fin 10000)

theorem lin_apply (hsrc : ∀ e : Fin 640000, (x1 (ValueIdx.ix1 e)).toInt = ((src e).val : ℤ))
    (hdst : ∀ e : Fin 640000, (x2 (ValueIdx.ix1 e)).toInt = ((dst e).val : ℤ)) (v : Fin 10000) (j : Fin 128) :
    val_main_v16 (F := Ideal) x0 x1 x2 x3 x4 (ValueIdx.ix2 v j)
      = GinSpec.lin src dst (fun v k => x0 (ValueIdx.ix2 v k)) (fun k j => x3 (ValueIdx.ix2 k j))
          (fun j => x4 (ValueIdx.ix1 j)) v j := by
  have hl : ∀ k : Fin 128, lidx_main_v13 (ValueIdx.ix2 v j) k = ValueIdx.ix2 v k := fun k =>
    funext fun a => Fin.ext (by match a with | ⟨0, _⟩ => rfl | ⟨1, _⟩ => rfl)
  have hr : ∀ k : Fin 128, ridx_main_v13 (ValueIdx.ix2 v j) k = ValueIdx.ix2 k j := fun k =>
    funext fun a => Fin.ext (by match a with | ⟨0, _⟩ => rfl | ⟨1, _⟩ => rfl)
  have hb : idx_main_v14 (idx_main_v15 (ValueIdx.ix2 v j)) = ValueIdx.ix1 j :=
    funext fun a => Fin.ext (by match a with | ⟨0, _⟩ => rfl)
  rw [val_main_v16_apply, val_main_v13_apply, val_main_v15_apply, val_main_v14_apply, hb]
  simp only [hl, hr, pre_apply x0 x1 x2 src dst hsrc hdst]
  rfl

theorem hid_apply (hsrc : ∀ e : Fin 640000, (x1 (ValueIdx.ix1 e)).toInt = ((src e).val : ℤ))
    (hdst : ∀ e : Fin 640000, (x2 (ValueIdx.ix1 e)).toInt = ((dst e).val : ℤ)) (v : Fin 10000) (j : Fin 128) :
    val_main_v17 (F := Ideal) x0 x1 x2 x3 x4 (ValueIdx.ix2 v j)
      = GinSpec.hid src dst (fun v k => x0 (ValueIdx.ix2 v k)) (fun k j => x3 (ValueIdx.ix2 k j))
          (fun j => x4 (ValueIdx.ix1 j)) v j := by
  rw [val_main_v17_apply, val_main_call0_v0_apply, val_main_call0_cst_apply,
    lin_apply x0 x1 x2 x3 x4 src dst hsrc hdst, Ideal.ofBits_def, Ideal.ofBits_zero_f32]
  rfl

theorem hid_fun (hsrc : ∀ e : Fin 640000, (x1 (ValueIdx.ix1 e)).toInt = ((src e).val : ℤ))
    (hdst : ∀ e : Fin 640000, (x2 (ValueIdx.ix1 e)).toInt = ((dst e).val : ℤ)) :
    (fun (v : Fin 10000) (k : Fin 128) => val_main_v17 (F := Ideal) x0 x1 x2 x3 x4 (ValueIdx.ix2 v k))
      = GinSpec.hid src dst (fun v k => x0 (ValueIdx.ix2 v k)) (fun k j => x3 (ValueIdx.ix2 k j))
          (fun j => x4 (ValueIdx.ix1 j)) :=
  funext fun v => funext fun k => hid_apply x0 x1 x2 x3 x4 src dst hsrc hdst v k

theorem second_eq : val_main_v35 (F := Ideal) x0 x1 x2 x3 x4 x5 x6
    = val_main_v17 (F := Ideal) (val_main_v17 (F := Ideal) x0 x1 x2 x3 x4) x1 x2 x5 x6 := rfl
theorem third_eq : val_main_v53 (F := Ideal) x0 x1 x2 x3 x4 x5 x6 x7 x8
    = val_main_v17 (F := Ideal) (val_main_v35 (F := Ideal) x0 x1 x2 x3 x4 x5 x6) x1 x2 x7 x8 := rfl
theorem fourth_pre_eq : val_main_v66 (F := Ideal) x0 x1 x2 x3 x4 x5 x6 x7 x8
    = val_main_v12 (F := Ideal) (val_main_v53 (F := Ideal) x0 x1 x2 x3 x4 x5 x6 x7 x8) x1 x2 := rfl

theorem out_apply (hsrc : ∀ e : Fin 640000, (x1 (ValueIdx.ix1 e)).toInt = ((src e).val : ℤ))
    (hdst : ∀ e : Fin 640000, (x2 (ValueIdx.ix1 e)).toInt = ((dst e).val : ℤ)) (v : Fin 10000) (j : Fin 64) :
    val_main_v70 (F := Ideal) x0 x1 x2 x3 x4 x5 x6 x7 x8 x9 x10 (ValueIdx.ix2 v j)
      = GinSpec.lin src dst (fun v k => val_main_v53 (F := Ideal) x0 x1 x2 x3 x4 x5 x6 x7 x8 (ValueIdx.ix2 v k))
          (fun k j => x9 (ValueIdx.ix2 k j)) (fun j => x10 (ValueIdx.ix1 j)) v j := by
  have hl : ∀ k : Fin 128, lidx_main_v67 (ValueIdx.ix2 v j) k = ValueIdx.ix2 v k := fun k =>
    funext fun a => Fin.ext (by match a with | ⟨0, _⟩ => rfl | ⟨1, _⟩ => rfl)
  have hr : ∀ k : Fin 128, ridx_main_v67 (ValueIdx.ix2 v j) k = ValueIdx.ix2 k j := fun k =>
    funext fun a => Fin.ext (by match a with | ⟨0, _⟩ => rfl | ⟨1, _⟩ => rfl)
  have hb : idx_main_v68 (idx_main_v69 (ValueIdx.ix2 v j)) = ValueIdx.ix1 j :=
    funext fun a => Fin.ext (by match a with | ⟨0, _⟩ => rfl)
  rw [val_main_v70_apply, val_main_v67_apply, val_main_v69_apply, val_main_v68_apply, hb, fourth_pre_eq]
  simp only [hl, hr, pre_apply (val_main_v53 (F := Ideal) x0 x1 x2 x3 x4 x5 x6 x7 x8) x1 x2 src dst hsrc hdst]
  rfl

theorem net_apply (hsrc : ∀ e : Fin 640000, (x1 (ValueIdx.ix1 e)).toInt = ((src e).val : ℤ))
    (hdst : ∀ e : Fin 640000, (x2 (ValueIdx.ix1 e)).toInt = ((dst e).val : ℤ)) (v : Fin 10000) (j : Fin 64) :
    val_main_v70 (F := Ideal) x0 x1 x2 x3 x4 x5 x6 x7 x8 x9 x10 (ValueIdx.ix2 v j)
      = GinSpec.net src dst (fun v k => x0 (ValueIdx.ix2 v k))
          (fun k j => x3 (ValueIdx.ix2 k j)) (fun j => x4 (ValueIdx.ix1 j))
          (fun k j => x5 (ValueIdx.ix2 k j)) (fun j => x6 (ValueIdx.ix1 j))
          (fun k j => x7 (ValueIdx.ix2 k j)) (fun j => x8 (ValueIdx.ix1 j))
          (fun k j => x9 (ValueIdx.ix2 k j)) (fun j => x10 (ValueIdx.ix1 j)) v j := by
  rw [out_apply x0 x1 x2 x3 x4 x5 x6 x7 x8 x9 x10 src dst hsrc hdst, third_eq, second_eq,
    hid_fun (val_main_v17 (F := Ideal) (val_main_v17 (F := Ideal) x0 x1 x2 x3 x4) x1 x2 x5 x6) x1 x2 x7 x8 src dst hsrc hdst,
    hid_fun (val_main_v17 (F := Ideal) x0 x1 x2 x3 x4) x1 x2 x5 x6 src dst hsrc hdst,
    hid_fun x0 x1 x2 x3 x4 src dst hsrc hdst]
  rfl

end Layers

theorem res_eq_net (m : (ℓ : Loc nD τ sig) → Buf (Elt Ideal) ℓ) (c : Dev nD) (src dst : Fin 640000 → Fin 10000)
    (hsrc : ∀ e : Fin 640000, (m ((c.tc : Thread nD τ).loc main_arg1) (ValueIdx.ix1 e)).toInt = ((src e).val : ℤ))
    (hdst : ∀ e : Fin 640000, (m ((c.tc : Thread nD τ).loc main_arg2) (ValueIdx.ix1 e)).toInt = ((dst e).val : ℤ))
    (v : Fin 10000) (j : Fin 64) :
    Cert.ReferenceIdeal.Value.res_out0 (F := Ideal) m c (ValueIdx.ix2 v j)
      = GinSpec.net src dst (fun v k => m ((c.tc : Thread nD τ).loc main_arg0) (ValueIdx.ix2 v k))
          (fun k j => m ((c.tc : Thread nD τ).loc main_arg3) (ValueIdx.ix2 k j)) (fun j => m ((c.tc : Thread nD τ).loc main_arg4) (ValueIdx.ix1 j))
          (fun k j => m ((c.tc : Thread nD τ).loc main_arg5) (ValueIdx.ix2 k j)) (fun j => m ((c.tc : Thread nD τ).loc main_arg6) (ValueIdx.ix1 j))
          (fun k j => m ((c.tc : Thread nD τ).loc main_arg7) (ValueIdx.ix2 k j)) (fun j => m ((c.tc : Thread nD τ).loc main_arg8) (ValueIdx.ix1 j))
          (fun k j => m ((c.tc : Thread nD τ).loc main_arg9) (ValueIdx.ix2 k j)) (fun j => m ((c.tc : Thread nD τ).loc main_arg10) (ValueIdx.ix1 j)) v j := by
  show Cert.ReferenceIdeal.Value.res_main_v70 (F := Ideal) m c (ValueIdx.ix2 v j) = _
  rw [val_main_v70_eq]
  exact net_apply _ _ _ _ _ _ _ _ _ _ _ src dst hsrc hdst v j

end Cert.ReferenceIdeal.RefValue

end
-- ==== Proof.Pre.lean ====
/- Under the precondition every source and destination index is a node number: 0 ≤ index < 10000. -/
import proofs.«414469_j73718818669208_3_alg».proof.Pre_finite_inputs
import proofs.«414469_j73718818669208_3_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Decode

open Idealize.ShloMosaic Idealize.ShloMosaic.ValueIdx

instance subsingleton_scalar_idx : Subsingleton S_.Idx := ⟨fun a b => funext fun d => d.elim0⟩

theorem toInt_zero : (0#32 : BitVec 32).toInt = 0 := by decide
theorem toInt_tenThousand : (10000#32 : BitVec 32).toInt = 10000 := by decide

theorem ge_of_all [Cert.Pre_finite_inputs.Facts] (x : IVec S640000 32) (c : BitVec 32) (init : IVec S_ 1)
    (e : Host.reduce IntOp.andi (cmpi .sge x (broadcastInDim S640000 ![] Facts.bcast_S_S640000 (constantI S_ 32 c))) init
      Facts.reducesTo_S640000_S_d0 Facts.h_S_ ix0 = 1#1) (i : S640000.Idx) : c.toInt ≤ (x i).toInt := by
  have hi := Host.reduce_andi_all _ init Facts.reducesTo_S640000_S_d0 Facts.h_S_ ix0 e i
  change IntOp.cmpi .sge (x i) c = 1#1 at hi
  exact IntOp.cmpi_sge.1 hi

theorem lt_of_all [Cert.Pre_finite_inputs.Facts] (x : IVec S640000 32) (c : BitVec 32) (init : IVec S_ 1)
    (e : Host.reduce IntOp.andi (cmpi .slt x (broadcastInDim S640000 ![] Facts.bcast_S_S640000 (constantI S_ 32 c))) init
      Facts.reducesTo_S640000_S_d0 Facts.h_S_ ix0 = 1#1) (i : S640000.Idx) : (x i).toInt < c.toInt := by
  have hi := Host.reduce_andi_all _ init Facts.reducesTo_S640000_S_d0 Facts.h_S_ ix0 e i
  change IntOp.cmpi .slt (x i) c = 1#1 at hi
  exact IntOp.cmpi_slt.1 hi

theorem range_of_pre {F : FTy → Type} [FloatOps F] [Cert.Pre_finite_inputs.Facts]
    (a0 : FVec F S10000x128 .f32) (a1 a2 : IVec S640000 32) (a3 : FVec F S128x128 .f32) (a4 : FVec F S128 .f32)
    (a5 : FVec F S128x128 .f32) (a6 : FVec F S128 .f32) (a7 : FVec F S128x128 .f32) (a8 : FVec F S128 .f32)
    (a9 : FVec F S128x64 .f32) (a10 : FVec F S64 .f32)
    (h : Cert.Pre_finite_inputs.fn (F := F) a0 a1 a2 a3 a4 a5 a6 a7 a8 a9 a10 = fun _ => 1#1) :
    (∀ i : S640000.Idx, 0 ≤ (a1 i).toInt ∧ (a1 i).toInt < 10000) ∧
      (∀ i : S640000.Idx, 0 ≤ (a2 i).toInt ∧ (a2 i).toInt < 10000) := by
  have e := congrFun h ix0
  dsimp only [Cert.Pre_finite_inputs.fn, fn_part1, fn_part2, fn_part3] at e

  obtain ⟨e, hd1⟩ := IntOp.andi_eq_one.1 e
  obtain ⟨e, hd0⟩ := IntOp.andi_eq_one.1 e
  obtain ⟨e, hs1⟩ := IntOp.andi_eq_one.1 e
  obtain ⟨-, hs0⟩ := IntOp.andi_eq_one.1 e
  refine ⟨fun i => ⟨?_, ?_⟩, fun i => ⟨?_, ?_⟩⟩
  · have := ge_of_all a1 0#32 _ hs0 i; rwa [toInt_zero] at this
  · have := lt_of_all a1 10000#32 _ hs1 i; rwa [toInt_tenThousand] at this
  · have := ge_of_all a2 0#32 _ hd0 i; rwa [toInt_zero] at this
  · have := lt_of_all a2 10000#32 _ hd1 i; rwa [toInt_tenThousand] at this

end Cert.Pre_finite_inputs.Decode

end
-- ==== Proof.lean ====
/-
  Four graph layers. A layer adds to every node's row the rows of the sources of the edges ending in it, multiplies by
  the layer's weights and adds its bias; the first three layers end in max(·, 0). The reference gathers and sums along
  the edge list. The kernel multiplies the dense matrix of edge multiplicities against the features, padded to 10240
  rows, tile by tile. Both compute `GinSpec.net`: a product with a count matrix is a sum over the edges, a natural
  multiple being an iterated sum on the extended reals, and the padded rows and columns hold zeros.
-/
import proofs.«414469_j73718818669208_3_alg».proof.Defs
import proofs.«414469_j73718818669208_3_alg».proof.Proof.Gen.Kernel
import proofs.«414469_j73718818669208_3_alg».proof.Proof.Gen.KernelIdeal
import proofs.«414469_j73718818669208_3_alg».proof.Proof.Gen.ReferenceIdeal
import proofs.«414469_j73718818669208_3_alg».proof.Proof.Gen.Pre_finite_inputs
import proofs.«414469_j73718818669208_3_alg».proof.Proof.K.Launch
import proofs.«414469_j73718818669208_3_alg».proof.Proof.KI.Net
import proofs.«414469_j73718818669208_3_alg».proof.Proof.Ref.Value
import proofs.«414469_j73718818669208_3_alg».proof.Proof.Pre

noncomputable section

namespace Cert.Proof

open Idealize.ShloMosaic Idealize.ShloMosaic.TcCoe Idealize.SL.Sem

def nodeOf (w : BitVec 32) (h : 0 ≤ w.toInt ∧ w.toInt < 10000) : Fin 10000 := ⟨w.toInt.toNat, by omega⟩

theorem nodeOf_val (w : BitVec 32) (h : 0 ≤ w.toInt ∧ w.toInt < 10000) : w.toInt = ((nodeOf w h).val : ℤ) := by
  simp only [nodeOf]; omega

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  have hrange := fun c : Dev Cert.KernelIdeal.nD =>
    Cert.Pre_finite_inputs.Decode.range_of_pre (F := Ideal) _ _ _ _ _ _ _ _ _ _ _ (hpre c)
  let src : Dev Cert.KernelIdeal.nD → Fin 640000 → Fin 10000 := fun c e => nodeOf _ ((hrange c).1 (ValueIdx.ix1 e))
  let dst : Dev Cert.KernelIdeal.nD → Fin 640000 → Fin 10000 := fun c e => nodeOf _ ((hrange c).2 (ValueIdx.ix1 e))
  have hsrc : ∀ (c : Dev Cert.KernelIdeal.nD) (e : Fin 640000), (m ((c.tc : Thread Cert.KernelIdeal.nD Cert.KernelIdeal.τ).loc Cert.KernelIdeal.main_arg1) (ValueIdx.ix1 e)).toInt = ((src c e).val : ℤ) :=
    fun c e => nodeOf_val _ _
  have hdst : ∀ (c : Dev Cert.KernelIdeal.nD) (e : Fin 640000), (m ((c.tc : Thread Cert.KernelIdeal.nD Cert.KernelIdeal.τ).loc Cert.KernelIdeal.main_arg2) (ValueIdx.ix1 e)).toInt = ((dst c e).val : ℤ) :=
    fun c e => nodeOf_val _ _
  refine ⟨fun c => Cert.KernelIdeal.Hand.W19 m ρ c Cert.KernelIdeal.main_v65, ?_, ?_⟩
  · exact (θ_run Cert.KernelIdeal.defs _ _).mono (fun r h c =>
      have k := Cert.KernelIdeal.Hand.kept m ρ c r.2.mem (h c)
      ⟨h c _ (Cert.KernelIdeal.Hand.mem_uc Cert.KernelIdeal.main_v65 (by decide)), k _ (by decide), k _ (by decide), k _ (by decide), k _ (by decide), k _ (by decide), k _ (by decide), k _ (by decide), k _ (by decide), k _ (by decide), k _ (by decide), k _ (by decide)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    funext i
    obtain ⟨v, j, rfl⟩ : ∃ (v : Fin 10000) (j : Fin 64), i = ValueIdx.ix2 v j := ⟨i 0, i 1, ValueIdx.eq_ix2 i⟩
    obtain ⟨e0, e1, e2, e3, e4, e5, e6, e7, e8, e9, e10⟩ := hagree c
    have hr := Cert.ReferenceIdeal.RefValue.res_eq_net m' c (src c) (dst c)
      (fun e => by rw [e1]; exact hsrc c e) (fun e => by rw [e2]; exact hdst c e) v j
    refine hr.trans ?_
    rw [e0, e3, e4, e5, e6, e7, e8, e9, e10]
    exact (Cert.KernelIdeal.Hand.result_eq_net m ρ c (src c) (dst c) (hsrc c) (hdst c) v j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
